-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x1 : Shape := ⟨2, ![800000, 1]⟩
abbrev S64x128 : Shape := ⟨2, ![64, 128]⟩
abbrev S64 : Shape := ⟨1, ![64]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S2x800000 32) (main_v28 : IVec S_ 1) (main_v33 : IVec S_ 1) : IVec S_ 1 :=
  let main_v34 : IVec S_ 1 := andi main_v28 main_v33
  let main_v35 : IVec S1x800000 32 := (extractStridedSlice S1x800000 ![0, 0] · slices_S2x800000_S1x800000_0_0) main_arg1
  let main_v36 : IVec S800000 32 := shapeCast S800000 main_v35 shapeCasts_S1x800000_S800000
  let main_c_12 : IVec S_ 32 := constantI S_ 32 50000#32
  let main_v37 : IVec S800000 32 := broadcastInDim S800000 ![] bcast_S_S800000 main_c_12
  let main_v38 : IVec S800000 1 := cmpi .slt main_v36 main_v37
  let main_c_13 : IVec S_ 1 := constantI S_ 1 1#1
  let main_v39 : IVec S_ 1 := (fun x v => Host.reduce IntOp.andi x v reducesTo_S800000_S_d0 h_S_) main_v38 main_c_13
  let main_v40 : IVec S_ 1 := andi main_v34 main_v39
  main_v40

def fn_part1 {F : FTy → Type} [FloatOps F] (main_arg1 : IVec S2x800000 32) (main_arg5 : FVec F S64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : IVec S1x800000 32 := (extractStridedSlice S1x800000 ![0, 0] · slices_S2x800000_S1x800000_0_0) main_arg1
  let main_v30 : IVec S800000 32 := shapeCast S800000 main_v29 shapeCasts_S1x800000_S800000
  let main_c_10 : IVec S_ 32 := constantI S_ 32 0#32
  let main_v31 : IVec S800000 32 := broadcastInDim S800000 ![] bcast_S_S800000 main_c_10
  let main_v32 : IVec S800000 1 := cmpi .sge main_v30 main_v31
  let main_c_11 : IVec S_ 1 := constantI S_ 1 1#1
  let main_v33 : IVec S_ 1 := (fun x v => Host.reduce IntOp.andi x v reducesTo_S800000_S_d0 h_S_) main_v32 main_c_11
  fn_part2 (F := F) main_arg1 main_v28 main_v33

def fn {F : FTy → Type} [FloatOps F] (main_arg0 : FVec F S50000x128 .f32) (main_arg1 : IVec S2x800000 32) (main_arg2 : FVec F S800000x1 .f32) (main_arg3 : FVec F S64x128 .f32) (main_arg4 : FVec F S64 .f32) (main_arg5 : FVec F S64 .f32) (main_arg6 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x1 .f32 := Host.absf main_arg2
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_v13 main_v16
-- ==== Kernel.lean ====
abbrev S50000x128 : Shape := ⟨2, ![50000, 128]⟩
abbrev S2x800000 : Shape := ⟨2, ![2, 800000]⟩
abbrev S800000x1 : Shape := ⟨2, ![800000, 1]⟩
abbrev S64x128 : Shape := ⟨2, ![64, 128]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S944 : Shape := ⟨1, ![944]⟩
abbrev S850944 : Shape := ⟨1, ![850944]⟩
abbrev S850944x1 : Shape := ⟨2, ![850944, 1]⟩
abbrev S831x1024 : Shape := ⟨2, ![831, 1024]⟩
abbrev S831 : Shape := ⟨1, ![831]⟩
abbrev S50000x1 : Shape := ⟨2, ![50000, 1]⟩
abbrev S50000x64 : Shape := ⟨2, ![50000, 64]⟩
abbrev S2000x128 : Shape := ⟨2, ![2000, 128]⟩
abbrev S2000x1 : Shape := ⟨2, ![2000, 1]⟩
abbrev S2000x64 : Shape := ⟨2, ![2000, 64]⟩
abbrev S128x64 : Shape := ⟨2, ![128, 64]⟩
abbrev S7344x64 : Shape := ⟨2, ![7344, 64]⟩
abbrev S57344x64 : Shape := ⟨2, ![57344, 64]⟩
abbrev S850944x64 : Shape := ⟨2, ![850944, 64]⟩
abbrev S1024 : Shape := ⟨1, ![1024]⟩
abbrev S1024x64 : Shape := ⟨2, ![1024, 64]⟩
abbrev S1024x1 : Shape := ⟨2, ![1024, 1]⟩
abbrev S1 : Shape := ⟨1, ![1]⟩
abbrev S1x4096 : Shape := ⟨2, ![1, 4096]⟩
abbrev S1024x4096 : Shape := ⟨2, ![1024, 4096]⟩
abbrev S4096x64 : Shape := ⟨2, ![4096, 64]⟩
abbrev S7344 : Shape := ⟨1, ![7344]⟩
abbrev S57344 : Shape := ⟨1, ![57344]⟩
abbrev S57344x1 : Shape := ⟨2, ![57344, 1]⟩
abbrev S1x64 : Shape := ⟨2, ![1, 64]⟩
abbrev S4096x1 : Shape := ⟨2, ![4096, 1]⟩
abbrev S1x1024 : Shape := ⟨2, ![1, 1024]⟩
abbrev S4096x1024 : Shape := ⟨2, ![4096, 1024]⟩

abbrev nBuf : Space → Nat
  | .hbm => 143
  | .vmem => 23
  | .smem => 4
  | _ => 0

abbrev hbmTy0_0 (i : Nat) : BufTy := match i % 128 with
  | 0 => ⟨S50000x128, .f32⟩
  | 1 => ⟨S2x800000, .i32⟩
  | 2 => ⟨S800000x1, .f32⟩
  | 3 => ⟨S64x128, .f32⟩
  | 4 => ⟨S64, .f32⟩
  | 5 => ⟨S64, .f32⟩
  | 6 => ⟨S64, .f32⟩
  | 7 => ⟨S50000, .i32⟩
  | 8 => ⟨S1x800000, .i32⟩
  | 9 => ⟨S800000, .i32⟩
  | 10 => ⟨S850000, .i32⟩
  | 11 => ⟨S1x800000, .i32⟩
  | 12 => ⟨S800000, .i32⟩
  | 13 => ⟨S850000, .i32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S944, .i32⟩
  | 33 => ⟨S850944, .i32⟩
  | 34 => ⟨S_, .i32⟩
  | 35 => ⟨S944, .i32⟩
  | 36 => ⟨S850944, .i32⟩
  | 37 => ⟨S_, .i32⟩
  | 38 => ⟨S_, .i32⟩
  | 39 => ⟨S850944, .i32⟩
  | 40 => ⟨S850944, .i32⟩
  | 41 => ⟨S850944, .i32⟩
  | 42 => ⟨S_, .i32⟩
  | 43 => ⟨S850944, .i32⟩
  | 44 => ⟨S850944, .i1⟩
  | 45 => ⟨S850944, .i32⟩
  | 46 => ⟨S850944, .i32⟩
  | 47 => ⟨S_, .i32⟩
  | 48 => ⟨S850944, .i32⟩
  | 49 => ⟨S850944, .i1⟩
  | 50 => ⟨S850944, .i1⟩
  | 51 => ⟨S_, .i32⟩
  | 52 => ⟨S850944, .i32⟩
  | 53 => ⟨S850944, .i32⟩
  | 54 => ⟨S850944, .i32⟩
  | 55 => ⟨S_, .i32⟩
  | 56 => ⟨S850944, .i32⟩
  | 57 => ⟨S850944, .i32⟩
  | 58 => ⟨S850944, .i32⟩
  | 59 => ⟨S850944, .i32⟩
  | 60 => ⟨S850944, .i32⟩
  | 61 => ⟨S850944, .i32⟩
  | 62 => ⟨S_, .i32⟩
  | 63 => ⟨S850944, .i32⟩
  | 64 => ⟨S850944, .i1⟩
  | 65 => ⟨S_, .i32⟩
  | 66 => ⟨S850944, .i32⟩
  | 67 => ⟨S850944, .i32⟩
  | 68 => ⟨S850944, .i32⟩
  | 69 => ⟨S850944x1, .i32⟩
  | 70 => ⟨S850944, .i32⟩
  | 71 => ⟨S_, .i32⟩
  | 72 => ⟨S850944, .i32⟩
  | 73 => ⟨S850944, .i1⟩
  | 74 => ⟨S_, .i32⟩
  | 75 => ⟨S850944, .i32⟩
  | 76 => ⟨S850944, .i32⟩
  | 77 => ⟨S850944, .i32⟩
  | 78 => ⟨S850944x1, .i32⟩
  | 79 => ⟨S850944, .i32⟩
  | 80 => ⟨S831x1024, .i32⟩
  | 81 => ⟨S831x1024, .i32⟩
  | 82 => ⟨S_, .i32⟩
  | 83 => ⟨S_, .i32⟩
  | 84 => ⟨S_, .i32⟩
  | 85 => ⟨S_, .i32⟩
  | 86 => ⟨S50000x1, .f32⟩
  | 87 => ⟨S50000x64, .f32⟩
  | 88 => ⟨S_, .f32⟩
  | 89 => ⟨S7344x64, .f32⟩
  | 90 => ⟨S57344x64, .f32⟩
  | 91 => ⟨S850944x64, .f32⟩
  | 92 => ⟨S_, .f32⟩
  | 93 => ⟨S7344, .f32⟩
  | 94 => ⟨S57344, .f32⟩
  | 95 => ⟨S57344x1, .f32⟩
  | 96 => ⟨S1x64, .f32⟩
  | 97 => ⟨S57344x64, .f32⟩
  | 98 => ⟨S50000x64, .f32⟩
  | 99 => ⟨S_, .f32⟩
  | 100 => ⟨S64, .f32⟩
  | 101 => ⟨S_, .f32⟩
  | 102 => ⟨S64, .f32⟩
  | 103 => ⟨S64, .f32⟩
  | 104 => ⟨S_, .i32⟩
  | 105 => ⟨S_, .f32⟩
  | 106 => ⟨S64, .f32⟩
  | 107 => ⟨S1x64, .f32⟩
  | 108 => ⟨S_, .f32⟩
  | 109 => ⟨S1x64, .f32⟩
  | 110 => ⟨S1x64, .f32⟩
  | 111 => ⟨S50000x64, .f32⟩
  | 112 => ⟨S50000x64, .f32⟩
  | 113 => ⟨S50000x64, .f32⟩
  | 114 => ⟨S_, .f32⟩
  | 115 => ⟨S_, .f32⟩
  | 116 => ⟨S_, .f32⟩
  | 117 => ⟨S_, .f32⟩
  | 118 => ⟨S64, .f32⟩
  | 119 => ⟨S64, .f32⟩
  | 120 => ⟨S64, .f32⟩
  | 121 => ⟨S_, .f32⟩
  | 122 => ⟨S_, .i1⟩
  | 123 => ⟨S_, .f32⟩
  | 124 => ⟨S_, .f32⟩
  | 125 => ⟨S64, .f32⟩
  | 126 => ⟨S64, .f32⟩
  | 127 => ⟨S1x64, .f32⟩
  | _ => ⟨S50000x128, .f32⟩

abbrev hbmTy0_1 (i : Nat) : BufTy := match i % 128 with
  | 0 => ⟨S50000x64, .f32⟩
  | 1 => ⟨S50000x64, .f32⟩
  | 2 => ⟨S1x64, .f32⟩
  | 3 => ⟨S50000x64, .f32⟩
  | 4 => ⟨S50000x64, .f32⟩
  | 5 => ⟨S_, .f32⟩
  | 6 => ⟨S64, .f32⟩
  | 7 => ⟨S64, .f32⟩
  | 8 => ⟨S64, .f32⟩
  | 9 => ⟨S1x64, .f32⟩
  | 10 => ⟨S50000x64, .f32⟩
  | 11 => ⟨S50000x64, .f32⟩
  | 12 => ⟨S1x64, .f32⟩
  | 13 => ⟨S50000x64, .f32⟩
  | 14 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S64x128, .f32⟩
  | .local _ .vmem, ⟨3, _⟩ => ⟨S2000x1, .f32⟩
  | .local _ .vmem, ⟨4, _⟩ => ⟨S2000x1, .f32⟩
  | .local _ .vmem, ⟨5, _⟩ => ⟨S2000x64, .f32⟩
  | .local _ .vmem, ⟨6, _⟩ => ⟨S2000x64, .f32⟩
  | .local _ .vmem, ⟨7, _⟩ => ⟨S1024, .i32⟩
  | .local _ .vmem, ⟨8, _⟩ => ⟨S1024, .i32⟩
  | .local _ .vmem, ⟨9, _⟩ => ⟨S57344x64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1024, .i32⟩
  | .local _ .vmem, ⟨14, _⟩ => ⟨S1024, .i32⟩
  | .local _ .vmem, ⟨15, _⟩ => ⟨S1024x64, .f32⟩
  | .local _ .vmem, ⟨16, _⟩ => ⟨S1024x64, .f32⟩
  | .local _ .vmem, ⟨17, _⟩ => ⟨S4096x1, .f32⟩
  | .local _ .vmem, ⟨18, _⟩ => ⟨S4096x1, .f32⟩
  | .local _ .vmem, ⟨19, _⟩ => ⟨S1x64, .f32⟩
  | .local _ .vmem, ⟨20, _⟩ => ⟨S4096x64, .f32⟩
  | .local _ .vmem, ⟨21, _⟩ => ⟨S4096x64, .f32⟩
  | .local _ .vmem, ⟨22, _⟩ => ⟨S4096x64, .f32⟩
  | .local _ .smem, ⟨0, _⟩ => ⟨S831, .i32⟩
  | .local _ .smem, ⟨1, _⟩ => ⟨S831, .i32⟩
  | .local _ .smem, ⟨2, _⟩ => ⟨S831, .i32⟩
  | .local _ .smem, ⟨3, _⟩ => ⟨S831, .i32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v21 : Ref sig .tc := ⟨.hbm, 54, rfl⟩
abbrev main_c_6 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_call2_v0 : Ref sig .tc := ⟨.hbm, 59, rfl⟩
abbrev main_call2_v1_0 : Ref sig .tc := ⟨.hbm, 60, rfl⟩
abbrev main_v25 : Ref sig .tc := ⟨.hbm, 61, rfl⟩
abbrev main_c_7 : Ref sig .tc := ⟨.hbm, 62, rfl⟩
abbrev main_v26 : Ref sig .tc := ⟨.hbm, 63, rfl⟩
abbrev main_v27 : Ref sig .tc := ⟨.hbm, 64, rfl⟩
abbrev main_c_8 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_c_9 : Ref sig .tc := ⟨.hbm, 71, rfl⟩
abbrev main_v33 : Ref sig .tc := ⟨.hbm, 72, rfl⟩
abbrev main_v34 : Ref sig .tc := ⟨.hbm, 73, rfl⟩
abbrev main_c_10 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_c_11 : Ref sig .tc := ⟨.hbm, 82, rfl⟩
abbrev main_c_12 : Ref sig .tc := ⟨.hbm, 83, rfl⟩
abbrev main_c_13 : Ref sig .tc := ⟨.hbm, 84, rfl⟩
abbrev main_c_14 : Ref sig .tc := ⟨.hbm, 85, rfl⟩
abbrev main_v46 : Ref sig .tc := ⟨.hbm, 86, rfl⟩
abbrev main_v47 : Ref sig .tc := ⟨.hbm, 87, rfl⟩
abbrev main_cst_15 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_cst_16 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_cst_17 : Ref sig .tc := ⟨.hbm, 99, rfl⟩
abbrev main_v57 : Ref sig .tc := ⟨.hbm, 100, rfl⟩
abbrev main_cst_18 : Ref sig .tc := ⟨.hbm, 101, rfl⟩
abbrev main_v58 : Ref sig .tc := ⟨.hbm, 102, rfl⟩
abbrev main_v59 : Ref sig .tc := ⟨.hbm, 103, rfl⟩
abbrev main_c_19 : Ref sig .tc := ⟨.hbm, 104, rfl⟩
abbrev main_call3_cst : Ref sig .tc := ⟨.hbm, 105, rfl⟩
abbrev main_call3_v0 : Ref sig .tc := ⟨.hbm, 106, rfl⟩
abbrev main_call3_v1 : Ref sig .tc := ⟨.hbm, 107, rfl⟩
abbrev main_call3_cst_0 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_call3_v5 : Ref sig .tc := ⟨.hbm, 112, rfl⟩
abbrev main_call3_v6 : Ref sig .tc := ⟨.hbm, 113, rfl⟩
abbrev main_call3_v7 : Ref sig .tc := ⟨.hbm, 114, rfl⟩
abbrev main_call3_cst_1 : Ref sig .tc := ⟨.hbm, 115, rfl⟩
abbrev main_call3_v8 : Ref sig .tc := ⟨.hbm, 116, rfl⟩
abbrev main_call3_cst_2 : Ref sig .tc := ⟨.hbm, 117, rfl⟩
abbrev main_call3_v9 : Ref sig .tc := ⟨.hbm, 118, rfl⟩
abbrev main_call3_v10 : Ref sig .tc := ⟨.hbm, 119, rfl⟩
abbrev main_call3_v11 : Ref sig .tc := ⟨.hbm, 120, rfl⟩
abbrev main_call3_cst_3 : Ref sig .tc := ⟨.hbm, 121, rfl⟩
abbrev main_call3_v12 : Ref sig .tc := ⟨.hbm, 122, rfl⟩
abbrev main_call3_cst_4 : Ref sig .tc := ⟨.hbm, 123, rfl⟩
abbrev main_call3_call0_v0 : Ref sig .tc := ⟨.hbm, 124, rfl⟩
abbrev main_call3_call0_v1 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_cst_20 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v42 : Ref sig .tc := ⟨.smem, 0, rfl⟩
abbrev main_v43 : Ref sig .tc := ⟨.smem, 1, rfl⟩
abbrev main_v44 : Ref sig .tc := ⟨.smem, 2, rfl⟩
abbrev main_v45 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc2_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem4_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![831], ![false]⟩

abbrev pre1 : Pipeline.Prefetch sig := ⟨2, ![main_v42.idx, main_v43.idx], fun | 0 => main_v42.names | 1 => main_v43.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v7 : Index := Scalar.indexCast arg0
  ![v7.toNat]
def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S57344x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![14, 831], ![false, false]⟩

abbrev pre2 : Pipeline.Prefetch sig := ⟨2, ![main_v44.idx, main_v45.idx], fun | 0 => main_v44.names | 1 => main_v45.names | ⟨_ + 2, h⟩ => absurd h (Nat.not_lt.2 (Nat.le_add_left _ _)), fun | 0 => rfl | 1 => rfl | ⟨_ + 2, h⟩ => absurd h (Nat.not_lt.2 (Nat.le_add_left _ _))⟩

def k2_off1 (i : grid2.Coords) : Fin 1 → Nat :=
  let arg1 : BitVec 32 := BitVec.ofNat 32 (i 1).val
  let v6 : Index := Scalar.indexCast arg1
  ![v6.toNat]
def k2_cond3 (i : grid2.Coords) : BitVec 1 :=
  let arg1 : BitVec 32 := BitVec.ofNat 32 (i 1).val
  let c830_i32 : BitVec 32 := 830#32
  let v15 : BitVec 1 := Scalar.cmpi .eq arg1 c830_i32
  let v16 : BitVec 32 := Scalar.extui v15
  let c0_i32_3 : BitVec 32 := 0#32
  let v17 : BitVec 1 := Scalar.cmpi .ne v16 c0_i32_3
  v17

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  ![arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S4096x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S4096x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S944 : S_.BroadcastsInDim S944 (![] : Fin 0 → Fin S944.rank)
  concatenates_S850000_S944_S850944_d0 : Shape.Concatenates [S850000, S944] S850944 0
  bcast_S_S850944 : S_.BroadcastsInDim S850944 (![] : Fin 0 → Fin S850944.rank)
  bcast_S850944_S850944x1_0 : S850944.BroadcastsInDim S850944x1 (![0] : Fin 1 → Fin S850944x1.rank)
  shapeCasts_S850944_S831x1024 : S850944.ShapeCasts S831x1024
  reducesTo_S831x1024_S831_d1 : S831x1024.ReducesTo [1] S831
  h_S_ : 0 < S_.numel
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  bcast_S_S7344x64 : S_.BroadcastsInDim S7344x64 (![] : Fin 0 → Fin S7344x64.rank)
  concatenates_S50000x64_S7344x64_S57344x64_d0 : Shape.Concatenates [S50000x64, S7344x64] S57344x64 0
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024_S1024_0 : ∀ a, (![0] : Fin 1 → Nat) a + S1024.size a ≤ S1024.size a
  h_S1024 : 0 < S1024.numel
  shapeCasts_S1024_S1024 : S1024.ShapeCasts S1024
  shapeCasts_S1024_S1024x1 : S1024.ShapeCasts S1024x1
  numel1_S1 : S1.numel = 1
  iota_S1x4096_d1_w32 : S1x4096.Iotas .tc 32 [1]
  broadcasts_S1024x1_S1024x4096 : S1024x1.Broadcasts S1024x4096
  broadcasts_S1x4096_S1024x4096 : S1x4096.Broadcasts S1024x4096
  natLt_1_32 : 1 < 32
  inb_S57344x64_S4096x64_0_0 : ∀ a, (![0, 0] : Fin 2 → Nat) a + S4096x64.size a ≤ S57344x64.size a
  h_S4096x64 : 0 < S4096x64.numel
  shapeCasts_S4096x64_S4096x64 : S4096x64.ShapeCasts S4096x64
  inb_S57344x64_S4096x64_4096_0 : ∀ a, (![4096, 0] : Fin 2 → Nat) a + S4096x64.size a ≤ S57344x64.size a
  inb_S57344x64_S4096x64_8192_0 : ∀ a, (![8192, 0] : Fin 2 → Nat) a + S4096x64.size a ≤ S57344x64.size a
  inb_S57344x64_S4096x64_12288_0 : ∀ a, (![12288, 0] : Fin 2 → Nat) a + S4096x64.size a ≤ S57344x64.size a
  inb_S57344x64_S4096x64_16384_0 : ∀ a, (![16384, 0] : Fin 2 → Nat) a + S4096x64.size a ≤ S57344x64.size a
  inb_S57344x64_S4096x64_20480_0 : ∀ a, (![20480, 0] : Fin 2 → Nat) a + S4096x64.size a ≤ S57344x64.size a
  inb_S57344x64_S4096x64_24576_0 : ∀ a, (![24576, 0] : Fin 2 → Nat) a + S4096x64.size a ≤ S57344x64.size a
  inb_S57344x64_S4096x64_28672_0 : ∀ a, (![28672, 0] : Fin 2 → Nat) a + S4096x64.size a ≤ S57344x64.size a
  inb_S57344x64_S4096x64_32768_0 : ∀ a, (![32768, 0] : Fin 2 → Nat) a + S4096x64.size a ≤ S57344x64.size a
  inb_S57344x64_S4096x64_36864_0 : ∀ a, (![36864, 0] : Fin 2 → Nat) a + S4096x64.size a ≤ S57344x64.size a
  inb_S57344x64_S4096x64_40960_0 : ∀ a, (![40960, 0] : Fin 2 → Nat) a + S4096x64.size a ≤ S57344x64.size a
  inb_S57344x64_S4096x64_45056_0 : ∀ a, (![45056, 0] : Fin 2 → Nat) a + S4096x64.size a ≤ S57344x64.size a
  inb_S57344x64_S4096x64_49152_0 : ∀ a, (![49152, 0] : Fin 2 → Nat) a + S4096x64.size a ≤ S57344x64.size a
  inb_S57344x64_S4096x64_53248_0 : ∀ a, (![53248, 0] : Fin 2 → Nat) a + S4096x64.size a ≤ S57344x64.size a
  bcast_S_S7344 : S_.BroadcastsInDim S7344 (![] : Fin 0 → Fin S7344.rank)
  concatenates_S50000_S7344_S57344_d0 : Shape.Concatenates [S50000, S7344] S57344 0
  shapeCasts_S57344_S57344x1 : S57344.ShapeCasts S57344x1
  shapeCasts_S64_S1x64 : S64.ShapeCasts S1x64
  inb_S4096x64_S4096x64_0_0 : ∀ a, (![0, 0] : Fin 2 → Nat) a + S4096x64.size a ≤ S4096x64.size a
  iota_S4096x1_d0_w32 : S4096x1.Iotas .tc 32 [0]
  shapeCasts_S1024_S1x1024 : S1024.ShapeCasts S1x1024
  broadcasts_S4096x1_S4096x1024 : S4096x1.Broadcasts S4096x1024
  broadcasts_S1x1024_S4096x1024 : S1x1024.Broadcasts S4096x1024
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x64 : S4096x1.Broadcasts S4096x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  slices_S57344x64_S50000x64_0_0 : S57344x64.Slices ![0, 0] S50000x64
  reducesTo_S50000x64_S64_d0 : S50000x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S850944_S850944x1_S850944_n_0_n_n_0_1_1_wf : GatherDims.WF S850944 S850944x1 S850944 [] [0] [] [0] [] 1 ![1]
  dot_S2000x128_S128x64_S2000x64_1_0_0_1_n_n_wf : DotDims.WF S2000x128 S128x64 S2000x64 [1] [0] [0] [1] [] []
  dot_S1024x4096_S4096x64_S1024x64_1_0_0_1_n_n_wf : DotDims.WF S1024x4096 S4096x64 S1024x64 [1] [0] [0] [1] [] []
  dot_S4096x1024_S1024x64_S4096x64_1_0_0_1_n_n_wf : DotDims.WF S4096x1024 S1024x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .f32 = 32 ∨ (Rect.block (s := S50000x64) S2000x64.size (cc0_transform_3 i) (hinb0_3 i)).WholeWords (EltTy.packing .f32)
  hrank1 : 0 < grid1.rank
  k1_off1_inb : ∀ i : grid1.Coords, ∀ a, (k1_off1 i) a + S1.size a ≤ S831.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024.size a ≤ S850944.size a
  hwx1_0 : ∀ i : grid1.Coords, EltTy.bits .i32 = 32 ∨ (Rect.block (s := S850944) S1024.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S57344x64.size a ≤ S57344x64.size a
  hwx1_1 : ∀ i : grid1.Coords, EltTy.bits .f32 = 32 ∨ (Rect.block (s := S57344x64) S57344x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S850944x64.size a
  hwx1_2 : ∀ i : grid1.Coords, EltTy.bits .f32 = 32 ∨ (Rect.block (s := S850944x64) S1024x64.size (cc1_transform_2 i) (hinb1_2 i)).WholeWords (EltTy.packing .f32)
  hrank2 : 0 < grid2.rank
  k2_off1_inb : ∀ i : grid2.Coords, ∀ a, (k2_off1 i) a + S1.size a ≤ S831.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024.size a ≤ S850944.size a
  hwx2_0 : ∀ i : grid2.Coords, EltTy.bits .i32 = 32 ∨ (Rect.block (s := S850944) S1024.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S850944x64.size a
  hwx2_1 : ∀ i : grid2.Coords, EltTy.bits .f32 = 32 ∨ (Rect.block (s := S850944x64) S1024x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x1.size a ≤ S57344x1.size a
  hwx2_2 : ∀ i : grid2.Coords, EltTy.bits .f32 = 32 ∨ (Rect.block (s := S57344x1) S4096x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4096x64.size a ≤ S57344x64.size a
  hwx2_4 : ∀ i : grid2.Coords, EltTy.bits .f32 = 32 ∨ (Rect.block (s := S57344x64) S4096x64.size (cc2_transform_4 i) (hinb2_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def comparator_i32_i32_d0 : BitVec 32 × BitVec 32 → BitVec 32 × BitVec 32 → BitVec 1 :=
  fun l r =>
    let v2 := IntOp.cmpi .slt l.1 r.1
    v2
def gather_S850944_S850944x1_S850944_n_0_n_n_0_1_1 : GatherDims S850944 S850944x1 S850944 where
  offsetDims := []
  collapsedSliceDims := [0]
  operandBatchingDims := []
  startIndicesBatchingDims := []
  startIndexMap := [0]
  indexVectorDim := 1
  sliceSizes := ![1]
  wf := gather_S850944_S850944x1_S850944_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S1024x4096_S4096x64_S1024x64_1_0_0_1_n_n : DotDims S1024x4096 S4096x64 S1024x64 where
  lhsContracting := [1]
  rhsContracting := [0]
  lhsNonContracting := [0]
  rhsNonContracting := [1]
  lhsBatch := []
  rhsBatch := []
  wf := dot_S1024x4096_S4096x64_S1024x64_1_0_0_1_n_n_wf
def dot_S4096x1024_S1024x64_S4096x64_1_0_0_1_n_n : DotDims S4096x1024 S1024x64 S4096x64 where
  lhsContracting := [1]
  rhsContracting := [0]
  lhsNonContracting := [0]
  rhsNonContracting := [1]
  lhsBatch := []
  rhsBatch := []
  wf := dot_S4096x1024_S1024x64_S4096x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v46) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v47) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev spec1_0 : Pipeline.WinSpec sig grid1.rank :=
  Pipeline.WinSpec.ofSpec (Memref.whole main_v39) S1024.size reads1_0 false false 2 stage1_0 sem1_0 nbuf1_0 hstage1_0

abbrev spec1_1 : Pipeline.WinSpec sig grid1.rank :=
  Pipeline.WinSpec.ofSpec (Memref.whole main_v49) S57344x64.size reads1_1 false true 1 stage1_1 sem1_1 nbuf1_1 hstage1_1

abbrev spec1_2 : Pipeline.WinSpec sig grid1.rank :=
  Pipeline.WinSpec.ofSpec (Memref.whole main_v50) S1024x64.size reads1_2 true false 2 stage1_2 sem1_2 nbuf1_2 hstage1_2

abbrev spec1 : Fin 3 → Pipeline.WinSpec sig grid1.rank := fun | 0 => spec1_0 | 1 => spec1_1 | 2 => spec1_2 | ⟨_ + 3, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | ⟨_ + 3, h⟩ => absurd h (Nat.not_lt.2 (Nat.le_add_left _ _))
abbrev ix1 (pf : pre1.Contents (Elt F)) : (w : Fin 3) → grid1.Coords → Fin (spec1 w).shape.rank → Nat := fun | 0 => cc1_transform_0 | 1 => cc1_transform_1 | 2 => cc1_transform_2 | ⟨_ + 3, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | ⟨_ + 3, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | ⟨_ + 3, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | ⟨_ + 3, h⟩ => absurd h (Nat.not_lt.2 (Nat.le_add_left _ _))
abbrev spec2_0 : Pipeline.WinSpec sig grid2.rank :=
  Pipeline.WinSpec.ofSpec (Memref.whole main_v32) S1024.size reads2_0 false false 2 stage2_0 sem2_0 nbuf2_0 hstage2_0

abbrev spec2_1 : Pipeline.WinSpec sig grid2.rank :=
  Pipeline.WinSpec.ofSpec (Memref.whole main_v50) S1024x64.size reads2_1 false false 2 stage2_1 sem2_1 nbuf2_1 hstage2_1

abbrev spec2_2 : Pipeline.WinSpec sig grid2.rank :=
  Pipeline.WinSpec.ofSpec (Memref.whole main_v53) S4096x1.size reads2_2 false false 2 stage2_2 sem2_2 nbuf2_2 hstage2_2

abbrev spec2_3 : Pipeline.WinSpec sig grid2.rank :=
  Pipeline.WinSpec.ofSpec (Memref.whole main_v54) S1x64.size reads2_3 false true 1 stage2_3 sem2_3 nbuf2_3 hstage2_3

abbrev spec2_4 : Pipeline.WinSpec sig grid2.rank :=
  Pipeline.WinSpec.ofSpec (Memref.whole main_v55) S4096x64.size reads2_4 true false 2 stage2_4 sem2_4 nbuf2_4 hstage2_4

abbrev spec2 : Fin 5 → Pipeline.WinSpec sig grid2.rank := fun | 0 => spec2_0 | 1 => spec2_1 | 2 => spec2_2 | 3 => spec2_3 | 4 => spec2_4 | ⟨_ + 5, h⟩ => absurd h (Nat.not_lt.2 (Nat.le_add_left _ _))
theorem hcount2 : ∀ w, grid2.bufCount (spec2 w).reads (spec2 w).sync = (spec2 w).nbuf := fun | 0 => nbuf2_0 | 1 => nbuf2_1 | 2 => nbuf2_2 | 3 => nbuf2_3 | 4 => nbuf2_4 | ⟨_ + 5, h⟩ => absurd h (Nat.not_lt.2 (Nat.le_add_left _ _))
abbrev ix2 (pf : pre2.Contents (Elt F)) : (w : Fin 5) → grid2.Coords → Fin (spec2 w).shape.rank → Nat := fun | 0 => cc2_transform_0 | 1 => cc2_transform_1 | 2 => cc2_transform_2 | 3 => cc2_transform_3 | 4 => cc2_transform_4 | ⟨_ + 5, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 | 1 => hreads2_1 | 2 => hreads2_2 | 3 => hreads2_3 | 4 => hreads2_4 | ⟨_ + 5, h⟩ => absurd h (Nat.not_lt.2 (Nat.le_add_left _ _))
def ok2 (_ : pre2.Contents (Elt F)) : Prop :=
  True
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun _ _ => fun | 0 => hinb2_0 | 1 => hinb2_1 | 2 => hinb2_2 | 3 => hinb2_3 | 4 => hinb2_4 | ⟨_ + 5, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun _ _ => fun | 0 => hwx2_0 | 1 => hwx2_1 | 2 => hwx2_2 | 3 => hwx2_3 | 4 => hwx2_4 | ⟨_ + 5, h⟩ => absurd h (Nat.not_lt.2 (Nat.le_add_left _ _))
abbrev idle2 : Fin 5 → grid2.Coords → Bool := fun | 0 => fun _ => false | 1 => fun _ => false | 2 => fun _ => false | 3 => fun _ => false | 4 => fun i => !(k2_cond3 i == 1#1) | ⟨_ + 5, h⟩ => absurd h (Nat.not_lt.2 (Nat.le_add_left _ _))

class Facts : Prop extends Facts₀ where
  harr1 : ∀ w, (spec1 w).arr.IsWhole
  harr2 : ∀ w, (spec2 w).arr.IsWhole

variable [Facts]
-- ==== ReferenceIdeal.lean ====
abbrev S50000x128 : Shape := ⟨2, ![50000, 128]⟩
abbrev S2x800000 : Shape := ⟨2, ![2, 800000]⟩
abbrev S800000x1 : Shape := ⟨2, ![800000, 1]⟩
abbrev S64x128 : Shape := ⟨2, ![64, 128]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S128x64 : Shape := ⟨2, ![128, 64]⟩
abbrev S50000x64 : Shape := ⟨2, ![50000, 64]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩

abbrev nBuf : Space → Nat
  | .hbm => 118
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x1, .f32⟩
  | .hbm, ⟨3, _⟩ => ⟨S64x128, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S128x64, .f32⟩
  | .hbm, ⟨15, _⟩ => ⟨S50000x64, .f32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S850000x1, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x64, .f32⟩
  | .hbm, ⟨62, _⟩ => ⟨S850000x64, .f32⟩
  | .hbm, ⟨63, _⟩ => ⟨S850000x64, .f32⟩
  | .hbm, ⟨64, _⟩ => ⟨S_, .f32⟩
  | .hbm, ⟨65, _⟩ => ⟨S50000x64, .f32⟩
  | .hbm, ⟨66, _⟩ => ⟨S850000x1, .i32⟩
  | .hbm, ⟨67, _⟩ => ⟨S50000x64, .f32⟩
  | .hbm, ⟨68, _⟩ => ⟨S1x64, .f32⟩
  | .hbm, ⟨69, _⟩ => ⟨S50000x64, .f32⟩
  | .hbm, ⟨70, _⟩ => ⟨S50000x64, .f32⟩
  | .hbm, ⟨71, _⟩ => ⟨S_, .f32⟩
  | .hbm, ⟨72, _⟩ => ⟨S50000x64, .f32⟩
  | .hbm, ⟨73, _⟩ => ⟨S50000x64, .f32⟩
  | .hbm, ⟨74, _⟩ => ⟨S_, .f32⟩
  | .hbm, ⟨75, _⟩ => ⟨S64, .f32⟩
  | .hbm, ⟨76, _⟩ => ⟨S_, .f32⟩
  | .hbm, ⟨77, _⟩ => ⟨S64, .f32⟩
  | .hbm, ⟨78, _⟩ => ⟨S64, .f32⟩
  | .hbm, ⟨79, _⟩ => ⟨S_, .i32⟩
  | .hbm, ⟨80, _⟩ => ⟨S_, .f32⟩
  | .hbm, ⟨81, _⟩ => ⟨S64, .f32⟩
  | .hbm, ⟨82, _⟩ => ⟨S1x64, .f32⟩
  | .hbm, ⟨83, _⟩ => ⟨S_, .f32⟩
  | .hbm, ⟨84, _⟩ => ⟨S1x64, .f32⟩
  | .hbm, ⟨85, _⟩ => ⟨S1x64, .f32⟩
  | .hbm, ⟨86, _⟩ => ⟨S50000x64, .f32⟩
  | .hbm, ⟨87, _⟩ => ⟨S50000x64, .f32⟩
  | .hbm, ⟨88, _⟩ => ⟨S50000x64, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S64, .f32⟩
  | .hbm, ⟨94, _⟩ => ⟨S64, .f32⟩
  | .hbm, ⟨95, _⟩ => ⟨S64, .f32⟩
  | .hbm, ⟨96, _⟩ => ⟨S_, .f32⟩
  | .hbm, ⟨97, _⟩ => ⟨S_, .i1⟩
  | .hbm, ⟨98, _⟩ => ⟨S_, .f32⟩
  | .hbm, ⟨99, _⟩ => ⟨S_, .f32⟩
  | .hbm, ⟨100, _⟩ => ⟨S64, .f32⟩
  | .hbm, ⟨101, _⟩ => ⟨S64, .f32⟩
  | .hbm, ⟨102, _⟩ => ⟨S1x64, .f32⟩
  | .hbm, ⟨103, _⟩ => ⟨S50000x64, .f32⟩
  | .hbm, ⟨104, _⟩ => ⟨S50000x64, .f32⟩
  | .hbm, ⟨105, _⟩ => ⟨S1x64, .f32⟩
  | .hbm, ⟨106, _⟩ => ⟨S50000x64, .f32⟩
  | .hbm, ⟨107, _⟩ => ⟨S50000x64, .f32⟩
  | .hbm, ⟨108, _⟩ => ⟨S_, .f32⟩
  | .hbm, ⟨109, _⟩ => ⟨S64, .f32⟩
  | .hbm, ⟨110, _⟩ => ⟨S64, .f32⟩
  | .hbm, ⟨111, _⟩ => ⟨S64, .f32⟩
  | .hbm, ⟨112, _⟩ => ⟨S1x64, .f32⟩
  | .hbm, ⟨113, _⟩ => ⟨S50000x64, .f32⟩
  | .hbm, ⟨114, _⟩ => ⟨S50000x64, .f32⟩
  | .hbm, ⟨115, _⟩ => ⟨S1x64, .f32⟩
  | .hbm, ⟨116, _⟩ => ⟨S50000x64, .f32⟩
  | .hbm, ⟨117, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call1_cst : Ref sig .tc := ⟨.hbm, 71, rfl⟩
abbrev main_call1_v0 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_c_12 : Ref sig .tc := ⟨.hbm, 79, rfl⟩
abbrev main_call2_cst : Ref sig .tc := ⟨.hbm, 80, rfl⟩
abbrev main_call2_v0 : Ref sig .tc := ⟨.hbm, 81, rfl⟩
abbrev main_call2_v1 : Ref sig .tc := ⟨.hbm, 82, rfl⟩
abbrev main_call2_cst_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_v6 : Ref sig .tc := ⟨.hbm, 88, rfl⟩
abbrev main_call2_v7 : Ref sig .tc := ⟨.hbm, 89, rfl⟩
abbrev main_call2_cst_1 : Ref sig .tc := ⟨.hbm, 90, rfl⟩
abbrev main_call2_v8 : Ref sig .tc := ⟨.hbm, 91, rfl⟩
abbrev main_call2_cst_2 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_cst_3 : Ref sig .tc := ⟨.hbm, 96, rfl⟩
abbrev main_call2_v12 : Ref sig .tc := ⟨.hbm, 97, rfl⟩
abbrev main_call2_cst_4 : Ref sig .tc := ⟨.hbm, 98, rfl⟩
abbrev main_call2_call0_v0 : Ref sig .tc := ⟨.hbm, 99, rfl⟩
abbrev main_call2_call0_v1 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_cst_13 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  transposes_S64x128_S128x64_1_0 : S64x128.Transposes [1, 0] S128x64
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  dot_S50000x128_S128x64_S50000x64_1_0_0_1_n_n_wf : DotDims.WF S50000x128 S128x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Kernel.Linear.lean ====
import proofs.«401429_j309237645711_3_alg».proof.Proof.Gen.Kernel.Launch
import proofs.«401429_j309237645711_3_alg».proof.Proof.Gen.Kernel.Skeleton
import proofs.«401429_j309237645711_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Lin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem off_zero : (![0, 0] : Fin 2 → Nat) = fun _ => 0 := funext fun a => by fin_cases a <;> rfl

def out (x0 : Vec F S2000x128 .f32) (x1 : Vec F S64x128 .f32) (x2 : Vec F S2000x1 .f32) : Vec F S2000x64 .f32 :=
  k0_pay1 x0 x1 x2

theorem out_eq (x0 : Vec F S2000x128 .f32) (x1 : Vec F S64x128 .f32) (x2 : Vec F S2000x1 .f32) :
    out x0 x1 x2 = k0_pay1 x0 x1 x2 := rfl

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := rfl

theorem after_3 (c : Dev nD) (t : Fin cfg0.N) : (dat V c).after 3 t = out (iblk V c 0 t) (iblk V c 1 t) (iblk V c 2 t) := by dsimp only [dat]

theorem before_0 (c : Dev nD) (t : Fin cfg0.N) (d) : (dat V c).before 0 t d = iblk V c 0 t :=
  (dat V c).before_in_eq_fetched 0 rfl (fun _ => rfl) (fun _ _ _ => rfl) (fun _ => rfl) t d
theorem before_1 (c : Dev nD) (t : Fin cfg0.N) (d) : (dat V c).before 1 t d = iblk V c 1 t :=
  (dat V c).before_in_eq_fetched 1 rfl (fun _ => rfl) (fun _ _ _ => rfl) (fun _ => rfl) t d
theorem before_2 (c : Dev nD) (t : Fin cfg0.N) (d) : (dat V c).before 2 t d = iblk V c 2 t :=
  (dat V c).before_in_eq_fetched 2 rfl (fun _ => rfl) (fun _ _ _ => rfl) (fun _ => rfl) t d

theorem sound_body (c : Dev nD) (t : Fin cfg0.N) :
    iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))
      ⊢ wp frame (wpE (defs₀ (F := F)) Variants.none c none) Set.univ (bodyAt0 t) (fun _ =>
      iprop((dat V c).Φ t.succ ∗ (dat V c).owesAt () t.succ
      ∗ owns (c : Thread nD τ) (st0_0 t) fullShare ((dat V c).after 0 t)
      ∗ owns (c : Thread nD τ) (st0_1 t) fullShare ((dat V c).after 1 t)
      ∗ owns (c : Thread nD τ) (st0_2 t) fullShare ((dat V c).after 2 t)
      ∗ owns (c : Thread nD τ) (st0_3 t) fullShare ((dat V c).after 3 t))) := by
  unfold bodyAt0
  simp only [before_0, before_1, before_2, cc0__linear_kernel_eq_skeleton]; unfold cc0__linear_kernel_skel
  rw [show (dat V c).Φ t.succ = (dat V c).Φ t.castSucc from rfl,
    show (dat V c).owesAt () t.succ = (dat V c).owesAt () t.castSucc from rfl, after_3]
  unfold owns
  iintro ⟨HΦ, Ho, ⟨%d0, %f0, %hf0, H0⟩, ⟨%d1, %f1, %hf1, H1⟩, ⟨%d2, %f2, %hf2, H2⟩, ⟨%d3, %f3, -, H3⟩⟩
  sl_exec
  sl_step
  iframe HΦ Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  iexists _; isplitr
  swap; · iexact H3
  ipureintro
  rw [← hf0, ← hf1, ← hf2, View.read_writes_eq_canon _ _ _ (fun y => ⟨_, List.mem_singleton_self _, View.mem_set_unit_zero off_zero inb_S2000x64_S2000x64_0_0 y⟩),
    View.canon_unit_zero off_zero]
  unfold sound_body.sl.v0 sound_body.sl.v2 sound_body.sl.v6
  rw [View.readAt_eq_ld, View.readAt_eq_ld, View.readAt_eq_ld, View.ld_unit_zero off_zero, View.ld_unit_zero off_zero,
    View.ld_unit_zero off_zero]
  rfl

theorem body_obligation (c : Dev nD) : BodyObligation (dat (F := F) V c) (defs₀ (F := F)) Variants.none () Set.univ := fun t => by
  rw [bigSep_W0, bigSep_W0]
  exact sound_body V c t

end Cert.Kernel.Lin

end
-- ==== Proof.Kernel.Gather.lean ====
import proofs.«401429_j309237645711_3_alg».proof.Proof.Gen.Kernel.Launch
import proofs.«401429_j309237645711_3_alg».proof.Proof.Gen.Kernel.Skeleton
import Idealize.ShloMosaic.Lib.Pipeline.FrameBody
import Idealize.ShloMosaic.Lib.Pipeline.Value
import Idealize.ShloMosaic.Lib.Pipeline.Regions
import Idealize.ShloMosaic.Lib.Tactic

noncomputable section

namespace Cert.Kernel.Gat

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel.Gen

variable {F : FTy → Type} [FloatOps F]

local notation "𝕄" => MT nD τ sig Unit (Elt F) ℕ (UR sig nD τ) ℕ

def cond (j : Fin 14) (mn mx : BitVec 32) : BitVec 1 :=
  Scalar.cmpi .ne (Scalar.extui (Scalar.andi (Scalar.cmpi .sge mx (BitVec.ofNat 32 (4096 * j.val)))
    (Scalar.cmpi .sle mn (BitVec.ofNat 32 (4096 * j.val + 4095))))) 0#32

theorem cond_iff (j : Fin 14) (mn mx : BitVec 32) :
    cond j mn mx = 1#1 ↔ (mx.toInt ≥ 4096 * (j.val : Int) ∧ mn.toInt ≤ 4096 * (j.val : Int) + 4095) := by
  have hj := j.isLt
  have h : ∀ n, n < 2 ^ 31 → (BitVec.ofNat 32 n).toInt = n := fun n hn => by
    rw [BitVec.toInt_eq_toNat_cond, BitVec.toNat_ofNat, Nat.mod_eq_of_lt (by omega)]; split <;> omega
  have h1 := h (4096 * j.val) (by omega)
  have h2 := h (4096 * j.val + 4095) (by omega)
  push_cast at h1 h2
  unfold cond Scalar.cmpi Scalar.extui Scalar.andi IntOp.cmpi IntOp.andi
  simp only [BitVec.sle, h1, h2]
  by_cases ha : 4096 * (j.val : Int) ≤ mx.toInt <;> by_cases hb : mn.toInt ≤ 4096 * (j.val : Int) + 4095 <;>
    simp [ha, hb] <;> decide

abbrev hr (off : ℕ) (hinb : ∀ a, (![off, 0] : Fin S57344x64.rank → ℕ) a + S4096x64.size a ≤ S57344x64.size a) : Rect S57344x64 :=
  Rect.unit (s := S57344x64) ![off, 0] S4096x64.size hinb

abbrev rW : Rect S1024x64 := Rect.unit (s := S1024x64) ![0, 0] S1024x64.size inb_S1024x64_S1024x64_0_0

theorem rW_off : (![0, 0] : Fin S1024x64.rank → Nat) = fun _ => 0 := by
  funext a; match a with | ⟨0, _⟩ => rfl | ⟨1, _⟩ => rfl

def step (j : Fin 14) (rows : Vec F S1024 .i32) (h : Vec F S57344x64 .f32) (acc : Vec F S1024x64 .f32) : Vec F S1024x64 .f32 :=
  match j with
  | ⟨0, _⟩ => k1_pay6 rows (View.ld h (hr 0 inb_S57344x64_S4096x64_0_0)) acc
  | ⟨1, _⟩ => k1_pay7 rows (View.ld h (hr 4096 inb_S57344x64_S4096x64_4096_0)) acc
  | ⟨2, _⟩ => k1_pay8 rows (View.ld h (hr 8192 inb_S57344x64_S4096x64_8192_0)) acc
  | ⟨3, _⟩ => k1_pay9 rows (View.ld h (hr 12288 inb_S57344x64_S4096x64_12288_0)) acc
  | ⟨4, _⟩ => k1_pay10 (k1_pay5 rows) (View.ld h (hr 16384 inb_S57344x64_S4096x64_16384_0)) acc
  | ⟨5, _⟩ => k1_pay11 (k1_pay5 rows) (View.ld h (hr 20480 inb_S57344x64_S4096x64_20480_0)) acc
  | ⟨6, _⟩ => k1_pay12 (k1_pay5 rows) (View.ld h (hr 24576 inb_S57344x64_S4096x64_24576_0)) acc
  | ⟨7, _⟩ => k1_pay13 (k1_pay5 rows) (View.ld h (hr 28672 inb_S57344x64_S4096x64_28672_0)) acc
  | ⟨8, _⟩ => k1_pay14 (k1_pay5 rows) (View.ld h (hr 32768 inb_S57344x64_S4096x64_32768_0)) acc
  | ⟨9, _⟩ => k1_pay15 (k1_pay5 rows) (View.ld h (hr 36864 inb_S57344x64_S4096x64_36864_0)) acc
  | ⟨10, _⟩ => k1_pay16 (k1_pay5 rows) (View.ld h (hr 40960 inb_S57344x64_S4096x64_40960_0)) acc
  | ⟨11, _⟩ => k1_pay1 (k1_pay5 rows) (View.ld h (hr 45056 inb_S57344x64_S4096x64_45056_0)) acc
  | ⟨12, _⟩ => k1_pay2 (k1_pay5 rows) (View.ld h (hr 49152 inb_S57344x64_S4096x64_49152_0)) acc
  | ⟨13, _⟩ => k1_pay3 (k1_pay5 rows) (View.ld h (hr 53248 inb_S57344x64_S4096x64_53248_0)) acc
  | ⟨n + 14, hn⟩ => absurd hn (by omega)

def blk (j : Fin 14) (mn mx : BitVec 32) (rows : Vec F S1024 .i32) (h : Vec F S57344x64 .f32) (acc : Vec F S1024x64 .f32) : Vec F S1024x64 .f32 :=
  if cond j mn mx = 1#1 then step j rows h acc else acc

def out (mn mx : BitVec 32) (rows : Vec F S1024 .i32) (h : Vec F S57344x64 .f32) : Vec F S1024x64 .f32 :=
  (List.finRange 14).foldl (fun acc j => blk j mn mx rows h acc) (k1_pay4 (F := F))

abbrev tbM0 : Memref sig .tc .smem S831 .i32 := Memref.whole main_v42
abbrev tbM1 : Memref sig .tc .smem S831 .i32 := Memref.whole main_v43

abbrev wrect (i : grid1.Coords) : Rect S831 := Rect.unit (s := S831) (k1_off1 i) S1.size (k1_off1_inb i)

abbrev wordOf (M : Memref sig .tc .smem S831 .i32) (f : M.view.ty.Contents (Elt F)) (i : grid1.Coords) : Elt F .i32 :=
  M.view.readAt (Elt F) (wrect i).toLoadRect f (Shape.Idx.first (numel1_S1.symm ▸ Nat.one_pos))

abbrev tbPt (c : Dev nD) (M : Memref sig .tc .smem S831 .i32) (f : M.view.ty.Contents (Elt F)) : sProp 𝕄 :=
  M.view.loc (c : Thread nD τ) ↦{fullShare} f

abbrev pt {sp : Space} {sh : Shape} {e : EltTy} (c : Dev nD) (m : Memref sig .tc sp sh e) (f : m.view.ty.Contents (Elt F)) : sProp 𝕄 :=
  m.view.loc (c : Thread nD τ) ↦[m.view.set]{fullShare} f

theorem r1024_off : (![0] : Fin S1024.rank → Nat) = fun _ => 0 := by
  funext a; match a with | ⟨0, _⟩ => rfl

theorem read_wr {m : Memref sig .tc .vmem S1024x64 .f32} (f : m.view.ty.Contents (Elt F)) (v : Vec F S1024x64 .f32) :
    m.view.read (Elt F) (m.view.writes (Elt F) f [⟨rW, v⟩]) = v := by
  rw [View.read_writes_eq_canon _ _ _ (fun y => ⟨_, List.mem_singleton_self _, View.mem_set_unit_zero rW_off inb_S1024x64_S1024x64_0_0 y⟩),
    View.canon_unit_zero rW_off]

section Body

variable {c : Dev nD} {E : Set ℕ} {arg4 : Memref sig .tc .vmem S57344x64 .f32} {arg6 : Memref sig .tc .vmem S1024x64 .f32}
    {f4 : arg4.view.ty.Contents (Elt F)}

-- the operand is untouched and the accumulator reads as v
abbrev inv (c : Dev nD) (arg4 : Memref sig .tc .vmem S57344x64 .f32) (arg6 : Memref sig .tc .vmem S1024x64 .f32)
    (f4 : arg4.view.ty.Contents (Elt F)) (v : Vec F S1024x64 .f32) : sProp 𝕄 :=
  iprop(∃ g : arg6.view.ty.Contents (Elt F), pt c arg4 f4 ∗ pt c arg6 g ∗ ⌜arg6.view.read (Elt F) g = v⌝)

-- a guarded block replaces the accumulator v by pay (rows off … off + 4095 of the operand) v exactly when b holds
theorem block_run {α : Type} {b : BitVec 1} {off : ℕ} {hinb : ∀ a, (![off, 0] : Fin S57344x64.rank → ℕ) a + S4096x64.size a ≤ S57344x64.size a}
    {pay : Vec F S4096x64 .f32 → Vec F S1024x64 .f32 → FVec F S1024x64 .f32} {v : Vec F S1024x64 .f32}
    {rest : Prog (TpuEff nD τ sig (Elt F) Λ₀ .tc) α} {Q : α → sProp 𝕄} :
    iprop(inv c arg4 arg6 f4 v
        ∗ (inv c arg4 arg6 f4 (if b = 1#1 then pay (View.ld (arg4.view.read (Elt F) f4) (hr off hinb)) v else v) -∗ wp frame (wpE (defs₀ (F := F)) Variants.none c none) E rest Q))
      ⊢ wp frame (wpE (defs₀ (F := F)) Variants.none c none) E
          (if b = 1#1 then do
            let v92 : Vec F S4096x64 .f32 ← Prog.lift (.load arg4 (hr off hinb).toLoadRect (View.loadsAt_vmem h_S4096x64))
            let v95 : Vec F S1024x64 .f32 ← Prog.lift (.load arg6 rW.toLoadRect (View.loadsAt_vmem h_S1024x64))
            let v98 : Vec F S1024x64 .f32 ← Prog.lift (.load arg6 rW.toLoadRect (View.loadsAt_vmem h_S1024x64))
            Prog.lift (.store arg6 rW (pay v92 v95) Finset.univ (View.stores_vmem_bits_univ h_S1024x64 rfl) (.inl rfl))
            rest
          else rest) Q := by
  by_cases hc : b = 1#1
  · simp only [if_pos hc]
    iintro ⟨⟨%g, H4, H6, %hg⟩, Hk⟩
    sl_exec
    iapply Hk
    iexists _
    iframe H4 H6
    ipureintro
    rw [read_wr, View.readAt_eq_ld, View.readAt_eq_ld, View.ld_unit_zero rW_off, hg]
  · simp only [if_neg hc]
    iintro ⟨HI, Hk⟩
    iapply Hk
    iexact HI

end Body

section Region

variable (a : (pcfg1 (F := F)).Adm)
variable (V : (c : Dev nD) → (b : Ref sig .tc) → Buf (Elt F) ((c : Thread nD τ).loc b))

def iblk (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

def mnAt (t : Fin (cfg1 a).N) : Elt F .i32 := wordOf tbM0 (a.1 0) (grid1.coords t)

def mxAt (t : Fin (cfg1 a).N) : Elt F .i32 := wordOf tbM1 (a.1 1) (grid1.coords t)

def dat (c : Dev nD) : Dat τ (Elt F) Unit ℕ (UR sig nD τ) ℕ (cfg1 a) c where
  A w := V c (Pipeline.arrRef spec1 w)
  after w t := match w with
    | ⟨0, _⟩ => iblk a V c 0 t
    | ⟨1, _⟩ => iblk a V c 1 t
    | ⟨2, _⟩ => out (mnAt a t) (mxAt a t) (iblk a V c 0 t) (iblk a V c 1 t)
  Φ _ := iprop((∃ r, prngReg c r) ∗ Pipeline.prefHeld pre1 c (fun _ => fullShare) a.1 ∗ Pipeline.scopedRest spec1 c)
  q _ := fullShare
  owed _ := 0

theorem A_eq (c : Dev nD) (w : Fin (cfg1 a).W) : (dat a V c).A w = V c (Pipeline.arrRef spec1 w) := rfl

theorem after_2 (c : Dev nD) (t : Fin (cfg1 a).N) :
    (dat a V c).after 2 t = out (mnAt a t) (mxAt a t) (iblk a V c 0 t) (iblk a V c 1 t) := by dsimp only [dat]; rfl

abbrev X (c : Dev nD) : sProp 𝕄 := iprop(∃ r, prngReg c r)

abbrev Y (c : Dev nD) : sProp 𝕄 := iprop((∃ r, prngReg c r) ∗ Pipeline.prefHeld pre1 c (fun _ => fullShare) a.1)

theorem hin (c : Dev nD) :
    iprop(X c ∗ Pipeline.prefHeld pre1 c (fun _ => fullShare) a.1 ∗ Pipeline.scopedRest spec1 c) ⊢ (dat a V c).Φ 0 := .rfl

theorem hout (c : Dev nD) :
    (dat a V c).Φ (Fin.last (cfg1 a).N) ⊢ iprop(Y a c ∗ Pipeline.ownSems0 (fun k : PEmpty => k.elim) c ∗ Pipeline.scopedRest spec1 c) := by
  rw [Pipeline.ownSems0_none]
  dsimp only [dat, Y]
  iintro ⟨Hp, Ht, Hr⟩
  iframe
  iempintro

theorem PhiT_eq (c : Dev nD) :
    (Pipeline.prefHeld pre1 c (fun _ => fullShare) a.1 : sProp 𝕄) = iprop(tbPt c tbM0 (a.1 0) ∗ tbPt c tbM1 (a.1 1)) := by
  unfold Pipeline.prefHeld
  rw [show (Finset.univ : Finset (Fin 2)) = insert (0 : Fin 2) {(1 : Fin 2)} from by decide,
    bigSep_insert (by decide), bigSep_singleton]
  rfl

theorem before_0 (c : Dev nD) (t : Fin (cfg1 a).N) (d) : (dat a V c).before 0 t d = iblk a V c 0 t :=
  (dat a V c).before_in_eq_fetched 0 rfl (fun _ => rfl) (fun _ _ _ => rfl) (fun _ => rfl) t d
theorem before_1 (c : Dev nD) (t : Fin (cfg1 a).N) (d) : (dat a V c).before 1 t d = iblk a V c 1 t :=
  (dat a V c).before_in_eq_fetched 1 rfl (fun _ => rfl) (fun _ _ _ => rfl) (fun _ => rfl) t d

abbrev st0 (t : Fin (cfg1 a).N) := spec1_0.stage ((cfg1 a).slots t 0)
abbrev st1 (t : Fin (cfg1 a).N) := spec1_1.stage ((cfg1 a).slots t 1)
abbrev st2 (t : Fin (cfg1 a).N) := spec1_2.stage ((cfg1 a).slots t 2)

abbrev bodyAt (t : Fin (cfg1 a).N) : Prog (TpuEff nD τ sig (Elt F) Λ₀ .tc) PUnit :=
  cc1__gather_kernel (grid1.coords t) tbM0 (Memref.isWhole_whole _) tbM1 (Memref.isWhole_whole _)
    (st0 a t) (hstage1_0 (((cfg1 a).slots t 0).cast nbuf1_0))
    (st1 a t) (hstage1_1 (((cfg1 a).slots t 1).cast nbuf1_1))
    (st2 a t) (hstage1_2 (((cfg1 a).slots t 2).cast nbuf1_2))
    (Memref.whole cc1_scratch0) (Memref.isWhole_whole _)

theorem sound_body (c : Dev nD) (t : Fin (cfg1 a).N) :
    iprop((dat a V c).Φ t.castSucc ∗ (dat a V c).owesAt () t.castSucc
    ∗ (∃ d, owns (c : Thread nD τ) (st0 a t) fullShare ((dat a V c).before 0 t d))
    ∗ (∃ d, owns (c : Thread nD τ) (st1 a t) fullShare ((dat a V c).before 1 t d))
    ∗ (∃ d, owns (c : Thread nD τ) (st2 a t) fullShare ((dat a V c).before 2 t d)))
      ⊢ wp frame (wpE (defs₀ (F := F)) Variants.none c none) Set.univ (bodyAt a t) (fun _ =>
      iprop((dat a V c).Φ t.succ ∗ (dat a V c).owesAt () t.succ
      ∗ owns (c : Thread nD τ) (st0 a t) fullShare ((dat a V c).after 0 t)
      ∗ owns (c : Thread nD τ) (st1 a t) fullShare ((dat a V c).after 1 t)
      ∗ owns (c : Thread nD τ) (st2 a t) fullShare ((dat a V c).after 2 t))) := by
  unfold bodyAt
  rw [show (dat a V c).Φ t.succ = (dat a V c).Φ t.castSucc from rfl,
    show (dat a V c).owesAt () t.succ = (dat a V c).owesAt () t.castSucc from rfl, after_2]
  rw [show (dat a V c).Φ t.castSucc = iprop((∃ r, prngReg c r) ∗ Pipeline.prefHeld pre1 c (fun _ => fullShare) a.1 ∗ Pipeline.scopedRest spec1 c) from rfl,
    PhiT_eq, scopedRest1_eq]
  simp only [before_0, before_1, ← owns_whole (c : Thread nD τ) cc1_scratch0 fullShare, cc1__gather_kernel_eq_skeleton]
  unfold cc1__gather_kernel_skel
  rw [wp_bind]
  simp only [k1_part1_eq_skeleton]; unfold k1_part1_skel
  unfold owns
  iintro ⟨⟨Hp, ⟨HT0, HT1⟩, ⟨S0, S1, S2, S3, S4, S5, S6, ⟨%s7, %f6, -, H6⟩, S8⟩⟩, Ho, ⟨%d0, %f3, %hf3, H3⟩, ⟨%d1, %f4, %hf4, H4⟩, ⟨%d2, %f5, -, H5⟩⟩
  have hrows : View.readAt (Elt F) (st0 a t).view (Rect.unit (s := S1024) ![0] S1024.size inb_S1024_S1024_0).toLoadRect f3 = (st0 a t).view.read (Elt F) f3 := by
    rw [View.readAt_eq_ld, View.ld_unit_zero r1024_off]
  set_option sl_exec.stopBefore "v15" in sl_exec
  iapply block_run (F := F) (v := k1_pay4 (F := F))
  isplitl [H4 H6]
  · iexists _; iframe H4 H6; ipureintro; exact read_wr _ _
  iintro HI
  iterate 3 (iapply block_run; iframe HI; iintro HI)
  dsimp only
  sl_step
  dsimp only
  rw [wp_bind]
  simp only [k1_part2_eq_skeleton]; unfold k1_part2_skel
  iterate 7 (iapply block_run; iframe HI; iintro HI)
  dsimp only
  sl_step
  iterate 2 (iapply block_run; iframe HI; iintro HI)
  iapply block_run
  iframe HI
  iintro ⟨%g, H4, H6, %hg⟩
  sl_exec
  sl_step
  iframe Hp HT0 HT1 S0 S1 S2 S3 S4 S5 S6 S8 Ho
  isplitl [H6]
  · iexists _
    iexists g; isplitr; · ipureintro; rfl
    iexact H6
  isplitl [H3]; · iexists f3; isplitr; · ipureintro; exact hf3
                  iexact H3
  isplitl [H4]; · iexists f4; isplitr; · ipureintro; exact hf4
                  iexact H4
  iexists _; isplitr; swap; · iexact H5
  ipureintro
  rw [read_wr, View.readAt_eq_ld, View.ld_unit_zero rW_off, hg, ← hf3, ← hf4]
  rfl

theorem body_obligation (c : Dev nD) : BodyObligation (dat a V c) (defs₀ (F := F)) Variants.none () Set.univ := fun t => by
  rw [bigSep_W1, bigSep_W1]
  exact sound_body a V c t

end Region

end Cert.Kernel.Gat

end
-- ==== Proof.Kernel.Scatter.lean ====
import proofs.«401429_j309237645711_3_alg».proof.Proof.Gen.Kernel.Launch
import proofs.«401429_j309237645711_3_alg».proof.Proof.Gen.Kernel.Skeleton
import Idealize.ShloMosaic.Lib.Pipeline.FrameBody
import Idealize.ShloMosaic.Lib.Pipeline.Value
import Idealize.ShloMosaic.Lib.Pipeline.TableIdle
import Idealize.ShloMosaic.Lib.Ring
import Idealize.ShloMosaic.Lib.Tactic

noncomputable section

namespace Cert.Kernel.Sct

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (a : (pcfg2 (F := F)).Adm)
variable (V : (c : Dev nD) → (b : Ref sig .tc) → Buf (Elt F) ((c : Thread nD τ).loc b))

theorem coords0_val (t : Fin grid2.N) : ((grid2.coords t) 0).val = t.val / 831 := by
  have hN := lt_of_lt_of_eq t.isLt N_2
  show t.val / 831 % 14 = t.val / 831; omega

theorem coords1_val (t : Fin grid2.N) : ((grid2.coords t) 1).val = t.val % 831 := by
  show t.val / 1 % 831 = t.val % 831; rw [Nat.div_one]

def iblk (c : Dev nD) (w : Fin (cfg2 a).W) (t : Fin (cfg2 a).N) : (((cfg2 a).win w).xblock ((cfg2 a).grid.coords t)).Idx → Elt F ((cfg2 a).win w).elt :=
  (((cfg2 a).win w).blk t).view.read (Elt F) (V c (Pipeline.arrRef spec2 w))

abbrev tbM0 : Memref sig .tc .smem S831 .i32 := Memref.whole main_v44
abbrev htbM0 : tbM0.IsWhole := Memref.isWhole_whole _
abbrev tbM1 : Memref sig .tc .smem S831 .i32 := Memref.whole main_v45
abbrev htbM1 : tbM1.IsWhole := Memref.isWhole_whole _

abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare} f

def wordAt {M : Memref sig .tc .smem S831 .i32} (i : grid2.Coords) (f : M.view.ty.Contents (Elt F)) : Elt F .i32 :=
  M.view.readAt (Elt F) (Rect.unit (s := S831) (k2_off1 i) S1.size (k2_off1_inb i)).toLoadRect f (Shape.Idx.first (numel1_S1.symm ▸ Nat.one_pos))

def mnAt (t : Fin (cfg2 a).N) : Elt F .i32 := wordAt (M := tbM0) (grid2.coords t) (a.1 0)

def mxAt (t : Fin (cfg2 a).N) : Elt F .i32 := wordAt (M := tbM1) (grid2.coords t) (a.1 1)

def ovl (i : grid2.Coords) (mn mx : BitVec 32) : BitVec 1 :=
  Scalar.cmpi .ne (Scalar.extui (Scalar.andi
    (Scalar.cmpi .sge mx (Scalar.muli (BitVec.ofNat 32 (i 0).val) 4096#32))
    (Scalar.cmpi .sle mn (Scalar.subi (Scalar.addi (Scalar.muli (BitVec.ofNat 32 (i 0).val) 4096#32) 4096#32) 1#32)))) 0#32

def hit (t : Fin (cfg2 a).N) : Prop := ovl (grid2.coords t) (mnAt a t) (mxAt a t) = 1#1

instance (t : Fin (cfg2 a).N) : Decidable (hit a t) := by unfold hit; infer_instance

theorem lo_toInt : ∀ v : Fin 14, (Scalar.muli (BitVec.ofNat 32 v.val) 4096#32).toInt = 4096 * (v.val : Int) := by decide

theorem hi_toInt : ∀ v : Fin 14, (Scalar.subi (Scalar.addi (Scalar.muli (BitVec.ofNat 32 v.val) 4096#32) 4096#32) 1#32).toInt = 4096 * (v.val : Int) + 4095 := by decide

theorem hit_iff (t : Fin (cfg2 a).N) :
    hit a t ↔ ((mxAt a t).toInt ≥ 4096 * (((grid2.coords t) 0).val : Int) ∧ (mnAt a t).toInt ≤ 4096 * (((grid2.coords t) 0).val : Int) + 4095) := by
  unfold hit ovl
  rw [Scalar.guard_iff, Scalar.andi, IntOp.andi_eq_one, Scalar.cmpi, Scalar.cmpi, IntOp.cmpi_sge, IntOp.cmpi_sle,
    lo_toInt ((grid2.coords t) 0), hi_toInt ((grid2.coords t) 0)]

-- The accumulator after n points: zeros where a node block opens, and on a hit the block's one-hot product added.
def accAt (c : Dev nD) : (n : ℕ) → Vec F S4096x64 .f32
  | 0 => k2_pay1
  | n + 1 =>
    if h : n < (cfg2 a).N then
      if hit a ⟨n, h⟩ then
        k2_pay2 (grid2.coords ⟨n, h⟩) (iblk a V c 0 ⟨n, h⟩) (iblk a V c 1 ⟨n, h⟩) (if n % 831 = 0 then k2_pay1 else accAt c n)
      else (if n % 831 = 0 then k2_pay1 else accAt c n)
    else accAt c n

def startAt (c : Dev nD) (t : Fin (cfg2 a).N) : Vec F S4096x64 .f32 :=
  if t.val % 831 = 0 then k2_pay1 else accAt a V c t.val

theorem startAt_first (c : Dev nD) (t : Fin (cfg2 a).N) (h : ((grid2.coords t) 1).val = 0) : startAt a V c t = k2_pay1 := by
  unfold startAt; rw [if_pos ((coords1_val t).symm.trans h)]

theorem startAt_later (c : Dev nD) (t : Fin (cfg2 a).N) (h : ((grid2.coords t) 1).val ≠ 0) : startAt a V c t = accAt a V c t.val := by
  unfold startAt; rw [if_neg (fun h0 => h ((coords1_val t).trans h0))]

theorem accAt_succ (c : Dev nD) (t : Fin (cfg2 a).N) :
    accAt a V c (t.val + 1) = if hit a t then k2_pay2 (grid2.coords t) (iblk a V c 0 t) (iblk a V c 1 t) (startAt a V c t) else startAt a V c t := by
  rw [accAt, dif_pos t.isLt]; rfl

theorem accAt_succ_hit (c : Dev nD) (t : Fin (cfg2 a).N) (h : hit a t) :
    accAt a V c (t.val + 1) = k2_pay2 (grid2.coords t) (iblk a V c 0 t) (iblk a V c 1 t) (startAt a V c t) := by
  rw [accAt_succ, if_pos h]

theorem accAt_succ_miss (c : Dev nD) (t : Fin (cfg2 a).N) (h : ¬hit a t) :
    accAt a V c (t.val + 1) = startAt a V c t := by
  rw [accAt_succ, if_neg h]

def outBlk (c : Dev nD) (t : Fin (cfg2 a).N) : Vec F S4096x64 .f32 :=
  k2_pay3 (accAt a V c (t.val + 1)) (iblk a V c 2 t) (iblk a V c 3 t)

abbrev scM : Memref sig .tc .vmem S4096x64 .f32 := Memref.whole cc2_scratch0

-- Everything else that is held, owed back once the accumulator's buffer is returned.
def others (c : Dev nD) : sProp 𝕄 :=
  iprop(∀ f, ((c : Thread nD τ).loc cc2_scratch0 ↦{fullShare} f) -∗ Pipeline.scopedRest spec2 c)

-- Before point n the accumulator holds some X, and X = accAt n once a point has run.
def Phi (c : Dev nD) (n : ℕ) : sProp 𝕄 :=
  iprop((∃ r, prngReg c r) ∗ Pipeline.prefHeld pre2 c (fun _ => fullShare) a.1 ∗ others (F := F) c
    ∗ ∃ X, ⌜n ≠ 0 → X = accAt a V c n⌝ ∗ owns c.tc scM fullShare X)

def dat (c : Dev nD) : Dat τ (Elt F) Unit ℕ (UR sig nD τ) ℕ (cfg2 a) c where
  A w := V c (Pipeline.arrRef spec2 w)
  after w t := match w with
    | ⟨0, _⟩ => iblk a V c 0 t
    | ⟨1, _⟩ => iblk a V c 1 t
    | ⟨2, _⟩ => iblk a V c 2 t
    | ⟨3, _⟩ => iblk a V c 3 t
    | ⟨4, _⟩ => outBlk a V c t
  Φ t := Phi a V c t.val
  q _ := fullShare
  owed _ := 0

theorem A_eq (c : Dev nD) (w : Fin (cfg2 a).W) : (dat a V c).A w = V c (Pipeline.arrRef spec2 w) := rfl

theorem after_4 (c : Dev nD) (t : Fin (cfg2 a).N) : (dat a V c).after 4 t = outBlk a V c t := rfl

section Whole

variable {sig' : RefSig} {κ : Kind} {sp : Space} {S : Shape} {e : EltTy} {Val : EltTy → Type}

theorem read_writes_unit_zero (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

theorem readAt_rep_unit_zero [∀ e, Nonempty (Val e)] (v : View sig' κ sp S e) (X : S.Idx → Val e) {off : Fin S.rank → Nat}
    (ho : off = fun _ => 0) (inb : ∀ a, off a + S.size a ≤ S.size a) :
    v.readAt Val (Rect.unit off S.size inb).toLoadRect (v.rep X) = X := by
  rw [View.readAt_eq_ld, View.read_rep]; exact View.ld_unit_zero ho inb X

end Whole

theorem z1 : (![0] : Fin 1 → ℕ) = fun _ => 0 := by funext a; fin_cases a; rfl
theorem z2 : (![0, 0] : Fin 2 → ℕ) = fun _ => 0 := by funext a; fin_cases a <;> rfl

abbrev cond1 (i : grid2.Coords) : Prop := (Scalar.cmpi .ne (Scalar.extui (Scalar.cmpi .eq (BitVec.ofNat 32 (i 1).val) 0#32)) 0#32) = 1#1

theorem cond1_iff (i : grid2.Coords) : cond1 i ↔ (i 1).val = 0 := by
  have h : ∀ e : Fin 831, (Scalar.cmpi .ne (Scalar.extui (Scalar.cmpi .eq (BitVec.ofNat 32 e.val) 0#32)) 0#32) = 1#1 ↔ e.val = 0 := by
    decide +kernel
  exact h (i 1)

theorem cond3_iff (i : grid2.Coords) : k2_cond3 i = 1#1 ↔ (i 1).val = 830 := by
  have h : ∀ e : Fin 831, (Scalar.cmpi .ne (Scalar.extui (Scalar.cmpi .eq (BitVec.ofNat 32 e.val) 830#32)) 0#32) = 1#1 ↔ e.val = 830 := by
    decide +kernel
  exact h (i 1)

section Run

variable (c : Dev nD) (i : grid2.Coords)
  (arg4 : Memref sig .tc .vmem S1024 .i32) (harg4 : arg4.IsWhole) (arg5 : Memref sig .tc .vmem S1024x64 .f32) (harg5 : arg5.IsWhole)
  (arg6 : Memref sig .tc .vmem S4096x1 .f32) (harg6 : arg6.IsWhole) (arg7 : Memref sig .tc .vmem S1x64 .f32) (harg7 : arg7.IsWhole)
  (arg8 : Memref sig .tc .vmem S4096x64 .f32) (harg8 : arg8.IsWhole) (arg9 : Memref sig .tc .vmem S4096x64 .f32) (harg9 : arg9.IsWhole)
  (x0 : Vec F S1024 .i32) (x1 : Vec F S1024x64 .f32) (x2 : Vec F S4096x1 .f32) (x3 : Vec F S1x64 .f32) (d4 : Vec F S4096x64 .f32)
  (xt0 : TbBuf (F := F) c tbM0) (xt1 : TbBuf (F := F) c tbM1) (xs : Vec F S4096x64 .f32)

-- The body is three independent conditionals (reset, add, store), so its result is written with the same three tests.
theorem run (s0 s' o' : Vec F S4096x64 .f32) (h0 : s0 = if cond1 i then k2_pay1 else xs)
    (hs : s' = if ovl i (wordAt (M := tbM0) i xt0) (wordAt (M := tbM1) i xt1) = 1#1 then k2_pay2 i x0 x1 s0 else s0)
    (ho : o' = if k2_cond3 i = 1#1 then k2_pay3 s' x2 x3 else d4) (E : Set ℕ) (K : PUnit → sProp 𝕄) :
    iprop(owns c.tc arg4 fullShare x0 ∗ owns c.tc arg5 fullShare x1 ∗ owns c.tc arg6 fullShare x2
        ∗ owns c.tc arg7 fullShare x3 ∗ owns c.tc arg8 fullShare d4 ∗ tbPt c tbM0 xt0 ∗ tbPt c tbM1 xt1
        ∗ owns c.tc arg9 fullShare xs
        ∗ (iprop(owns c.tc arg4 fullShare x0 ∗ owns c.tc arg5 fullShare x1 ∗ owns c.tc arg6 fullShare x2
            ∗ owns c.tc arg7 fullShare x3 ∗ owns c.tc arg8 fullShare o' ∗ tbPt c tbM0 xt0 ∗ tbPt c tbM1 xt1
            ∗ owns c.tc arg9 fullShare s') -∗ K ⟨⟩))
      ⊢ wp frame (wpE (defs₀ (F := F)) Variants.none c none) E (cc2__scatter_kernel i tbM0 htbM0 tbM1 htbM1 arg4 harg4 arg5 harg5 arg6 harg6 arg7 harg7 arg8 harg8 arg9 harg9) K := by
  subst h0 hs ho
  by_cases hc1 : cond1 i <;> by_cases hc2 : ovl i (wordAt (M := tbM0) i xt0) (wordAt (M := tbM1) i xt1) = 1#1 <;> by_cases hc3 : k2_cond3 i = 1#1
  all_goals
    first | rw [if_pos hc1] | rw [if_neg hc1]
    first | rw [if_pos hc2] | rw [if_neg hc2]
    first | rw [if_pos hc3] | rw [if_neg hc3]
    try exact absurd ((cond3_iff i).mp hc3) (by rw [(cond1_iff i).mp hc1]; decide)
  all_goals
    rw [owns_eq_rep c.tc arg4 _ x0, owns_eq_rep c.tc arg5 _ x1, owns_eq_rep c.tc arg6 _ x2, owns_eq_rep c.tc arg7 _ x3, owns_eq_rep c.tc arg8 _ d4, owns_eq_rep c.tc arg9 _ xs]
    simp only [cc2__scatter_kernel_eq_skeleton]; unfold cc2__scatter_kernel_skel
    iintro ⟨H0, H1, H2, H3, H4, HT0, HT1, HS, Hk⟩
    sl_exec (disch := first | exact hc1 | exact hc2 | exact hc3)
    sl_step
    iapply Hk
    iframe
    try isplitl [H4]
    all_goals
      unfold owns; iexists _; isplitr; swap; · iassumption
      ipureintro; sl_unfold_run_names
      repeat (first | rw [read_writes_unit_zero arg8.view _ z2] | rw [read_writes_unit_zero arg9.view _ z2] | rw [View.readCov_unit_zero arg9.view z2] | rw [readAt_rep_unit_zero arg4.view _ z1] | rw [readAt_rep_unit_zero arg5.view _ z2] | rw [readAt_rep_unit_zero arg6.view _ z2] | rw [readAt_rep_unit_zero arg7.view _ z2] | rw [readAt_rep_unit_zero arg9.view _ z2])

end Run

abbrev ms0 (t : Fin (cfg2 a).N) := spec2_0.stage ((cfg2 a).slots t 0)
abbrev ms1 (t : Fin (cfg2 a).N) := spec2_1.stage ((cfg2 a).slots t 1)
abbrev ms2 (t : Fin (cfg2 a).N) := spec2_2.stage ((cfg2 a).slots t 2)
abbrev ms3 (t : Fin (cfg2 a).N) := spec2_3.stage ((cfg2 a).slots t 3)
abbrev ms4 (t : Fin (cfg2 a).N) := spec2_4.stage ((cfg2 a).slots t 4)

abbrev bodyAt (t : Fin (cfg2 a).N) : Prog (TpuEff nD τ sig (Elt F) Λ₀ .tc) PUnit :=
  cc2__scatter_kernel (grid2.coords t) tbM0 htbM0 tbM1 htbM1 (ms0 a t) (hstage2_0 (((cfg2 a).slots t 0).cast nbuf2_0)) (ms1 a t) (hstage2_1 (((cfg2 a).slots t 1).cast nbuf2_1)) (ms2 a t) (hstage2_2 (((cfg2 a).slots t 2).cast nbuf2_2)) (ms3 a t) (hstage2_3 (((cfg2 a).slots t 3).cast nbuf2_3))
    (ms4 a t) (hstage2_4 (((cfg2 a).slots t 4).cast nbuf2_4)) scM (Memref.isWhole_whole _)

theorem before_k (c : Dev nD) (t : Fin (cfg2 a).N) : ∀ (w : Fin (cfg2 a).W), w.val ≠ 4 → ∀ d, (dat a V c).before w t d = iblk a V c w t
  | ⟨0, _⟩, _, d | ⟨1, _⟩, _, d | ⟨2, _⟩, _, d | ⟨3, _⟩, _, d =>
    (dat a V c).before_in_eq_fetched _ rfl (fun _ => rfl) (fun _ _ _ => rfl) (fun _ => rfl) t d
  | ⟨4, _⟩, h, _ => absurd rfl h

theorem idle4_eq (t : Fin (cfg2 a).N) : (cfg2 a).idle 4 ((cfg2 a).grid.coords t) = !(k2_cond3 (grid2.coords t) == 1#1) := rfl

theorem flush4_false (t : Fin (cfg2 a).N) (h : ((grid2.coords t) 1).val ≠ 830) : ((cfg2 a).win 4).flush t = false := by
  have hN : t.val < 11634 := lt_of_lt_of_eq t.isLt N_2
  have he : t.val % 831 ≠ 830 := fun he => h ((coords1_val t).trans he)
  unfold Window.flush
  rw [Bool.and_eq_false_iff]; right
  rw [Bool.or_eq_false_iff]
  refine ⟨decide_eq_false ?_, decide_eq_false ?_⟩
  · intro h'; have := h'.trans (show (cfg2 a).grid.N = 11634 from N_2); omega
  · rintro ⟨hh, hne⟩
    refine hne (hreads2_4 _ _ fun ax hax => ?_)
    obtain rfl := (by decide : ∀ ax, reads2_4 ax = true → ax = 0) ax hax
    exact Fin.ext (by rw [coords0_val, coords0_val]; show (t.val + 1) / 831 = t.val / 831; omega)

theorem Phi_eq (c : Dev nD) (t) : (dat a V c).Φ t = Phi a V c t.val := rfl

theorem PhiT_eq (c : Dev nD) :
    (Pipeline.prefHeld pre2 c (fun _ => fullShare) a.1 : sProp 𝕄) = iprop(tbPt c tbM0 (a.1 0) ∗ tbPt c tbM1 (a.1 1)) := by
  unfold Pipeline.prefHeld
  rw [show (Finset.univ : Finset (Fin 2)) = insert (0 : Fin 2) {(1 : Fin 2)} from by decide,
    bigSep_insert (by decide), bigSep_singleton]
  rfl

-- On the last edge block the output is the closing value; elsewhere it is unchanged.
theorem leaves_4 (c : Dev nD) (t : Fin (cfg2 a).N) (d) (o' : Vec F S4096x64 .f32)
    (h1 : k2_cond3 (grid2.coords t) = 1#1 → o' = outBlk a V c t) (h2 : ¬k2_cond3 (grid2.coords t) = 1#1 → o' = (dat a V c).before 4 t d) :
    owns c.tc (ms4 a t) fullShare o' ⊢ (dat a V c).leavesExact 4 t := by
  by_cases h : k2_cond3 (grid2.coords t) = 1#1
  · obtain rfl := h1 h
    unfold Dat.leavesExact; rw [idle4_eq, h]; rfl
  · obtain rfl := h2 h
    rw [Dat.leavesExact_idle (dat a V c) 4 t (by rw [idle4_eq, Bool.not_eq_true', beq_eq_false_iff_ne]; exact h)
      (flush4_false a t fun h' => h ((cond3_iff _).mpr h'))]
    iintro H; iexists d; iexact H

-- What point t starts from: zeros on a first edge block, else what the points before left.
theorem startAt_eq (c : Dev nD) (t : Fin (cfg2 a).N) (X) (hX : t.val ≠ 0 → X = accAt a V c t.val) :
    startAt a V c t = if cond1 (grid2.coords t) then k2_pay1 else X := by
  unfold startAt
  by_cases e0 : t.val % 831 = 0
  · rw [if_pos e0, if_pos ((cond1_iff _).mpr ((coords1_val t).trans e0))]
  · rw [if_neg e0, if_neg fun h => e0 ((coords1_val t).symm.trans ((cond1_iff _).mp h)), hX fun hz => e0 (by rw [hz])]

theorem sound_body (c : Dev nD) (t : Fin (cfg2 a).N) :
    iprop((dat a V c).Φ t.castSucc ∗ (dat a V c).owesAt () t.castSucc
      ∗ (∃ d, owns c.tc (ms0 a t) fullShare ((dat a V c).before 0 t d))
      ∗ (∃ d, owns c.tc (ms1 a t) fullShare ((dat a V c).before 1 t d))
      ∗ (∃ d, owns c.tc (ms2 a t) fullShare ((dat a V c).before 2 t d))
      ∗ (∃ d, owns c.tc (ms3 a t) fullShare ((dat a V c).before 3 t d))
      ∗ (∃ d, owns c.tc (ms4 a t) fullShare ((dat a V c).before 4 t d)))
    ⊢ wp frame (wpE (defs₀ (F := F)) Variants.none c none) Set.univ (bodyAt a t) (fun _ => iprop((dat a V c).Φ t.succ ∗ (dat a V c).owesAt () t.succ
      ∗ (dat a V c).leavesExact 0 t ∗ (dat a V c).leavesExact 1 t ∗ (dat a V c).leavesExact 2 t ∗ (dat a V c).leavesExact 3 t ∗ (dat a V c).leavesExact 4 t)) := by
  simp (disch := exact Nat.ne_of_beq_eq_false rfl) only [before_k a V c t]
  rw [show (dat a V c).owesAt () t.succ = (dat a V c).owesAt () t.castSucc from rfl, Phi_eq, Phi_eq, Fin.val_succ, Fin.coe_castSucc,
    show (dat a V c).leavesExact 0 t = owns c.tc (ms0 a t) fullShare (iblk a V c 0 t) from rfl,
    show (dat a V c).leavesExact 1 t = owns c.tc (ms1 a t) fullShare (iblk a V c 1 t) from rfl,
    show (dat a V c).leavesExact 2 t = owns c.tc (ms2 a t) fullShare (iblk a V c 2 t) from rfl,
    show (dat a V c).leavesExact 3 t = owns c.tc (ms3 a t) fullShare (iblk a V c 3 t) from rfl]
  unfold Phi; rw [PhiT_eq]
  iintro ⟨⟨Hg, ⟨HT0, HT1⟩, HO, ⟨%X, %hX, HS⟩⟩, Ho, ⟨%d0, H0⟩, ⟨%d1, H1⟩, ⟨%d2, H2⟩, ⟨%d3, H3⟩, ⟨%d4, H4⟩⟩
  iapply (run c _ _ _ _ _ _ _ _ _ _ _ _ _ _ _ _ _ _ _ _ X (startAt a V c t) (accAt a V c (t.val + 1))
    (if k2_cond3 (grid2.coords t) = 1#1 then outBlk a V c t else (dat a V c).before 4 t d4) (startAt_eq a V c t X hX) (accAt_succ a V c t) rfl Set.univ _)
  iframe H0 H1 H2 H3 H4 HT0 HT1 HS
  iintro ⟨H0, H1, H2, H3, H4, HT0, HT1, HS⟩
  iframe Hg HT0 HT1 HO Ho
  isplitl [HS]
  · iexists _; isplitr; · ipureintro; exact fun _ => rfl
    iexact HS
  iframe H0 H1 H2 H3
  iapply (leaves_4 a V c t d4 _ (fun h => if_pos h) (fun h => if_neg h)); iexact H4

theorem body_obligation (c : Dev nD) : BodyObligation (dat a V c) (defs₀ (F := F)) Variants.none () Set.univ := fun t => by
  rw [bigSep_W2, bigSep_W2]
  exact sound_body a V c t

abbrev X (c : Dev nD) : sProp 𝕄 := iprop(∃ r, prngReg c r)

abbrev Y (c : Dev nD) : sProp 𝕄 := iprop((∃ r, prngReg c r) ∗ Pipeline.prefHeld pre2 c (fun _ => fullShare) a.1)

theorem hin (c : Dev nD) :
    iprop(X (F := F) c ∗ Pipeline.prefHeld pre2 c (fun _ => fullShare) a.1 ∗ Pipeline.scopedRest spec2 c) ⊢ (dat a V c).Φ 0 := by
  rw [Phi_eq, Fin.val_zero]
  unfold Phi others
  rw [scopedRest2_eq]
  simp only [scM, owns_whole]
  iintro ⟨HX, HT, B0, B1, B2, B3, B4, B5, B6, B7, B8, B9, B10, B11, B12, ⟨%f, HS⟩⟩
  iframe HX HT
  isplitr [HS]
  · iintro %g Hg; iframe; iexists g; iexact Hg
  iexists f; isplitr; · ipureintro; exact fun h => absurd rfl h
  iexact HS

theorem hout (c : Dev nD) :
    (dat a V c).Φ (Fin.last (cfg2 a).N) ⊢ iprop(Y a c ∗ Pipeline.ownSems0 (fun k : PEmpty => k.elim) c ∗ Pipeline.scopedRest spec2 c) := by
  rw [Phi_eq, Pipeline.ownSems0_none]
  unfold Phi others Y
  simp only [scM, owns_whole]
  iintro ⟨Hg, HT, HW, ⟨%X, %hX, HS⟩⟩
  iframe Hg HT
  isplitr; · iempintro
  ispecialize HW $$ %X HS
  iexact HW

end Cert.Kernel.Sct

end
-- ==== Proof.Kernel.Run.lean ====
import proofs.«401429_j309237645711_3_alg».proof.Proof.Gen.Kernel.Launch
import proofs.«401429_j309237645711_3_alg».proof.Proof.Gen.Kernel.Regions
import Idealize.ShloMosaic.Lib.Pipeline.RegionsLoop
import Idealize.ShloMosaic.Lib.Tactic
import proofs.«401429_j309237645711_3_alg».proof.Proof.Kernel.Linear
import proofs.«401429_j309237645711_3_alg».proof.Proof.Kernel.Gather
import proofs.«401429_j309237645711_3_alg».proof.Proof.Kernel.Scatter

set_option maxRecDepth 16384
set_option backward.isDefEq.respectTransparency.types false

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def W0 : Dev nD → Valuation τ sig (Elt F) := fun c b => m (c, b)

def W1 : Dev nD → Valuation τ sig (Elt F) := fun c => StableHlo.after hostOps0 (W0 m c)
def W2 : Dev nD → Valuation τ sig (Elt F) := fun c => StableHlo.after hostOps0_1 (W1 m c)
def W3 : Dev nD → Valuation τ sig (Elt F) := fun c => StableHlo.after hostOps0_2 (W2 m c)
def W4 : Dev nD → Valuation τ sig (Elt F) := fun c => StableHlo.after hostOps0_3 (W3 m c)
def W5 : Dev nD → Valuation τ sig (Elt F) := fun c => StableHlo.after hostOps0_4 (W4 m c)
def W6 : Dev nD → Valuation τ sig (Elt F) := fun c => StableHlo.after hostOps0_5 (W5 m c)

def W7 : Dev nD → Valuation τ sig (Elt F) := fun c => StableHlo.after hostOps0_6 (W6 m c)

abbrev V7 : (c : Dev nD) → (b : Ref sig .tc) → Buf (Elt F) ((c : Thread nD τ).loc b) := fun c b => W7 m c b

def W8 (c : Dev nD) : Valuation τ sig (Elt F) :=
  Pipeline.withArrays spec0 c (W7 m c) fun w => (Lin.dat (V7 m) c).arrAt w cfg0.N
abbrev V8 : (c : Dev nD) → (b : Ref sig .tc) → Buf (Elt F) ((c : Thread nD τ).loc b) := fun c b => W8 m c b

def W9 : Dev nD → Valuation τ sig (Elt F) := fun c => StableHlo.after hostOps1 (W8 m c)
abbrev V9 : (c : Dev nD) → (b : Ref sig .tc) → Buf (Elt F) ((c : Thread nD τ).loc b) := fun c b => W9 m c b

abbrev c₀ : Dev nD := ⟨0, Nat.one_pos⟩

def adm1 : (pcfg1 (F := F)).Adm := ⟨fun k => W7 m c₀ (Proc.devRef .tc (pre1.ref k)), trivial⟩

def adm2 : (pcfg2 (F := F)).Adm := ⟨fun k => W7 m c₀ (Proc.devRef .tc (pre2.ref k)), trivial⟩

def W10 (c : Dev nD) : Valuation τ sig (Elt F) :=
  Pipeline.withArrays spec1 c (W9 m c) fun w => (Gat.dat (adm1 m) (V9 m) c).arrAt w (cfg1 (adm1 m)).N
abbrev V10 : (c : Dev nD) → (b : Ref sig .tc) → Buf (Elt F) ((c : Thread nD τ).loc b) := fun c b => W10 m c b

def W11 : Dev nD → Valuation τ sig (Elt F) := fun c => StableHlo.after hostOps2 (W10 m c)
abbrev V11 : (c : Dev nD) → (b : Ref sig .tc) → Buf (Elt F) ((c : Thread nD τ).loc b) := fun c b => W11 m c b

def W12 (c : Dev nD) : Valuation τ sig (Elt F) :=
  Pipeline.withArrays spec2 c (W11 m c) fun w => (Sct.dat (adm2 m) (V11 m) c).arrAt w (cfg2 (adm2 m)).N
abbrev V12 : (c : Dev nD) → (b : Ref sig .tc) → Buf (Elt F) ((c : Thread nD τ).loc b) := fun c b => W12 m c b

def W13 : Dev nD → Valuation τ sig (Elt F) := fun c => StableHlo.after hostOps3 (W12 m c)
def W14 : Dev nD → Valuation τ sig (Elt F) := fun c => StableHlo.after hostOps3_1 (W13 m c)
def W15 : Dev nD → Valuation τ sig (Elt F) := fun c => StableHlo.after hostOps3_2 (W14 m c)

def adm : (p : Fin 3) → (pcfgs (F := F) p).Adm
  | ⟨0, _⟩ => cfg0.toPCfg_adm
  | ⟨1, _⟩ => adm1 m
  | ⟨2, _⟩ => adm2 m

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
theorem W3_of (c : Dev nD) (r : Ref sig .tc) (h : r ∉ hostOps0_2_W) : W3 m c r = W2 m c r :=
  StableHlo.after_of_writes_sub hostOps0_2 _ hostOps0_2_writes h
theorem W4_of (c : Dev nD) (r : Ref sig .tc) (h : r ∉ hostOps0_3_W) : W4 m c r = W3 m c r :=
  StableHlo.after_of_writes_sub hostOps0_3 _ hostOps0_3_writes h
theorem W5_of (c : Dev nD) (r : Ref sig .tc) (h : r ∉ hostOps0_4_W) : W5 m c r = W4 m c r :=
  StableHlo.after_of_writes_sub hostOps0_4 _ hostOps0_4_writes h
theorem W6_of (c : Dev nD) (r : Ref sig .tc) (h : r ∉ hostOps0_5_W) : W6 m c r = W5 m c r :=
  StableHlo.after_of_writes_sub hostOps0_5 _ hostOps0_5_writes h
theorem W7_of (c : Dev nD) (r : Ref sig .tc) (h : r ∉ hostOps0_6_W) : W7 m c r = W6 m c r :=
  StableHlo.after_of_writes_sub hostOps0_6 _ hostOps0_6_writes h

theorem W8_arr (c : Dev nD) (w : Fin cfg0.W) :
    W8 m c (Proc.devRef .tc (Pipeline.arrRef spec0 w)) = (Lin.dat (V7 m) c).arrAt w cfg0.N := by
  unfold W8; exact Pipeline.withArrays_arr spec0 winFacts0.arr_inj c _ _ w

theorem W8_of (c : Dev nD) (r : Ref sig .tc) (h : ∀ w, Pipeline.arrRef spec0 w ≠ r) : W8 m c r = W7 m c r := by
  unfold W8; exact Pipeline.withArrays_of_ne spec0 c _ _ r h
theorem W9_of (c : Dev nD) (r : Ref sig .tc) (h : r ∉ hostOps1_W) : W9 m c r = W8 m c r :=
  StableHlo.after_of_writes_sub hostOps1 _ hostOps1_writes h

theorem W10_arr (c : Dev nD) (w : Fin (cfg1 (adm1 m)).W) :
    W10 m c (Proc.devRef .tc (Pipeline.arrRef spec1 w)) = (Gat.dat (adm1 m) (V9 m) c).arrAt w (cfg1 (adm1 m)).N := by
  unfold W10; exact Pipeline.withArrays_arr spec1 winFacts1.arr_inj c _ _ w

theorem W10_of (c : Dev nD) (r : Ref sig .tc) (h : ∀ w, Pipeline.arrRef spec1 w ≠ r) : W10 m c r = W9 m c r := by
  unfold W10; exact Pipeline.withArrays_of_ne spec1 c _ _ r h
theorem W11_of (c : Dev nD) (r : Ref sig .tc) (h : r ∉ hostOps2_W) : W11 m c r = W10 m c r :=
  StableHlo.after_of_writes_sub hostOps2 _ hostOps2_writes h

theorem W12_arr (c : Dev nD) (w : Fin (cfg2 (adm2 m)).W) :
    W12 m c (Proc.devRef .tc (Pipeline.arrRef spec2 w)) = (Sct.dat (adm2 m) (V11 m) c).arrAt w (cfg2 (adm2 m)).N := by
  unfold W12; exact Pipeline.withArrays_arr spec2 winFacts2.arr_inj c _ _ w

theorem W12_of (c : Dev nD) (r : Ref sig .tc) (h : ∀ w, Pipeline.arrRef spec2 w ≠ r) : W12 m c r = W11 m c r := by
  unfold W12; exact Pipeline.withArrays_of_ne spec2 c _ _ r h
theorem W13_of (c : Dev nD) (r : Ref sig .tc) (h : r ∉ hostOps3_W) : W13 m c r = W12 m c r :=
  StableHlo.after_of_writes_sub hostOps3 _ hostOps3_writes h
theorem W14_of (c : Dev nD) (r : Ref sig .tc) (h : r ∉ hostOps3_1_W) : W14 m c r = W13 m c r :=
  StableHlo.after_of_writes_sub hostOps3_1 _ hostOps3_1_writes h
theorem W15_of (c : Dev nD) (r : Ref sig .tc) (h : r ∉ hostOps3_2_W) : W15 m c r = W14 m c r :=
  StableHlo.after_of_writes_sub hostOps3_2 _ hostOps3_2_writes h

theorem W1_def (c : Dev nD) : W1 m c = StableHlo.after hostOps0 (W0 m c) := rfl
theorem W2_def (c : Dev nD) : W2 m c = StableHlo.after hostOps0_1 (W1 m c) := rfl
theorem W3_def (c : Dev nD) : W3 m c = StableHlo.after hostOps0_2 (W2 m c) := rfl
theorem W4_def (c : Dev nD) : W4 m c = StableHlo.after hostOps0_3 (W3 m c) := rfl
theorem W5_def (c : Dev nD) : W5 m c = StableHlo.after hostOps0_4 (W4 m c) := rfl
theorem W6_def (c : Dev nD) : W6 m c = StableHlo.after hostOps0_5 (W5 m c) := rfl
theorem W7_def (c : Dev nD) : W7 m c = StableHlo.after hostOps0_6 (W6 m c) := rfl
theorem W8_def (c : Dev nD) : W8 m c = Pipeline.withArrays spec0 c (W7 m c) fun w => (Lin.dat (V7 m) c).arrAt w cfg0.N := rfl
theorem W9_def (c : Dev nD) : W9 m c = StableHlo.after hostOps1 (W8 m c) := rfl
theorem W10_def (c : Dev nD) : W10 m c = Pipeline.withArrays spec1 c (W9 m c) fun w => (Gat.dat (adm1 m) (V9 m) c).arrAt w (cfg1 (adm1 m)).N := rfl
theorem W11_def (c : Dev nD) : W11 m c = StableHlo.after hostOps2 (W10 m c) := rfl
theorem W12_def (c : Dev nD) : W12 m c = Pipeline.withArrays spec2 c (W11 m c) fun w => (Sct.dat (adm2 m) (V11 m) c).arrAt w (cfg2 (adm2 m)).N := rfl
theorem W13_def (c : Dev nD) : W13 m c = StableHlo.after hostOps3 (W12 m c) := rfl
theorem W14_def (c : Dev nD) : W14 m c = StableHlo.after hostOps3_1 (W13 m c) := rfl
theorem W15_def (c : Dev nD) : W15 m c = StableHlo.after hostOps3_2 (W14 m c) := rfl

theorem adm1_val (k : Fin pre1.K) : (adm1 m).1 k = W7 m c₀ (Proc.devRef .tc (pre1.ref k)) := rfl

theorem adm2_val (k : Fin pre2.K) : (adm2 m).1 k = W7 m c₀ (Proc.devRef .tc (pre2.ref k)) := rfl

theorem W7_gen (c : Dev nD) : W7 m c = Cert.Kernel.Gen.V7 m c := rfl

attribute [irreducible] W1 W2 W3 W4 W5 W6 W7 W8 W9 W10 W11 W12 W13 W14 W15

def pdats : (p : Fin 3) → (c : Dev nD) → Dat τ (Elt F) Unit ℕ (UR sig nD τ) ℕ (Pipeline.pin (pcfgs (F := F)) (adm m) p) c
  | ⟨0, _⟩ => fun c => Lin.dat (V7 m) c
  | ⟨1, _⟩ => fun c => Gat.dat (adm1 m) (V9 m) c
  | ⟨2, _⟩ => fun c => Sct.dat (adm2 m) (V11 m) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem held_to {V V' : Dev nD → Valuation τ sig (Elt F)} (h : ∀ c, V' c = V c) (c : Dev nD) :
    (iprop(StableHlo.held (c : Thread nD τ) (Pipeline.ucRefs τ sig) (V c) ∗ R c) : sProp 𝕄)
      ⊢ iprop(StableHlo.held (c : Thread nD τ) (Pipeline.ucRefs τ sig) (V' c) ∗ R c) :=
  Entails.of_eq (by rw [h c])

theorem adm1_at (c : Dev nD) : ((fun k => V9 m c (pre1.ref k)) : pre1.Contents (Elt F)) = (adm1 m).1 := by
  obtain rfl : c = c₀ := Subsingleton.elim _ _
  funext k
  match k with
  | ⟨0, _⟩ | ⟨1, _⟩ => exact (W9_of m c₀ _ (by decide +revert)).trans (W8_of m c₀ _ (by decide +revert))

theorem adm2_at (c : Dev nD) : ((fun k => V11 m c (pre2.ref k)) : pre2.Contents (Elt F)) = (adm2 m).1 := by
  obtain rfl : c = c₀ := Subsingleton.elim _ _
  funext k
  match k with
  | ⟨0, _⟩ | ⟨1, _⟩ => exact (W11_of m c₀ _ (by decide +revert)).trans <| (W10_of m c₀ _ (by decide +revert)).trans <|
      (W9_of m c₀ _ (by decide +revert)).trans (W8_of m c₀ _ (by decide +revert))

theorem rest1_split (c : Dev nD) :
    (Pipeline.unscopedRest spec1 c (V9 m c) : sProp 𝕄)
      = iprop(Pipeline.prefHeld pre1 c (fun _ => fullShare) (adm1 m).1 ∗ Pipeline.unscopedRestP pre1 spec1 c (V9 m c)) :=
  (Pipeline.unscopedRest_split preFacts1 c (V9 m c)).trans (by rw [adm1_at m c])

theorem rest2_split (c : Dev nD) :
    (Pipeline.unscopedRest spec2 c (V11 m c) : sProp 𝕄)
      = iprop(Pipeline.prefHeld pre2 c (fun _ => fullShare) (adm2 m).1 ∗ Pipeline.unscopedRestP pre2 spec2 c (V11 m c)) :=
  (Pipeline.unscopedRest_split preFacts2 c (V11 m c)).trans (by rw [adm2_at m c])

theorem rest0_split (c : Dev nD) :
    (Pipeline.unscopedRest spec0 c (V7 m c) : sProp 𝕄)
      = iprop(Pipeline.prefHeld (pcfgs (F := F) 0).pre c (fun _ => fullShare) (adm m 0).1 ∗ Pipeline.unscopedRestP (pcfgs (F := F) 0).pre spec0 c (V7 m c)) :=
  (Pipeline.unscopedRest_split (launch0 (F := F)).pre c (V7 m c)).trans
    (by rw [show ((fun k => V7 m c ((pcfgs (F := F) 0).pre.ref k)) : (pcfgs (F := F) 0).pre.Contents (Elt F)) = (adm m 0).1 from funext fun k => k.elim0]; rfl)

-- Entry: the buffers held at V are the region's arrays and, by hs, T and Z; the other two resources are carried along.
theorem entry_of {p : Fin 3} {c : Dev nD} {T Z : sProp 𝕄} (l : Pipeline.PLaunchFacts (nD := nD) (τ := τ) (pcfgs (F := F)) p)
    (V : Valuation τ sig (Elt F)) (hA : ∀ w, (pdats m p c).A w = V (Pipeline.arrRef (pcfgs (F := F) p).spec w))
    (hs : (Pipeline.unscopedRest (pcfgs (F := F) p).spec c (fun b => V b) : sProp 𝕄) = iprop(T ∗ Z))
    (hsh : ∀ w, (pdats m p c).share w = fullShare := by exact Dat.share_full _ fun _ => rfl) (h0 : (pdats m p c).owed 0 = 0 := by rfl)
    (hr : ∀ x, x ∈ (pdats m p c).recorded 0 := by exact fun _ => trivial) :
    (iprop((StableHlo.held (c : Thread nD τ) (Pipeline.ucRefs τ sig) V ∗ R c) ∗ Pipeline.ownSems0 (fun k : PEmpty => k.elim) c ∗ levAts L lv) : sProp 𝕄)
      ⊢ |={Set.univ}=> iprop((pdats m p c).arrays (pdats m p c).A ∗ T ∗ (pdats m p c).owesAt () 0 ∗ (∃ r, prngReg c r) ∗ Z) := by
  have hsplit := (Pipeline.arrays_of_unscopedBufs (pcfgs (F := F)) (adm m) (pdats m) l.win l.arr_whole c hsh (fun b => V b) hA).trans
    (sep_mono .rfl (Entails.of_eq hs))
  rw [Pipeline.unscopedBufs_held] at hsplit
  rw [Pipeline.ownSems0_none]
  unfold Pipeline.Dat.owesAt Pipeline.owesWithin
  rw [h0]
  iintro ⟨⟨Hub, Hp, %W, HO⟩, -, -⟩
  ihave H := hsplit $$ Hub
  icases H with ⟨Ha, Ht, Hrest⟩
  imodintro
  isplitl [Ha]; · iexact Ha
  isplitl [Ht]; · iexact Ht
  isplitl [HO]
  · iexists W; isplitr; · ipureintro; exact fun x _ => Or.inl (hr x)
    iexact HO
  isplitl [Hp]; · iexact Hp
  iexact Hrest

-- Exit, the converse: the arrays at their last contents, T and Z are the buffers held at V', which is V off the arrays.
theorem exit_of {p : Fin 3} {c : Dev nD} {T Z : sProp 𝕄} (l : Pipeline.PLaunchFacts (nD := nD) (τ := τ) (pcfgs (F := F)) p)
    (V V' : Valuation τ sig (Elt F))
    (hF : ∀ w, (pdats m p c).arrAt w (Pipeline.pin (pcfgs (F := F)) (adm m) p).N = V' (Pipeline.arrRef (pcfgs (F := F) p).spec w))
    (hrest : ∀ b : Ref sig .tc, (∀ w, Pipeline.arrRef (pcfgs (F := F) p).spec w ≠ b) → V' b = V b)
    (hs : (Pipeline.unscopedRest (pcfgs (F := F) p).spec c (fun b => V b) : sProp 𝕄) = iprop(T ∗ Z))
    (hsh : ∀ w, (pdats m p c).share w = fullShare := by exact Dat.share_full _ fun _ => rfl) (h0 : (pdats m p c).owed (Fin.last _) = 0 := by rfl) :
    (iprop((pdats m p c).arrays ((pdats m p c).arrAt · (Pipeline.pin (pcfgs (F := F)) (adm m) p).N) ∗ (pdats m p c).owesAt () (Fin.last _)
        ∗ ((∃ r, prngReg c r) ∗ T) ∗ Z) : sProp 𝕄)
      ⊢ |={Set.univ}=> iprop(StableHlo.held (c : Thread nD τ) (Pipeline.ucRefs τ sig) V' ∗ R c) := by
  have hjoin := (sep_mono .rfl (Entails.of_eq hs.symm)).trans
    (Pipeline.unscopedBufs_of_arrays (pcfgs (F := F)) (adm m) (Ix := Unit) (Name := ℕ) (U := UR sig nD τ) (Lvl := ℕ) l.win l.arr_whole c (pdats m) hsh
      (fun b => V b) (fun b => V' b) _ hF fun b hb => hrest b fun w e => hb (Finset.mem_image.mpr ⟨w, Finset.mem_univ _, e⟩))
  rw [Pipeline.unscopedBufs_held] at hjoin
  unfold Pipeline.Dat.owesAt Pipeline.owesWithin
  rw [h0]
  iintro ⟨Ha, ⟨%W, -, HO⟩, ⟨HY, Ht⟩, Hrest⟩
  imodintro
  isplitl [Ha Hrest Ht]
  · iapply hjoin
    isplitl [Ha]; · iexact Ha
    isplitl [Ht] <;> iassumption
  isplitl [HY]; · iexact HY
  iexists W; iexact HO

def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (Lin.body_obligation (V7 m) c).loose
  hwaits := Pipeline.hwaits_of_owed_zero _ _ _ _ L lv 0 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop((∃ r, prngReg c r) ∗ Pipeline.prefHeld (pcfgs (F := F) 0).pre c (fun _ => fullShare) (adm m 0).1)
  Z c := Pipeline.unscopedRestP (Ix := Unit) (Name := ℕ) (U := UR sig nD τ) (Lvl := ℕ) (pcfgs (F := F) 0).pre spec0 c (V7 m c)
  hentry c := entry_of m launch0 (W7 m c) (Lin.A_eq (V7 m) c) (rest0_split m c)
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]
    · isplitl [Hp]; · iexact Hp
      unfold Pipeline.prefHeld; rw [show (Finset.univ : Finset (Fin 0)) = ∅ from rfl, BI.bigSep_empty]; iempintro
    isplitr; · iempintro
    iexact Hr
  hexit c := exit_of m launch0 (W7 m c) (W8 m c) (fun w => (W8_arr m c w).symm) (W8_of m c) (rest0_split m c)

def reg1 : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (Gat.body_obligation (adm1 m) (V9 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := Gat.X c
  Y c := Gat.Y (adm1 m) c
  Z c := Pipeline.unscopedRestP (Ix := Unit) (Name := ℕ) (U := UR sig nD τ) (Lvl := ℕ) pre1 spec1 c (V9 m c)
  hentry c := entry_of m launch1 (W9 m c) (Gat.A_eq (adm1 m) (V9 m) c) (rest1_split m c)
  hin c := Gat.hin (adm1 m) (V9 m) c
  hout c := Gat.hout (adm1 m) (V9 m) c
  hexit c := exit_of m launch1 (W9 m c) (W10 m c) (fun w => (W10_arr m c w).symm) (W10_of m c) (rest1_split m c)

def reg2 : Pipeline.RegionSeg (pcfgs (F := F)) (adm m) (pdats m) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (Sct.body_obligation (adm2 m) (V11 m) c).loose
  hwaits := Pipeline.hwaits_of_owed_zero _ _ _ _ L lv 2 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := Sct.X c
  Y c := Sct.Y (adm2 m) c
  Z c := Pipeline.unscopedRestP (Ix := Unit) (Name := ℕ) (U := UR sig nD τ) (Lvl := ℕ) pre2 spec2 c (V11 m c)
  hentry c := entry_of m launch2 (W11 m c) (Sct.A_eq (adm2 m) (V11 m) c) (rest2_split m c)
  hin c := Sct.hin (adm2 m) (V11 m) c
  hout c := Sct.hout (adm2 m) (V11 m) c
  hexit c := exit_of m launch2 (W11 m c) (W12 m c) (fun w => (W12_arr m c w).symm) (W12_of m c) (rest2_split m c)

abbrev segs : List (Pipeline.Seg (pcfgs (F := F)) (adm m) (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .region (reg0 m),
    .host (hseg hostOps1 hostOps1_sub hostOps1_fresh (W8 m)),
    .region (reg1 m),
    .host (hseg hostOps2 hostOps2_sub hostOps2_fresh (W10 m)),
    .region (reg2 m),
    .host (hseg hostOps3 hostOps3_sub hostOps3_fresh (W12 m)),
    .host (hseg hostOps3_1 hostOps3_1_sub hostOps3_1_fresh (W13 m)),
    .host (hseg hostOps3_2 hostOps3_2_sub hostOps3_2_fresh (W14 m)) ]

theorem hmain (c : Dev nD) (Q : PUnit → sProp 𝕄) :
    wp frame (wpE (Pipeline.defs (pcfgs (F := F)) defs₀) (Variants.lift 𝒱₀) (c.tc : Thread nD τ) none) Set.univ (Pipeline.Seg.run (segs m)) Q
      ⊢ wp frame (wpE (Pipeline.defs (pcfgs (F := F)) defs₀) (Variants.lift 𝒱₀) (c.tc : Thread nD τ) none) Set.univ (main (F := F) c) Q := by
  rewrite [main_chain c, Pipeline.Seg.run_eq_chain,
    show (segs m).map Pipeline.Seg.prog = [
      StableHlo.seq hostOps0,
      StableHlo.seq hostOps0_1,
      StableHlo.seq hostOps0_2,
      StableHlo.seq hostOps0_3,
      StableHlo.seq hostOps0_4,
      StableHlo.seq hostOps0_5,
      StableHlo.seq hostOps0_6,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      StableHlo.seq hostOps3_1,
      StableHlo.seq hostOps3_2 ] from rfl]
  exact .rfl

theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W15 m c b) → Q (⟨⟩, s)) :
    θ_run defs (onTc (τ := τ) (main (F := F))) ⟨m, fun _ => 0, ρ⟩ Q :=
  Pipeline.θ_run_regions_kit (pcfgs (F := F)) (adm m) (pdats m) () (cellOf_inj (adm m)) emb₁ defs₀ 𝒱₀ L lv m ρ main (segs m)
    (hmain m)
    (by simp only [segs, Pipeline.Seg.pipes_host, Pipeline.Seg.pipes_region, Pipeline.Seg.pipes_nil]; decide)
    (O₀ := 0) (hL := fun _ _ => rfl) (G := fun _ => BI.emp)
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      rw [BI.bigSep_emp_const]
      iintro Hu; imodintro
      isplitl [Hu]
      · iapply (show (ownU _ : sProp 𝕄) ⊢ BI.own (emb₁ _) from .rfl)
        iexact Hu
      iempintro)
    (T₀ := fun c => iprop(StableHlo.held (c : Thread nD τ) (Pipeline.ucRefs τ sig) (W0 m c) ∗ R c)) (Tₙ := fun c => iprop(StableHlo.held (c : Thread nD τ) (Pipeline.ucRefs τ sig) (W15 m c) ∗ ∃ r, prngReg c r))
    (hch := ⟨fun _ => .rfl,
      held_to (W1_def m), held_to (W2_def m), held_to (W3_def m), held_to (W4_def m),
      held_to (W5_def m), held_to (W6_def m), held_to (W7_def m),
      fun _ => .rfl, held_to (W9_def m), fun _ => .rfl, held_to (W11_def m), fun _ => .rfl,
      held_to (W13_def m), held_to (W14_def m),
      fun c => (held_to (W15_def m) c).trans (by
        iintro ⟨Hh, Hp, HO⟩
        isplitr [HO]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m c b)
    (hfin := fun c s' => by
      iintro ⟨⟨Hh, -⟩, HSI⟩
      unfold StableHlo.held
      imodintro
      iapply (pointsTo_read_all (Pipeline.ucRefs τ sig) (fun b => (((c : Thread nD τ)).1, b)) (W15 m c) s')
      isplitl [Hh] <;> iassumption)
    (hQ := hQ)

-- A buffer that no host stretch writes and that no region changes ends as launched.
theorem end_keep {s : MemSt nD τ sig (Elt F)} (c : Dev nD)
    (h : ∀ b ∈ Pipeline.ucRefs τ sig, s.mem (((c : Thread nD τ)).1, b) = W15 m c b) (b : Ref sig .tc)
    (h8 : W8 m c b = W7 m c b) (hu : ¬ (Proc.devRef .tc b : DevRef τ sig).isScoped := by decide)
    (hw : b ∉ hostOps0_W ++ hostOps0_1_W ++ hostOps0_2_W ++ hostOps0_3_W ++ hostOps0_4_W ++ hostOps0_5_W ++ hostOps0_6_W
      ++ hostOps1_W ++ hostOps2_W ++ hostOps3_W ++ hostOps3_1_W ++ hostOps3_2_W := by decide)
    (h10 : ∀ w, Pipeline.arrRef spec1 w ≠ b := by decide) (h12 : ∀ w, Pipeline.arrRef spec2 w ≠ b := by decide) :
    s.mem ((c.tc : Thread nD τ).loc b) = m ((c.tc : Thread nD τ).loc b) := by
  simp only [List.mem_append, not_or] at hw
  obtain ⟨⟨⟨⟨⟨⟨⟨⟨⟨⟨⟨h1, h2⟩, h3⟩, h4⟩, h5⟩, h6⟩, h7⟩, h9⟩, h11⟩, h13⟩, h14⟩, h15⟩ := hw
  exact (h _ (mem_uc b hu)).trans <| (W15_of m c b h15).trans <| (W14_of m c b h14).trans <| (W13_of m c b h13).trans <|
    (W12_of m c b h12).trans <| (W11_of m c b h11).trans <| (W10_of m c b h10).trans <| (W9_of m c b h9).trans <| h8.trans <|
    (W7_of m c b h7).trans <| (W6_of m c b h6).trans <| (W5_of m c b h5).trans <| (W4_of m c b h4).trans <|
    (W3_of m c b h3).trans <| (W2_of m c b h2).trans <| (W1_of m c b h1).trans rfl

-- An input array of the first region leaves it as it entered.
theorem W8_in (c : Dev nD) (w : Fin cfg0.W) (hw : (cfg0.win w).isOut = false) :
    W8 m c (Proc.devRef .tc (Pipeline.arrRef spec0 w)) = V7 m c (Pipeline.arrRef spec0 w) :=
  (W8_arr m c w).trans (((Lin.dat (V7 m) c).arrAt_in w hw _).trans (Lin.A_eq (V7 m) c w))

theorem run_result : θ_run defs (onTc (τ := τ) (main (F := F))) ⟨m, fun _ => 0, ρ⟩ (fun r => ∀ c : Dev nD,
      r.2.mem ((c.tc : Thread nD τ).loc main_v75) = W15 m c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_post m ρ fun s h c =>
    ⟨h c _ (mem_uc main_v75 (by decide)),
      end_keep m c (h c) main_arg0 (W8_in m c 0 rfl),
      end_keep m c (h c) main_arg1 (W8_of m c main_arg1 (by decide)),
      end_keep m c (h c) main_arg2 (W8_of m c main_arg2 (by decide)),
      end_keep m c (h c) main_arg3 (W8_in m c 1 rfl),
      end_keep m c (h c) main_arg4 (W8_of m c main_arg4 (by decide)),
      end_keep m c (h c) main_arg5 (W8_of m c main_arg5 (by decide)),
      end_keep m c (h c) main_arg6 (W8_of m c main_arg6 (by decide))⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_result m ρ)

end Cert.Kernel.Run

end
-- ==== Proof.KernelIdeal.Linear.lean ====
import proofs.«401429_j309237645711_3_alg».proof.Proof.Gen.KernelIdeal.Launch
import proofs.«401429_j309237645711_3_alg».proof.Proof.Gen.KernelIdeal.Skeleton
import proofs.«401429_j309237645711_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Lin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem off_zero : (![0, 0] : Fin 2 → Nat) = fun _ => 0 := funext fun a => by fin_cases a <;> rfl

def out (x0 : Vec F S2000x128 .f32) (x1 : Vec F S64x128 .f32) (x2 : Vec F S2000x1 .f32) : Vec F S2000x64 .f32 :=
  k0_pay1 x0 x1 x2

theorem out_eq (x0 : Vec F S2000x128 .f32) (x1 : Vec F S64x128 .f32) (x2 : Vec F S2000x1 .f32) :
    out x0 x1 x2 = k0_pay1 x0 x1 x2 := rfl

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := rfl

theorem after_3 (c : Dev nD) (t : Fin cfg0.N) : (dat V c).after 3 t = out (iblk V c 0 t) (iblk V c 1 t) (iblk V c 2 t) := by dsimp only [dat]

theorem before_0 (c : Dev nD) (t : Fin cfg0.N) (d) : (dat V c).before 0 t d = iblk V c 0 t :=
  (dat V c).before_in_eq_fetched 0 rfl (fun _ => rfl) (fun _ _ _ => rfl) (fun _ => rfl) t d
theorem before_1 (c : Dev nD) (t : Fin cfg0.N) (d) : (dat V c).before 1 t d = iblk V c 1 t :=
  (dat V c).before_in_eq_fetched 1 rfl (fun _ => rfl) (fun _ _ _ => rfl) (fun _ => rfl) t d
theorem before_2 (c : Dev nD) (t : Fin cfg0.N) (d) : (dat V c).before 2 t d = iblk V c 2 t :=
  (dat V c).before_in_eq_fetched 2 rfl (fun _ => rfl) (fun _ _ _ => rfl) (fun _ => rfl) t d

theorem sound_body (c : Dev nD) (t : Fin cfg0.N) :
    iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))
      ⊢ wp frame (wpE (defs₀ (F := F)) Variants.none c none) Set.univ (bodyAt0 t) (fun _ =>
      iprop((dat V c).Φ t.succ ∗ (dat V c).owesAt () t.succ
      ∗ owns (c : Thread nD τ) (st0_0 t) fullShare ((dat V c).after 0 t)
      ∗ owns (c : Thread nD τ) (st0_1 t) fullShare ((dat V c).after 1 t)
      ∗ owns (c : Thread nD τ) (st0_2 t) fullShare ((dat V c).after 2 t)
      ∗ owns (c : Thread nD τ) (st0_3 t) fullShare ((dat V c).after 3 t))) := by
  unfold bodyAt0
  simp only [before_0, before_1, before_2, cc0__linear_kernel_eq_skeleton]; unfold cc0__linear_kernel_skel
  rw [show (dat V c).Φ t.succ = (dat V c).Φ t.castSucc from rfl,
    show (dat V c).owesAt () t.succ = (dat V c).owesAt () t.castSucc from rfl, after_3]
  unfold owns
  iintro ⟨HΦ, Ho, ⟨%d0, %f0, %hf0, H0⟩, ⟨%d1, %f1, %hf1, H1⟩, ⟨%d2, %f2, %hf2, H2⟩, ⟨%d3, %f3, -, H3⟩⟩
  sl_exec
  sl_step
  iframe HΦ Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  iexists _; isplitr
  swap; · iexact H3
  ipureintro
  rw [← hf0, ← hf1, ← hf2, View.read_writes_eq_canon _ _ _ (fun y => ⟨_, List.mem_singleton_self _, View.mem_set_unit_zero off_zero inb_S2000x64_S2000x64_0_0 y⟩),
    View.canon_unit_zero off_zero]
  unfold sound_body.sl.v0 sound_body.sl.v2 sound_body.sl.v6
  rw [View.readAt_eq_ld, View.readAt_eq_ld, View.readAt_eq_ld, View.ld_unit_zero off_zero, View.ld_unit_zero off_zero,
    View.ld_unit_zero off_zero]
  rfl

theorem body_obligation (c : Dev nD) : BodyObligation (dat (F := F) V c) (defs₀ (F := F)) Variants.none () Set.univ := fun t => by
  rw [bigSep_W0, bigSep_W0]
  exact sound_body V c t

end Cert.KernelIdeal.Lin

end
-- ==== Proof.KernelIdeal.Gather.lean ====
import proofs.«401429_j309237645711_3_alg».proof.Proof.Gen.KernelIdeal.Launch
import proofs.«401429_j309237645711_3_alg».proof.Proof.Gen.KernelIdeal.Skeleton
import Idealize.ShloMosaic.Lib.Pipeline.FrameBody
import Idealize.ShloMosaic.Lib.Pipeline.Value
import Idealize.ShloMosaic.Lib.Pipeline.Regions
import Idealize.ShloMosaic.Lib.Tactic

noncomputable section

namespace Cert.KernelIdeal.Gat

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

def cond (j : Fin 14) (mn mx : BitVec 32) : BitVec 1 :=
  Scalar.cmpi .ne (Scalar.extui (Scalar.andi (Scalar.cmpi .sge mx (BitVec.ofNat 32 (4096 * j.val)))
    (Scalar.cmpi .sle mn (BitVec.ofNat 32 (4096 * j.val + 4095))))) 0#32

theorem cond_iff (j : Fin 14) (mn mx : BitVec 32) :
    cond j mn mx = 1#1 ↔ (mx.toInt ≥ 4096 * (j.val : Int) ∧ mn.toInt ≤ 4096 * (j.val : Int) + 4095) := by
  have hj := j.isLt
  have h : ∀ n, n < 2 ^ 31 → (BitVec.ofNat 32 n).toInt = n := fun n hn => by
    rw [BitVec.toInt_eq_toNat_cond, BitVec.toNat_ofNat, Nat.mod_eq_of_lt (by omega)]; split <;> omega
  have h1 := h (4096 * j.val) (by omega)
  have h2 := h (4096 * j.val + 4095) (by omega)
  push_cast at h1 h2
  unfold cond Scalar.cmpi Scalar.extui Scalar.andi IntOp.cmpi IntOp.andi
  simp only [BitVec.sle, h1, h2]
  by_cases ha : 4096 * (j.val : Int) ≤ mx.toInt <;> by_cases hb : mn.toInt ≤ 4096 * (j.val : Int) + 4095 <;>
    simp [ha, hb] <;> decide

abbrev hr (off : ℕ) (hinb : ∀ a, (![off, 0] : Fin S57344x64.rank → ℕ) a + S4096x64.size a ≤ S57344x64.size a) : Rect S57344x64 :=
  Rect.unit (s := S57344x64) ![off, 0] S4096x64.size hinb

abbrev rW : Rect S1024x64 := Rect.unit (s := S1024x64) ![0, 0] S1024x64.size inb_S1024x64_S1024x64_0_0

theorem rW_off : (![0, 0] : Fin S1024x64.rank → Nat) = fun _ => 0 := by
  funext a; match a with | ⟨0, _⟩ => rfl | ⟨1, _⟩ => rfl

def step (j : Fin 14) (rows : Vec F S1024 .i32) (h : Vec F S57344x64 .f32) (acc : Vec F S1024x64 .f32) : Vec F S1024x64 .f32 :=
  match j with
  | ⟨0, _⟩ => k1_pay6 rows (View.ld h (hr 0 inb_S57344x64_S4096x64_0_0)) acc
  | ⟨1, _⟩ => k1_pay7 rows (View.ld h (hr 4096 inb_S57344x64_S4096x64_4096_0)) acc
  | ⟨2, _⟩ => k1_pay8 rows (View.ld h (hr 8192 inb_S57344x64_S4096x64_8192_0)) acc
  | ⟨3, _⟩ => k1_pay9 rows (View.ld h (hr 12288 inb_S57344x64_S4096x64_12288_0)) acc
  | ⟨4, _⟩ => k1_pay10 (k1_pay5 rows) (View.ld h (hr 16384 inb_S57344x64_S4096x64_16384_0)) acc
  | ⟨5, _⟩ => k1_pay11 (k1_pay5 rows) (View.ld h (hr 20480 inb_S57344x64_S4096x64_20480_0)) acc
  | ⟨6, _⟩ => k1_pay12 (k1_pay5 rows) (View.ld h (hr 24576 inb_S57344x64_S4096x64_24576_0)) acc
  | ⟨7, _⟩ => k1_pay13 (k1_pay5 rows) (View.ld h (hr 28672 inb_S57344x64_S4096x64_28672_0)) acc
  | ⟨8, _⟩ => k1_pay14 (k1_pay5 rows) (View.ld h (hr 32768 inb_S57344x64_S4096x64_32768_0)) acc
  | ⟨9, _⟩ => k1_pay15 (k1_pay5 rows) (View.ld h (hr 36864 inb_S57344x64_S4096x64_36864_0)) acc
  | ⟨10, _⟩ => k1_pay16 (k1_pay5 rows) (View.ld h (hr 40960 inb_S57344x64_S4096x64_40960_0)) acc
  | ⟨11, _⟩ => k1_pay1 (k1_pay5 rows) (View.ld h (hr 45056 inb_S57344x64_S4096x64_45056_0)) acc
  | ⟨12, _⟩ => k1_pay2 (k1_pay5 rows) (View.ld h (hr 49152 inb_S57344x64_S4096x64_49152_0)) acc
  | ⟨13, _⟩ => k1_pay3 (k1_pay5 rows) (View.ld h (hr 53248 inb_S57344x64_S4096x64_53248_0)) acc
  | ⟨n + 14, hn⟩ => absurd hn (by omega)

def blk (j : Fin 14) (mn mx : BitVec 32) (rows : Vec F S1024 .i32) (h : Vec F S57344x64 .f32) (acc : Vec F S1024x64 .f32) : Vec F S1024x64 .f32 :=
  if cond j mn mx = 1#1 then step j rows h acc else acc

def out (mn mx : BitVec 32) (rows : Vec F S1024 .i32) (h : Vec F S57344x64 .f32) : Vec F S1024x64 .f32 :=
  (List.finRange 14).foldl (fun acc j => blk j mn mx rows h acc) (k1_pay4 (F := F))

abbrev tbM0 : Memref sig .tc .smem S831 .i32 := Memref.whole main_v42
abbrev tbM1 : Memref sig .tc .smem S831 .i32 := Memref.whole main_v43

abbrev wrect (i : grid1.Coords) : Rect S831 := Rect.unit (s := S831) (k1_off1 i) S1.size (k1_off1_inb i)

abbrev wordOf (M : Memref sig .tc .smem S831 .i32) (f : M.view.ty.Contents (Elt F)) (i : grid1.Coords) : Elt F .i32 :=
  M.view.readAt (Elt F) (wrect i).toLoadRect f (Shape.Idx.first (numel1_S1.symm ▸ Nat.one_pos))

abbrev tbPt (c : Dev nD) (M : Memref sig .tc .smem S831 .i32) (f : M.view.ty.Contents (Elt F)) : sProp 𝕄 :=
  M.view.loc (c : Thread nD τ) ↦{fullShare} f

abbrev pt {sp : Space} {sh : Shape} {e : EltTy} (c : Dev nD) (m : Memref sig .tc sp sh e) (f : m.view.ty.Contents (Elt F)) : sProp 𝕄 :=
  m.view.loc (c : Thread nD τ) ↦[m.view.set]{fullShare} f

theorem r1024_off : (![0] : Fin S1024.rank → Nat) = fun _ => 0 := by
  funext a; match a with | ⟨0, _⟩ => rfl

theorem read_wr {m : Memref sig .tc .vmem S1024x64 .f32} (f : m.view.ty.Contents (Elt F)) (v : Vec F S1024x64 .f32) :
    m.view.read (Elt F) (m.view.writes (Elt F) f [⟨rW, v⟩]) = v := by
  rw [View.read_writes_eq_canon _ _ _ (fun y => ⟨_, List.mem_singleton_self _, View.mem_set_unit_zero rW_off inb_S1024x64_S1024x64_0_0 y⟩),
    View.canon_unit_zero rW_off]

section Body

variable {c : Dev nD} {E : Set ℕ} {arg4 : Memref sig .tc .vmem S57344x64 .f32} {arg6 : Memref sig .tc .vmem S1024x64 .f32}
    {f4 : arg4.view.ty.Contents (Elt F)}

-- the operand is untouched and the accumulator reads as v
abbrev inv (c : Dev nD) (arg4 : Memref sig .tc .vmem S57344x64 .f32) (arg6 : Memref sig .tc .vmem S1024x64 .f32)
    (f4 : arg4.view.ty.Contents (Elt F)) (v : Vec F S1024x64 .f32) : sProp 𝕄 :=
  iprop(∃ g : arg6.view.ty.Contents (Elt F), pt c arg4 f4 ∗ pt c arg6 g ∗ ⌜arg6.view.read (Elt F) g = v⌝)

-- a guarded block replaces the accumulator v by pay (rows off … off + 4095 of the operand) v exactly when b holds
theorem block_run {α : Type} {b : BitVec 1} {off : ℕ} {hinb : ∀ a, (![off, 0] : Fin S57344x64.rank → ℕ) a + S4096x64.size a ≤ S57344x64.size a}
    {pay : Vec F S4096x64 .f32 → Vec F S1024x64 .f32 → FVec F S1024x64 .f32} {v : Vec F S1024x64 .f32}
    {rest : Prog (TpuEff nD τ sig (Elt F) Λ₀ .tc) α} {Q : α → sProp 𝕄} :
    iprop(inv c arg4 arg6 f4 v
        ∗ (inv c arg4 arg6 f4 (if b = 1#1 then pay (View.ld (arg4.view.read (Elt F) f4) (hr off hinb)) v else v) -∗ wp frame (wpE (defs₀ (F := F)) Variants.none c none) E rest Q))
      ⊢ wp frame (wpE (defs₀ (F := F)) Variants.none c none) E
          (if b = 1#1 then do
            let v92 : Vec F S4096x64 .f32 ← Prog.lift (.load arg4 (hr off hinb).toLoadRect (View.loadsAt_vmem h_S4096x64))
            let v95 : Vec F S1024x64 .f32 ← Prog.lift (.load arg6 rW.toLoadRect (View.loadsAt_vmem h_S1024x64))
            let v98 : Vec F S1024x64 .f32 ← Prog.lift (.load arg6 rW.toLoadRect (View.loadsAt_vmem h_S1024x64))
            Prog.lift (.store arg6 rW (pay v92 v95) Finset.univ (View.stores_vmem_bits_univ h_S1024x64 rfl) (.inl rfl))
            rest
          else rest) Q := by
  by_cases hc : b = 1#1
  · simp only [if_pos hc]
    iintro ⟨⟨%g, H4, H6, %hg⟩, Hk⟩
    sl_exec
    iapply Hk
    iexists _
    iframe H4 H6
    ipureintro
    rw [read_wr, View.readAt_eq_ld, View.readAt_eq_ld, View.ld_unit_zero rW_off, hg]
  · simp only [if_neg hc]
    iintro ⟨HI, Hk⟩
    iapply Hk
    iexact HI

end Body

section Region

variable (a : (pcfg1 (F := F)).Adm)
variable (V : (c : Dev nD) → (b : Ref sig .tc) → Buf (Elt F) ((c : Thread nD τ).loc b))

def iblk (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

def mnAt (t : Fin (cfg1 a).N) : Elt F .i32 := wordOf tbM0 (a.1 0) (grid1.coords t)

def mxAt (t : Fin (cfg1 a).N) : Elt F .i32 := wordOf tbM1 (a.1 1) (grid1.coords t)

def dat (c : Dev nD) : Dat τ (Elt F) Unit ℕ (UR sig nD τ) ℕ (cfg1 a) c where
  A w := V c (Pipeline.arrRef spec1 w)
  after w t := match w with
    | ⟨0, _⟩ => iblk a V c 0 t
    | ⟨1, _⟩ => iblk a V c 1 t
    | ⟨2, _⟩ => out (mnAt a t) (mxAt a t) (iblk a V c 0 t) (iblk a V c 1 t)
  Φ _ := iprop((∃ r, prngReg c r) ∗ Pipeline.prefHeld pre1 c (fun _ => fullShare) a.1 ∗ Pipeline.scopedRest spec1 c)
  q _ := fullShare
  owed _ := 0

theorem A_eq (c : Dev nD) (w : Fin (cfg1 a).W) : (dat a V c).A w = V c (Pipeline.arrRef spec1 w) := rfl

theorem after_2 (c : Dev nD) (t : Fin (cfg1 a).N) :
    (dat a V c).after 2 t = out (mnAt a t) (mxAt a t) (iblk a V c 0 t) (iblk a V c 1 t) := by dsimp only [dat]; rfl

abbrev X (c : Dev nD) : sProp 𝕄 := iprop(∃ r, prngReg c r)

abbrev Y (c : Dev nD) : sProp 𝕄 := iprop((∃ r, prngReg c r) ∗ Pipeline.prefHeld pre1 c (fun _ => fullShare) a.1)

theorem hin (c : Dev nD) :
    iprop(X c ∗ Pipeline.prefHeld pre1 c (fun _ => fullShare) a.1 ∗ Pipeline.scopedRest spec1 c) ⊢ (dat a V c).Φ 0 := .rfl

theorem hout (c : Dev nD) :
    (dat a V c).Φ (Fin.last (cfg1 a).N) ⊢ iprop(Y a c ∗ Pipeline.ownSems0 (fun k : PEmpty => k.elim) c ∗ Pipeline.scopedRest spec1 c) := by
  rw [Pipeline.ownSems0_none]
  dsimp only [dat, Y]
  iintro ⟨Hp, Ht, Hr⟩
  iframe
  iempintro

theorem PhiT_eq (c : Dev nD) :
    (Pipeline.prefHeld pre1 c (fun _ => fullShare) a.1 : sProp 𝕄) = iprop(tbPt c tbM0 (a.1 0) ∗ tbPt c tbM1 (a.1 1)) := by
  unfold Pipeline.prefHeld
  rw [show (Finset.univ : Finset (Fin 2)) = insert (0 : Fin 2) {(1 : Fin 2)} from by decide,
    bigSep_insert (by decide), bigSep_singleton]
  rfl

theorem before_0 (c : Dev nD) (t : Fin (cfg1 a).N) (d) : (dat a V c).before 0 t d = iblk a V c 0 t :=
  (dat a V c).before_in_eq_fetched 0 rfl (fun _ => rfl) (fun _ _ _ => rfl) (fun _ => rfl) t d
theorem before_1 (c : Dev nD) (t : Fin (cfg1 a).N) (d) : (dat a V c).before 1 t d = iblk a V c 1 t :=
  (dat a V c).before_in_eq_fetched 1 rfl (fun _ => rfl) (fun _ _ _ => rfl) (fun _ => rfl) t d

abbrev st0 (t : Fin (cfg1 a).N) := spec1_0.stage ((cfg1 a).slots t 0)
abbrev st1 (t : Fin (cfg1 a).N) := spec1_1.stage ((cfg1 a).slots t 1)
abbrev st2 (t : Fin (cfg1 a).N) := spec1_2.stage ((cfg1 a).slots t 2)

abbrev bodyAt (t : Fin (cfg1 a).N) : Prog (TpuEff nD τ sig (Elt F) Λ₀ .tc) PUnit :=
  cc1__gather_kernel (grid1.coords t) tbM0 (Memref.isWhole_whole _) tbM1 (Memref.isWhole_whole _)
    (st0 a t) (hstage1_0 (((cfg1 a).slots t 0).cast nbuf1_0))
    (st1 a t) (hstage1_1 (((cfg1 a).slots t 1).cast nbuf1_1))
    (st2 a t) (hstage1_2 (((cfg1 a).slots t 2).cast nbuf1_2))
    (Memref.whole cc1_scratch0) (Memref.isWhole_whole _)

theorem sound_body (c : Dev nD) (t : Fin (cfg1 a).N) :
    iprop((dat a V c).Φ t.castSucc ∗ (dat a V c).owesAt () t.castSucc
    ∗ (∃ d, owns (c : Thread nD τ) (st0 a t) fullShare ((dat a V c).before 0 t d))
    ∗ (∃ d, owns (c : Thread nD τ) (st1 a t) fullShare ((dat a V c).before 1 t d))
    ∗ (∃ d, owns (c : Thread nD τ) (st2 a t) fullShare ((dat a V c).before 2 t d)))
      ⊢ wp frame (wpE (defs₀ (F := F)) Variants.none c none) Set.univ (bodyAt a t) (fun _ =>
      iprop((dat a V c).Φ t.succ ∗ (dat a V c).owesAt () t.succ
      ∗ owns (c : Thread nD τ) (st0 a t) fullShare ((dat a V c).after 0 t)
      ∗ owns (c : Thread nD τ) (st1 a t) fullShare ((dat a V c).after 1 t)
      ∗ owns (c : Thread nD τ) (st2 a t) fullShare ((dat a V c).after 2 t))) := by
  unfold bodyAt
  rw [show (dat a V c).Φ t.succ = (dat a V c).Φ t.castSucc from rfl,
    show (dat a V c).owesAt () t.succ = (dat a V c).owesAt () t.castSucc from rfl, after_2]
  rw [show (dat a V c).Φ t.castSucc = iprop((∃ r, prngReg c r) ∗ Pipeline.prefHeld pre1 c (fun _ => fullShare) a.1 ∗ Pipeline.scopedRest spec1 c) from rfl,
    PhiT_eq, scopedRest1_eq]
  simp only [before_0, before_1, ← owns_whole (c : Thread nD τ) cc1_scratch0 fullShare, cc1__gather_kernel_eq_skeleton]
  unfold cc1__gather_kernel_skel
  rw [wp_bind]
  simp only [k1_part1_eq_skeleton]; unfold k1_part1_skel
  unfold owns
  iintro ⟨⟨Hp, ⟨HT0, HT1⟩, ⟨S0, S1, S2, S3, S4, S5, S6, ⟨%s7, %f6, -, H6⟩, S8⟩⟩, Ho, ⟨%d0, %f3, %hf3, H3⟩, ⟨%d1, %f4, %hf4, H4⟩, ⟨%d2, %f5, -, H5⟩⟩
  have hrows : View.readAt (Elt F) (st0 a t).view (Rect.unit (s := S1024) ![0] S1024.size inb_S1024_S1024_0).toLoadRect f3 = (st0 a t).view.read (Elt F) f3 := by
    rw [View.readAt_eq_ld, View.ld_unit_zero r1024_off]
  set_option sl_exec.stopBefore "v15" in sl_exec
  iapply block_run (F := F) (v := k1_pay4 (F := F))
  isplitl [H4 H6]
  · iexists _; iframe H4 H6; ipureintro; exact read_wr _ _
  iintro HI
  iterate 3 (iapply block_run; iframe HI; iintro HI)
  dsimp only
  sl_step
  dsimp only
  rw [wp_bind]
  simp only [k1_part2_eq_skeleton]; unfold k1_part2_skel
  iterate 7 (iapply block_run; iframe HI; iintro HI)
  dsimp only
  sl_step
  iterate 2 (iapply block_run; iframe HI; iintro HI)
  iapply block_run
  iframe HI
  iintro ⟨%g, H4, H6, %hg⟩
  sl_exec
  sl_step
  iframe Hp HT0 HT1 S0 S1 S2 S3 S4 S5 S6 S8 Ho
  isplitl [H6]
  · iexists _
    iexists g; isplitr; · ipureintro; rfl
    iexact H6
  isplitl [H3]; · iexists f3; isplitr; · ipureintro; exact hf3
                  iexact H3
  isplitl [H4]; · iexists f4; isplitr; · ipureintro; exact hf4
                  iexact H4
  iexists _; isplitr; swap; · iexact H5
  ipureintro
  rw [read_wr, View.readAt_eq_ld, View.ld_unit_zero rW_off, hg, ← hf3, ← hf4]
  rfl

theorem body_obligation (c : Dev nD) : BodyObligation (dat a V c) (defs₀ (F := F)) Variants.none () Set.univ := fun t => by
  rw [bigSep_W1, bigSep_W1]
  exact sound_body a V c t

end Region

end Cert.KernelIdeal.Gat

end
-- ==== Proof.KernelIdeal.Scatter.lean ====
import proofs.«401429_j309237645711_3_alg».proof.Proof.Gen.KernelIdeal.Launch
import proofs.«401429_j309237645711_3_alg».proof.Proof.Gen.KernelIdeal.Skeleton
import Idealize.ShloMosaic.Lib.Pipeline.FrameBody
import Idealize.ShloMosaic.Lib.Pipeline.Value
import Idealize.ShloMosaic.Lib.Pipeline.TableIdle
import Idealize.ShloMosaic.Lib.Ring
import Idealize.ShloMosaic.Lib.Tactic

noncomputable section

namespace Cert.KernelIdeal.Sct

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (a : (pcfg2 (F := F)).Adm)
variable (V : (c : Dev nD) → (b : Ref sig .tc) → Buf (Elt F) ((c : Thread nD τ).loc b))

theorem coords0_val (t : Fin grid2.N) : ((grid2.coords t) 0).val = t.val / 831 := by
  have hN := lt_of_lt_of_eq t.isLt N_2
  show t.val / 831 % 14 = t.val / 831; omega

theorem coords1_val (t : Fin grid2.N) : ((grid2.coords t) 1).val = t.val % 831 := by
  show t.val / 1 % 831 = t.val % 831; rw [Nat.div_one]

def iblk (c : Dev nD) (w : Fin (cfg2 a).W) (t : Fin (cfg2 a).N) : (((cfg2 a).win w).xblock ((cfg2 a).grid.coords t)).Idx → Elt F ((cfg2 a).win w).elt :=
  (((cfg2 a).win w).blk t).view.read (Elt F) (V c (Pipeline.arrRef spec2 w))

abbrev tbM0 : Memref sig .tc .smem S831 .i32 := Memref.whole main_v44
abbrev htbM0 : tbM0.IsWhole := Memref.isWhole_whole _
abbrev tbM1 : Memref sig .tc .smem S831 .i32 := Memref.whole main_v45
abbrev htbM1 : tbM1.IsWhole := Memref.isWhole_whole _

abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare} f

def wordAt {M : Memref sig .tc .smem S831 .i32} (i : grid2.Coords) (f : M.view.ty.Contents (Elt F)) : Elt F .i32 :=
  M.view.readAt (Elt F) (Rect.unit (s := S831) (k2_off1 i) S1.size (k2_off1_inb i)).toLoadRect f (Shape.Idx.first (numel1_S1.symm ▸ Nat.one_pos))

def mnAt (t : Fin (cfg2 a).N) : Elt F .i32 := wordAt (M := tbM0) (grid2.coords t) (a.1 0)

def mxAt (t : Fin (cfg2 a).N) : Elt F .i32 := wordAt (M := tbM1) (grid2.coords t) (a.1 1)

def ovl (i : grid2.Coords) (mn mx : BitVec 32) : BitVec 1 :=
  Scalar.cmpi .ne (Scalar.extui (Scalar.andi
    (Scalar.cmpi .sge mx (Scalar.muli (BitVec.ofNat 32 (i 0).val) 4096#32))
    (Scalar.cmpi .sle mn (Scalar.subi (Scalar.addi (Scalar.muli (BitVec.ofNat 32 (i 0).val) 4096#32) 4096#32) 1#32)))) 0#32

def hit (t : Fin (cfg2 a).N) : Prop := ovl (grid2.coords t) (mnAt a t) (mxAt a t) = 1#1

instance (t : Fin (cfg2 a).N) : Decidable (hit a t) := by unfold hit; infer_instance

theorem lo_toInt : ∀ v : Fin 14, (Scalar.muli (BitVec.ofNat 32 v.val) 4096#32).toInt = 4096 * (v.val : Int) := by decide

theorem hi_toInt : ∀ v : Fin 14, (Scalar.subi (Scalar.addi (Scalar.muli (BitVec.ofNat 32 v.val) 4096#32) 4096#32) 1#32).toInt = 4096 * (v.val : Int) + 4095 := by decide

theorem hit_iff (t : Fin (cfg2 a).N) :
    hit a t ↔ ((mxAt a t).toInt ≥ 4096 * (((grid2.coords t) 0).val : Int) ∧ (mnAt a t).toInt ≤ 4096 * (((grid2.coords t) 0).val : Int) + 4095) := by
  unfold hit ovl
  rw [Scalar.guard_iff, Scalar.andi, IntOp.andi_eq_one, Scalar.cmpi, Scalar.cmpi, IntOp.cmpi_sge, IntOp.cmpi_sle,
    lo_toInt ((grid2.coords t) 0), hi_toInt ((grid2.coords t) 0)]

-- The accumulator after n points: zeros where a node block opens, and on a hit the block's one-hot product added.
def accAt (c : Dev nD) : (n : ℕ) → Vec F S4096x64 .f32
  | 0 => k2_pay1
  | n + 1 =>
    if h : n < (cfg2 a).N then
      if hit a ⟨n, h⟩ then
        k2_pay2 (grid2.coords ⟨n, h⟩) (iblk a V c 0 ⟨n, h⟩) (iblk a V c 1 ⟨n, h⟩) (if n % 831 = 0 then k2_pay1 else accAt c n)
      else (if n % 831 = 0 then k2_pay1 else accAt c n)
    else accAt c n

def startAt (c : Dev nD) (t : Fin (cfg2 a).N) : Vec F S4096x64 .f32 :=
  if t.val % 831 = 0 then k2_pay1 else accAt a V c t.val

theorem startAt_first (c : Dev nD) (t : Fin (cfg2 a).N) (h : ((grid2.coords t) 1).val = 0) : startAt a V c t = k2_pay1 := by
  unfold startAt; rw [if_pos ((coords1_val t).symm.trans h)]

theorem startAt_later (c : Dev nD) (t : Fin (cfg2 a).N) (h : ((grid2.coords t) 1).val ≠ 0) : startAt a V c t = accAt a V c t.val := by
  unfold startAt; rw [if_neg (fun h0 => h ((coords1_val t).trans h0))]

theorem accAt_succ (c : Dev nD) (t : Fin (cfg2 a).N) :
    accAt a V c (t.val + 1) = if hit a t then k2_pay2 (grid2.coords t) (iblk a V c 0 t) (iblk a V c 1 t) (startAt a V c t) else startAt a V c t := by
  rw [accAt, dif_pos t.isLt]; rfl

theorem accAt_succ_hit (c : Dev nD) (t : Fin (cfg2 a).N) (h : hit a t) :
    accAt a V c (t.val + 1) = k2_pay2 (grid2.coords t) (iblk a V c 0 t) (iblk a V c 1 t) (startAt a V c t) := by
  rw [accAt_succ, if_pos h]

theorem accAt_succ_miss (c : Dev nD) (t : Fin (cfg2 a).N) (h : ¬hit a t) :
    accAt a V c (t.val + 1) = startAt a V c t := by
  rw [accAt_succ, if_neg h]

def outBlk (c : Dev nD) (t : Fin (cfg2 a).N) : Vec F S4096x64 .f32 :=
  k2_pay3 (accAt a V c (t.val + 1)) (iblk a V c 2 t) (iblk a V c 3 t)

abbrev scM : Memref sig .tc .vmem S4096x64 .f32 := Memref.whole cc2_scratch0

-- Everything else that is held, owed back once the accumulator's buffer is returned.
def others (c : Dev nD) : sProp 𝕄 :=
  iprop(∀ f, ((c : Thread nD τ).loc cc2_scratch0 ↦{fullShare} f) -∗ Pipeline.scopedRest spec2 c)

-- Before point n the accumulator holds some X, and X = accAt n once a point has run.
def Phi (c : Dev nD) (n : ℕ) : sProp 𝕄 :=
  iprop((∃ r, prngReg c r) ∗ Pipeline.prefHeld pre2 c (fun _ => fullShare) a.1 ∗ others (F := F) c
    ∗ ∃ X, ⌜n ≠ 0 → X = accAt a V c n⌝ ∗ owns c.tc scM fullShare X)

def dat (c : Dev nD) : Dat τ (Elt F) Unit ℕ (UR sig nD τ) ℕ (cfg2 a) c where
  A w := V c (Pipeline.arrRef spec2 w)
  after w t := match w with
    | ⟨0, _⟩ => iblk a V c 0 t
    | ⟨1, _⟩ => iblk a V c 1 t
    | ⟨2, _⟩ => iblk a V c 2 t
    | ⟨3, _⟩ => iblk a V c 3 t
    | ⟨4, _⟩ => outBlk a V c t
  Φ t := Phi a V c t.val
  q _ := fullShare
  owed _ := 0

theorem A_eq (c : Dev nD) (w : Fin (cfg2 a).W) : (dat a V c).A w = V c (Pipeline.arrRef spec2 w) := rfl

theorem after_4 (c : Dev nD) (t : Fin (cfg2 a).N) : (dat a V c).after 4 t = outBlk a V c t := rfl

section Whole

variable {sig' : RefSig} {κ : Kind} {sp : Space} {S : Shape} {e : EltTy} {Val : EltTy → Type}

theorem read_writes_unit_zero (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

theorem readAt_rep_unit_zero [∀ e, Nonempty (Val e)] (v : View sig' κ sp S e) (X : S.Idx → Val e) {off : Fin S.rank → Nat}
    (ho : off = fun _ => 0) (inb : ∀ a, off a + S.size a ≤ S.size a) :
    v.readAt Val (Rect.unit off S.size inb).toLoadRect (v.rep X) = X := by
  rw [View.readAt_eq_ld, View.read_rep]; exact View.ld_unit_zero ho inb X

end Whole

theorem z1 : (![0] : Fin 1 → ℕ) = fun _ => 0 := by funext a; fin_cases a; rfl
theorem z2 : (![0, 0] : Fin 2 → ℕ) = fun _ => 0 := by funext a; fin_cases a <;> rfl

abbrev cond1 (i : grid2.Coords) : Prop := (Scalar.cmpi .ne (Scalar.extui (Scalar.cmpi .eq (BitVec.ofNat 32 (i 1).val) 0#32)) 0#32) = 1#1

theorem cond1_iff (i : grid2.Coords) : cond1 i ↔ (i 1).val = 0 := by
  have h : ∀ e : Fin 831, (Scalar.cmpi .ne (Scalar.extui (Scalar.cmpi .eq (BitVec.ofNat 32 e.val) 0#32)) 0#32) = 1#1 ↔ e.val = 0 := by
    decide +kernel
  exact h (i 1)

theorem cond3_iff (i : grid2.Coords) : k2_cond3 i = 1#1 ↔ (i 1).val = 830 := by
  have h : ∀ e : Fin 831, (Scalar.cmpi .ne (Scalar.extui (Scalar.cmpi .eq (BitVec.ofNat 32 e.val) 830#32)) 0#32) = 1#1 ↔ e.val = 830 := by
    decide +kernel
  exact h (i 1)

section Run

variable (c : Dev nD) (i : grid2.Coords)
  (arg4 : Memref sig .tc .vmem S1024 .i32) (harg4 : arg4.IsWhole) (arg5 : Memref sig .tc .vmem S1024x64 .f32) (harg5 : arg5.IsWhole)
  (arg6 : Memref sig .tc .vmem S4096x1 .f32) (harg6 : arg6.IsWhole) (arg7 : Memref sig .tc .vmem S1x64 .f32) (harg7 : arg7.IsWhole)
  (arg8 : Memref sig .tc .vmem S4096x64 .f32) (harg8 : arg8.IsWhole) (arg9 : Memref sig .tc .vmem S4096x64 .f32) (harg9 : arg9.IsWhole)
  (x0 : Vec F S1024 .i32) (x1 : Vec F S1024x64 .f32) (x2 : Vec F S4096x1 .f32) (x3 : Vec F S1x64 .f32) (d4 : Vec F S4096x64 .f32)
  (xt0 : TbBuf (F := F) c tbM0) (xt1 : TbBuf (F := F) c tbM1) (xs : Vec F S4096x64 .f32)

-- The body is three independent conditionals (reset, add, store), so its result is written with the same three tests.
theorem run (s0 s' o' : Vec F S4096x64 .f32) (h0 : s0 = if cond1 i then k2_pay1 else xs)
    (hs : s' = if ovl i (wordAt (M := tbM0) i xt0) (wordAt (M := tbM1) i xt1) = 1#1 then k2_pay2 i x0 x1 s0 else s0)
    (ho : o' = if k2_cond3 i = 1#1 then k2_pay3 s' x2 x3 else d4) (E : Set ℕ) (K : PUnit → sProp 𝕄) :
    iprop(owns c.tc arg4 fullShare x0 ∗ owns c.tc arg5 fullShare x1 ∗ owns c.tc arg6 fullShare x2
        ∗ owns c.tc arg7 fullShare x3 ∗ owns c.tc arg8 fullShare d4 ∗ tbPt c tbM0 xt0 ∗ tbPt c tbM1 xt1
        ∗ owns c.tc arg9 fullShare xs
        ∗ (iprop(owns c.tc arg4 fullShare x0 ∗ owns c.tc arg5 fullShare x1 ∗ owns c.tc arg6 fullShare x2
            ∗ owns c.tc arg7 fullShare x3 ∗ owns c.tc arg8 fullShare o' ∗ tbPt c tbM0 xt0 ∗ tbPt c tbM1 xt1
            ∗ owns c.tc arg9 fullShare s') -∗ K ⟨⟩))
      ⊢ wp frame (wpE (defs₀ (F := F)) Variants.none c none) E (cc2__scatter_kernel i tbM0 htbM0 tbM1 htbM1 arg4 harg4 arg5 harg5 arg6 harg6 arg7 harg7 arg8 harg8 arg9 harg9) K := by
  subst h0 hs ho
  by_cases hc1 : cond1 i <;> by_cases hc2 : ovl i (wordAt (M := tbM0) i xt0) (wordAt (M := tbM1) i xt1) = 1#1 <;> by_cases hc3 : k2_cond3 i = 1#1
  all_goals
    first | rw [if_pos hc1] | rw [if_neg hc1]
    first | rw [if_pos hc2] | rw [if_neg hc2]
    first | rw [if_pos hc3] | rw [if_neg hc3]
    try exact absurd ((cond3_iff i).mp hc3) (by rw [(cond1_iff i).mp hc1]; decide)
  all_goals
    rw [owns_eq_rep c.tc arg4 _ x0, owns_eq_rep c.tc arg5 _ x1, owns_eq_rep c.tc arg6 _ x2, owns_eq_rep c.tc arg7 _ x3, owns_eq_rep c.tc arg8 _ d4, owns_eq_rep c.tc arg9 _ xs]
    simp only [cc2__scatter_kernel_eq_skeleton]; unfold cc2__scatter_kernel_skel
    iintro ⟨H0, H1, H2, H3, H4, HT0, HT1, HS, Hk⟩
    sl_exec (disch := first | exact hc1 | exact hc2 | exact hc3)
    sl_step
    iapply Hk
    iframe
    try isplitl [H4]
    all_goals
      unfold owns; iexists _; isplitr; swap; · iassumption
      ipureintro; sl_unfold_run_names
      repeat (first | rw [read_writes_unit_zero arg8.view _ z2] | rw [read_writes_unit_zero arg9.view _ z2] | rw [View.readCov_unit_zero arg9.view z2] | rw [readAt_rep_unit_zero arg4.view _ z1] | rw [readAt_rep_unit_zero arg5.view _ z2] | rw [readAt_rep_unit_zero arg6.view _ z2] | rw [readAt_rep_unit_zero arg7.view _ z2] | rw [readAt_rep_unit_zero arg9.view _ z2])

end Run

abbrev ms0 (t : Fin (cfg2 a).N) := spec2_0.stage ((cfg2 a).slots t 0)
abbrev ms1 (t : Fin (cfg2 a).N) := spec2_1.stage ((cfg2 a).slots t 1)
abbrev ms2 (t : Fin (cfg2 a).N) := spec2_2.stage ((cfg2 a).slots t 2)
abbrev ms3 (t : Fin (cfg2 a).N) := spec2_3.stage ((cfg2 a).slots t 3)
abbrev ms4 (t : Fin (cfg2 a).N) := spec2_4.stage ((cfg2 a).slots t 4)

abbrev bodyAt (t : Fin (cfg2 a).N) : Prog (TpuEff nD τ sig (Elt F) Λ₀ .tc) PUnit :=
  cc2__scatter_kernel (grid2.coords t) tbM0 htbM0 tbM1 htbM1 (ms0 a t) (hstage2_0 (((cfg2 a).slots t 0).cast nbuf2_0)) (ms1 a t) (hstage2_1 (((cfg2 a).slots t 1).cast nbuf2_1)) (ms2 a t) (hstage2_2 (((cfg2 a).slots t 2).cast nbuf2_2)) (ms3 a t) (hstage2_3 (((cfg2 a).slots t 3).cast nbuf2_3))
    (ms4 a t) (hstage2_4 (((cfg2 a).slots t 4).cast nbuf2_4)) scM (Memref.isWhole_whole _)

theorem before_k (c : Dev nD) (t : Fin (cfg2 a).N) : ∀ (w : Fin (cfg2 a).W), w.val ≠ 4 → ∀ d, (dat a V c).before w t d = iblk a V c w t
  | ⟨0, _⟩, _, d | ⟨1, _⟩, _, d | ⟨2, _⟩, _, d | ⟨3, _⟩, _, d =>
    (dat a V c).before_in_eq_fetched _ rfl (fun _ => rfl) (fun _ _ _ => rfl) (fun _ => rfl) t d
  | ⟨4, _⟩, h, _ => absurd rfl h

theorem idle4_eq (t : Fin (cfg2 a).N) : (cfg2 a).idle 4 ((cfg2 a).grid.coords t) = !(k2_cond3 (grid2.coords t) == 1#1) := rfl

theorem flush4_false (t : Fin (cfg2 a).N) (h : ((grid2.coords t) 1).val ≠ 830) : ((cfg2 a).win 4).flush t = false := by
  have hN : t.val < 11634 := lt_of_lt_of_eq t.isLt N_2
  have he : t.val % 831 ≠ 830 := fun he => h ((coords1_val t).trans he)
  unfold Window.flush
  rw [Bool.and_eq_false_iff]; right
  rw [Bool.or_eq_false_iff]
  refine ⟨decide_eq_false ?_, decide_eq_false ?_⟩
  · intro h'; have := h'.trans (show (cfg2 a).grid.N = 11634 from N_2); omega
  · rintro ⟨hh, hne⟩
    refine hne (hreads2_4 _ _ fun ax hax => ?_)
    obtain rfl := (by decide : ∀ ax, reads2_4 ax = true → ax = 0) ax hax
    exact Fin.ext (by rw [coords0_val, coords0_val]; show (t.val + 1) / 831 = t.val / 831; omega)

theorem Phi_eq (c : Dev nD) (t) : (dat a V c).Φ t = Phi a V c t.val := rfl

theorem PhiT_eq (c : Dev nD) :
    (Pipeline.prefHeld pre2 c (fun _ => fullShare) a.1 : sProp 𝕄) = iprop(tbPt c tbM0 (a.1 0) ∗ tbPt c tbM1 (a.1 1)) := by
  unfold Pipeline.prefHeld
  rw [show (Finset.univ : Finset (Fin 2)) = insert (0 : Fin 2) {(1 : Fin 2)} from by decide,
    bigSep_insert (by decide), bigSep_singleton]
  rfl

-- On the last edge block the output is the closing value; elsewhere it is unchanged.
theorem leaves_4 (c : Dev nD) (t : Fin (cfg2 a).N) (d) (o' : Vec F S4096x64 .f32)
    (h1 : k2_cond3 (grid2.coords t) = 1#1 → o' = outBlk a V c t) (h2 : ¬k2_cond3 (grid2.coords t) = 1#1 → o' = (dat a V c).before 4 t d) :
    owns c.tc (ms4 a t) fullShare o' ⊢ (dat a V c).leavesExact 4 t := by
  by_cases h : k2_cond3 (grid2.coords t) = 1#1
  · obtain rfl := h1 h
    unfold Dat.leavesExact; rw [idle4_eq, h]; rfl
  · obtain rfl := h2 h
    rw [Dat.leavesExact_idle (dat a V c) 4 t (by rw [idle4_eq, Bool.not_eq_true', beq_eq_false_iff_ne]; exact h)
      (flush4_false a t fun h' => h ((cond3_iff _).mpr h'))]
    iintro H; iexists d; iexact H

-- What point t starts from: zeros on a first edge block, else what the points before left.
theorem startAt_eq (c : Dev nD) (t : Fin (cfg2 a).N) (X) (hX : t.val ≠ 0 → X = accAt a V c t.val) :
    startAt a V c t = if cond1 (grid2.coords t) then k2_pay1 else X := by
  unfold startAt
  by_cases e0 : t.val % 831 = 0
  · rw [if_pos e0, if_pos ((cond1_iff _).mpr ((coords1_val t).trans e0))]
  · rw [if_neg e0, if_neg fun h => e0 ((coords1_val t).symm.trans ((cond1_iff _).mp h)), hX fun hz => e0 (by rw [hz])]

theorem sound_body (c : Dev nD) (t : Fin (cfg2 a).N) :
    iprop((dat a V c).Φ t.castSucc ∗ (dat a V c).owesAt () t.castSucc
      ∗ (∃ d, owns c.tc (ms0 a t) fullShare ((dat a V c).before 0 t d))
      ∗ (∃ d, owns c.tc (ms1 a t) fullShare ((dat a V c).before 1 t d))
      ∗ (∃ d, owns c.tc (ms2 a t) fullShare ((dat a V c).before 2 t d))
      ∗ (∃ d, owns c.tc (ms3 a t) fullShare ((dat a V c).before 3 t d))
      ∗ (∃ d, owns c.tc (ms4 a t) fullShare ((dat a V c).before 4 t d)))
    ⊢ wp frame (wpE (defs₀ (F := F)) Variants.none c none) Set.univ (bodyAt a t) (fun _ => iprop((dat a V c).Φ t.succ ∗ (dat a V c).owesAt () t.succ
      ∗ (dat a V c).leavesExact 0 t ∗ (dat a V c).leavesExact 1 t ∗ (dat a V c).leavesExact 2 t ∗ (dat a V c).leavesExact 3 t ∗ (dat a V c).leavesExact 4 t)) := by
  simp (disch := exact Nat.ne_of_beq_eq_false rfl) only [before_k a V c t]
  rw [show (dat a V c).owesAt () t.succ = (dat a V c).owesAt () t.castSucc from rfl, Phi_eq, Phi_eq, Fin.val_succ, Fin.coe_castSucc,
    show (dat a V c).leavesExact 0 t = owns c.tc (ms0 a t) fullShare (iblk a V c 0 t) from rfl,
    show (dat a V c).leavesExact 1 t = owns c.tc (ms1 a t) fullShare (iblk a V c 1 t) from rfl,
    show (dat a V c).leavesExact 2 t = owns c.tc (ms2 a t) fullShare (iblk a V c 2 t) from rfl,
    show (dat a V c).leavesExact 3 t = owns c.tc (ms3 a t) fullShare (iblk a V c 3 t) from rfl]
  unfold Phi; rw [PhiT_eq]
  iintro ⟨⟨Hg, ⟨HT0, HT1⟩, HO, ⟨%X, %hX, HS⟩⟩, Ho, ⟨%d0, H0⟩, ⟨%d1, H1⟩, ⟨%d2, H2⟩, ⟨%d3, H3⟩, ⟨%d4, H4⟩⟩
  iapply (run c _ _ _ _ _ _ _ _ _ _ _ _ _ _ _ _ _ _ _ _ X (startAt a V c t) (accAt a V c (t.val + 1))
    (if k2_cond3 (grid2.coords t) = 1#1 then outBlk a V c t else (dat a V c).before 4 t d4) (startAt_eq a V c t X hX) (accAt_succ a V c t) rfl Set.univ _)
  iframe H0 H1 H2 H3 H4 HT0 HT1 HS
  iintro ⟨H0, H1, H2, H3, H4, HT0, HT1, HS⟩
  iframe Hg HT0 HT1 HO Ho
  isplitl [HS]
  · iexists _; isplitr; · ipureintro; exact fun _ => rfl
    iexact HS
  iframe H0 H1 H2 H3
  iapply (leaves_4 a V c t d4 _ (fun h => if_pos h) (fun h => if_neg h)); iexact H4

theorem body_obligation (c : Dev nD) : BodyObligation (dat a V c) (defs₀ (F := F)) Variants.none () Set.univ := fun t => by
  rw [bigSep_W2, bigSep_W2]
  exact sound_body a V c t

abbrev X (c : Dev nD) : sProp 𝕄 := iprop(∃ r, prngReg c r)

abbrev Y (c : Dev nD) : sProp 𝕄 := iprop((∃ r, prngReg c r) ∗ Pipeline.prefHeld pre2 c (fun _ => fullShare) a.1)

theorem hin (c : Dev nD) :
    iprop(X (F := F) c ∗ Pipeline.prefHeld pre2 c (fun _ => fullShare) a.1 ∗ Pipeline.scopedRest spec2 c) ⊢ (dat a V c).Φ 0 := by
  rw [Phi_eq, Fin.val_zero]
  unfold Phi others
  rw [scopedRest2_eq]
  simp only [scM, owns_whole]
  iintro ⟨HX, HT, B0, B1, B2, B3, B4, B5, B6, B7, B8, B9, B10, B11, B12, ⟨%f, HS⟩⟩
  iframe HX HT
  isplitr [HS]
  · iintro %g Hg; iframe; iexists g; iexact Hg
  iexists f; isplitr; · ipureintro; exact fun h => absurd rfl h
  iexact HS

theorem hout (c : Dev nD) :
    (dat a V c).Φ (Fin.last (cfg2 a).N) ⊢ iprop(Y a c ∗ Pipeline.ownSems0 (fun k : PEmpty => k.elim) c ∗ Pipeline.scopedRest spec2 c) := by
  rw [Phi_eq, Pipeline.ownSems0_none]
  unfold Phi others Y
  simp only [scM, owns_whole]
  iintro ⟨Hg, HT, HW, ⟨%X, %hX, HS⟩⟩
  iframe Hg HT
  isplitr; · iempintro
  ispecialize HW $$ %X HS
  iexact HW

end Cert.KernelIdeal.Sct

end
-- ==== Proof.KernelIdeal.Run.lean ====
import proofs.«401429_j309237645711_3_alg».proof.Proof.Gen.KernelIdeal.Launch
import proofs.«401429_j309237645711_3_alg».proof.Proof.Gen.KernelIdeal.Regions
import Idealize.ShloMosaic.Lib.Pipeline.RegionsLoop
import Idealize.ShloMosaic.Lib.Tactic
import proofs.«401429_j309237645711_3_alg».proof.Proof.KernelIdeal.Linear
import proofs.«401429_j309237645711_3_alg».proof.Proof.KernelIdeal.Gather
import proofs.«401429_j309237645711_3_alg».proof.Proof.KernelIdeal.Scatter

set_option maxRecDepth 16384
set_option backward.isDefEq.respectTransparency.types false

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def W0 : Dev nD → Valuation τ sig (Elt F) := fun c b => m (c, b)

def W1 : Dev nD → Valuation τ sig (Elt F) := fun c => StableHlo.after hostOps0 (W0 m c)
def W2 : Dev nD → Valuation τ sig (Elt F) := fun c => StableHlo.after hostOps0_1 (W1 m c)
def W3 : Dev nD → Valuation τ sig (Elt F) := fun c => StableHlo.after hostOps0_2 (W2 m c)
def W4 : Dev nD → Valuation τ sig (Elt F) := fun c => StableHlo.after hostOps0_3 (W3 m c)
def W5 : Dev nD → Valuation τ sig (Elt F) := fun c => StableHlo.after hostOps0_4 (W4 m c)
def W6 : Dev nD → Valuation τ sig (Elt F) := fun c => StableHlo.after hostOps0_5 (W5 m c)

def W7 : Dev nD → Valuation τ sig (Elt F) := fun c => StableHlo.after hostOps0_6 (W6 m c)

abbrev V7 : (c : Dev nD) → (b : Ref sig .tc) → Buf (Elt F) ((c : Thread nD τ).loc b) := fun c b => W7 m c b

def W8 (c : Dev nD) : Valuation τ sig (Elt F) :=
  Pipeline.withArrays spec0 c (W7 m c) fun w => (Lin.dat (V7 m) c).arrAt w cfg0.N
abbrev V8 : (c : Dev nD) → (b : Ref sig .tc) → Buf (Elt F) ((c : Thread nD τ).loc b) := fun c b => W8 m c b

def W9 : Dev nD → Valuation τ sig (Elt F) := fun c => StableHlo.after hostOps1 (W8 m c)
abbrev V9 : (c : Dev nD) → (b : Ref sig .tc) → Buf (Elt F) ((c : Thread nD τ).loc b) := fun c b => W9 m c b

abbrev c₀ : Dev nD := ⟨0, Nat.one_pos⟩

def adm1 : (pcfg1 (F := F)).Adm := ⟨fun k => W7 m c₀ (Proc.devRef .tc (pre1.ref k)), trivial⟩

def adm2 : (pcfg2 (F := F)).Adm := ⟨fun k => W7 m c₀ (Proc.devRef .tc (pre2.ref k)), trivial⟩

def W10 (c : Dev nD) : Valuation τ sig (Elt F) :=
  Pipeline.withArrays spec1 c (W9 m c) fun w => (Gat.dat (adm1 m) (V9 m) c).arrAt w (cfg1 (adm1 m)).N
abbrev V10 : (c : Dev nD) → (b : Ref sig .tc) → Buf (Elt F) ((c : Thread nD τ).loc b) := fun c b => W10 m c b

def W11 : Dev nD → Valuation τ sig (Elt F) := fun c => StableHlo.after hostOps2 (W10 m c)
abbrev V11 : (c : Dev nD) → (b : Ref sig .tc) → Buf (Elt F) ((c : Thread nD τ).loc b) := fun c b => W11 m c b

def W12 (c : Dev nD) : Valuation τ sig (Elt F) :=
  Pipeline.withArrays spec2 c (W11 m c) fun w => (Sct.dat (adm2 m) (V11 m) c).arrAt w (cfg2 (adm2 m)).N
abbrev V12 : (c : Dev nD) → (b : Ref sig .tc) → Buf (Elt F) ((c : Thread nD τ).loc b) := fun c b => W12 m c b

def W13 : Dev nD → Valuation τ sig (Elt F) := fun c => StableHlo.after hostOps3 (W12 m c)
def W14 : Dev nD → Valuation τ sig (Elt F) := fun c => StableHlo.after hostOps3_1 (W13 m c)
def W15 : Dev nD → Valuation τ sig (Elt F) := fun c => StableHlo.after hostOps3_2 (W14 m c)

def adm : (p : Fin 3) → (pcfgs (F := F) p).Adm
  | ⟨0, _⟩ => cfg0.toPCfg_adm
  | ⟨1, _⟩ => adm1 m
  | ⟨2, _⟩ => adm2 m

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
theorem W3_of (c : Dev nD) (r : Ref sig .tc) (h : r ∉ hostOps0_2_W) : W3 m c r = W2 m c r :=
  StableHlo.after_of_writes_sub hostOps0_2 _ hostOps0_2_writes h
theorem W4_of (c : Dev nD) (r : Ref sig .tc) (h : r ∉ hostOps0_3_W) : W4 m c r = W3 m c r :=
  StableHlo.after_of_writes_sub hostOps0_3 _ hostOps0_3_writes h
theorem W5_of (c : Dev nD) (r : Ref sig .tc) (h : r ∉ hostOps0_4_W) : W5 m c r = W4 m c r :=
  StableHlo.after_of_writes_sub hostOps0_4 _ hostOps0_4_writes h
theorem W6_of (c : Dev nD) (r : Ref sig .tc) (h : r ∉ hostOps0_5_W) : W6 m c r = W5 m c r :=
  StableHlo.after_of_writes_sub hostOps0_5 _ hostOps0_5_writes h
theorem W7_of (c : Dev nD) (r : Ref sig .tc) (h : r ∉ hostOps0_6_W) : W7 m c r = W6 m c r :=
  StableHlo.after_of_writes_sub hostOps0_6 _ hostOps0_6_writes h

theorem W8_arr (c : Dev nD) (w : Fin cfg0.W) :
    W8 m c (Proc.devRef .tc (Pipeline.arrRef spec0 w)) = (Lin.dat (V7 m) c).arrAt w cfg0.N := by
  unfold W8; exact Pipeline.withArrays_arr spec0 winFacts0.arr_inj c _ _ w

theorem W8_of (c : Dev nD) (r : Ref sig .tc) (h : ∀ w, Pipeline.arrRef spec0 w ≠ r) : W8 m c r = W7 m c r := by
  unfold W8; exact Pipeline.withArrays_of_ne spec0 c _ _ r h
theorem W9_of (c : Dev nD) (r : Ref sig .tc) (h : r ∉ hostOps1_W) : W9 m c r = W8 m c r :=
  StableHlo.after_of_writes_sub hostOps1 _ hostOps1_writes h

theorem W10_arr (c : Dev nD) (w : Fin (cfg1 (adm1 m)).W) :
    W10 m c (Proc.devRef .tc (Pipeline.arrRef spec1 w)) = (Gat.dat (adm1 m) (V9 m) c).arrAt w (cfg1 (adm1 m)).N := by
  unfold W10; exact Pipeline.withArrays_arr spec1 winFacts1.arr_inj c _ _ w

theorem W10_of (c : Dev nD) (r : Ref sig .tc) (h : ∀ w, Pipeline.arrRef spec1 w ≠ r) : W10 m c r = W9 m c r := by
  unfold W10; exact Pipeline.withArrays_of_ne spec1 c _ _ r h
theorem W11_of (c : Dev nD) (r : Ref sig .tc) (h : r ∉ hostOps2_W) : W11 m c r = W10 m c r :=
  StableHlo.after_of_writes_sub hostOps2 _ hostOps2_writes h

theorem W12_arr (c : Dev nD) (w : Fin (cfg2 (adm2 m)).W) :
    W12 m c (Proc.devRef .tc (Pipeline.arrRef spec2 w)) = (Sct.dat (adm2 m) (V11 m) c).arrAt w (cfg2 (adm2 m)).N := by
  unfold W12; exact Pipeline.withArrays_arr spec2 winFacts2.arr_inj c _ _ w

theorem W12_of (c : Dev nD) (r : Ref sig .tc) (h : ∀ w, Pipeline.arrRef spec2 w ≠ r) : W12 m c r = W11 m c r := by
  unfold W12; exact Pipeline.withArrays_of_ne spec2 c _ _ r h
theorem W13_of (c : Dev nD) (r : Ref sig .tc) (h : r ∉ hostOps3_W) : W13 m c r = W12 m c r :=
  StableHlo.after_of_writes_sub hostOps3 _ hostOps3_writes h
theorem W14_of (c : Dev nD) (r : Ref sig .tc) (h : r ∉ hostOps3_1_W) : W14 m c r = W13 m c r :=
  StableHlo.after_of_writes_sub hostOps3_1 _ hostOps3_1_writes h
theorem W15_of (c : Dev nD) (r : Ref sig .tc) (h : r ∉ hostOps3_2_W) : W15 m c r = W14 m c r :=
  StableHlo.after_of_writes_sub hostOps3_2 _ hostOps3_2_writes h

theorem W1_def (c : Dev nD) : W1 m c = StableHlo.after hostOps0 (W0 m c) := rfl
theorem W2_def (c : Dev nD) : W2 m c = StableHlo.after hostOps0_1 (W1 m c) := rfl
theorem W3_def (c : Dev nD) : W3 m c = StableHlo.after hostOps0_2 (W2 m c) := rfl
theorem W4_def (c : Dev nD) : W4 m c = StableHlo.after hostOps0_3 (W3 m c) := rfl
theorem W5_def (c : Dev nD) : W5 m c = StableHlo.after hostOps0_4 (W4 m c) := rfl
theorem W6_def (c : Dev nD) : W6 m c = StableHlo.after hostOps0_5 (W5 m c) := rfl
theorem W7_def (c : Dev nD) : W7 m c = StableHlo.after hostOps0_6 (W6 m c) := rfl
theorem W8_def (c : Dev nD) : W8 m c = Pipeline.withArrays spec0 c (W7 m c) fun w => (Lin.dat (V7 m) c).arrAt w cfg0.N := rfl
theorem W9_def (c : Dev nD) : W9 m c = StableHlo.after hostOps1 (W8 m c) := rfl
theorem W10_def (c : Dev nD) : W10 m c = Pipeline.withArrays spec1 c (W9 m c) fun w => (Gat.dat (adm1 m) (V9 m) c).arrAt w (cfg1 (adm1 m)).N := rfl
theorem W11_def (c : Dev nD) : W11 m c = StableHlo.after hostOps2 (W10 m c) := rfl
theorem W12_def (c : Dev nD) : W12 m c = Pipeline.withArrays spec2 c (W11 m c) fun w => (Sct.dat (adm2 m) (V11 m) c).arrAt w (cfg2 (adm2 m)).N := rfl
theorem W13_def (c : Dev nD) : W13 m c = StableHlo.after hostOps3 (W12 m c) := rfl
theorem W14_def (c : Dev nD) : W14 m c = StableHlo.after hostOps3_1 (W13 m c) := rfl
theorem W15_def (c : Dev nD) : W15 m c = StableHlo.after hostOps3_2 (W14 m c) := rfl

theorem adm1_val (k : Fin pre1.K) : (adm1 m).1 k = W7 m c₀ (Proc.devRef .tc (pre1.ref k)) := rfl

theorem adm2_val (k : Fin pre2.K) : (adm2 m).1 k = W7 m c₀ (Proc.devRef .tc (pre2.ref k)) := rfl

theorem W7_gen (c : Dev nD) : W7 m c = Cert.KernelIdeal.Gen.V7 m c := rfl

attribute [irreducible] W1 W2 W3 W4 W5 W6 W7 W8 W9 W10 W11 W12 W13 W14 W15

def pdats : (p : Fin 3) → (c : Dev nD) → Dat τ (Elt F) Unit ℕ (UR sig nD τ) ℕ (Pipeline.pin (pcfgs (F := F)) (adm m) p) c
  | ⟨0, _⟩ => fun c => Lin.dat (V7 m) c
  | ⟨1, _⟩ => fun c => Gat.dat (adm1 m) (V9 m) c
  | ⟨2, _⟩ => fun c => Sct.dat (adm2 m) (V11 m) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem held_to {V V' : Dev nD → Valuation τ sig (Elt F)} (h : ∀ c, V' c = V c) (c : Dev nD) :
    (iprop(StableHlo.held (c : Thread nD τ) (Pipeline.ucRefs τ sig) (V c) ∗ R c) : sProp 𝕄)
      ⊢ iprop(StableHlo.held (c : Thread nD τ) (Pipeline.ucRefs τ sig) (V' c) ∗ R c) :=
  Entails.of_eq (by rw [h c])

theorem adm1_at (c : Dev nD) : ((fun k => V9 m c (pre1.ref k)) : pre1.Contents (Elt F)) = (adm1 m).1 := by
  obtain rfl : c = c₀ := Subsingleton.elim _ _
  funext k
  match k with
  | ⟨0, _⟩ | ⟨1, _⟩ => exact (W9_of m c₀ _ (by decide +revert)).trans (W8_of m c₀ _ (by decide +revert))

theorem adm2_at (c : Dev nD) : ((fun k => V11 m c (pre2.ref k)) : pre2.Contents (Elt F)) = (adm2 m).1 := by
  obtain rfl : c = c₀ := Subsingleton.elim _ _
  funext k
  match k with
  | ⟨0, _⟩ | ⟨1, _⟩ => exact (W11_of m c₀ _ (by decide +revert)).trans <| (W10_of m c₀ _ (by decide +revert)).trans <|
      (W9_of m c₀ _ (by decide +revert)).trans (W8_of m c₀ _ (by decide +revert))

theorem rest1_split (c : Dev nD) :
    (Pipeline.unscopedRest spec1 c (V9 m c) : sProp 𝕄)
      = iprop(Pipeline.prefHeld pre1 c (fun _ => fullShare) (adm1 m).1 ∗ Pipeline.unscopedRestP pre1 spec1 c (V9 m c)) :=
  (Pipeline.unscopedRest_split preFacts1 c (V9 m c)).trans (by rw [adm1_at m c])

theorem rest2_split (c : Dev nD) :
    (Pipeline.unscopedRest spec2 c (V11 m c) : sProp 𝕄)
      = iprop(Pipeline.prefHeld pre2 c (fun _ => fullShare) (adm2 m).1 ∗ Pipeline.unscopedRestP pre2 spec2 c (V11 m c)) :=
  (Pipeline.unscopedRest_split preFacts2 c (V11 m c)).trans (by rw [adm2_at m c])

theorem rest0_split (c : Dev nD) :
    (Pipeline.unscopedRest spec0 c (V7 m c) : sProp 𝕄)
      = iprop(Pipeline.prefHeld (pcfgs (F := F) 0).pre c (fun _ => fullShare) (adm m 0).1 ∗ Pipeline.unscopedRestP (pcfgs (F := F) 0).pre spec0 c (V7 m c)) :=
  (Pipeline.unscopedRest_split (launch0 (F := F)).pre c (V7 m c)).trans
    (by rw [show ((fun k => V7 m c ((pcfgs (F := F) 0).pre.ref k)) : (pcfgs (F := F) 0).pre.Contents (Elt F)) = (adm m 0).1 from funext fun k => k.elim0]; rfl)

-- Entry: the buffers held at V are the region's arrays and, by hs, T and Z; the other two resources are carried along.
theorem entry_of {p : Fin 3} {c : Dev nD} {T Z : sProp 𝕄} (l : Pipeline.PLaunchFacts (nD := nD) (τ := τ) (pcfgs (F := F)) p)
    (V : Valuation τ sig (Elt F)) (hA : ∀ w, (pdats m p c).A w = V (Pipeline.arrRef (pcfgs (F := F) p).spec w))
    (hs : (Pipeline.unscopedRest (pcfgs (F := F) p).spec c (fun b => V b) : sProp 𝕄) = iprop(T ∗ Z))
    (hsh : ∀ w, (pdats m p c).share w = fullShare := by exact Dat.share_full _ fun _ => rfl) (h0 : (pdats m p c).owed 0 = 0 := by rfl)
    (hr : ∀ x, x ∈ (pdats m p c).recorded 0 := by exact fun _ => trivial) :
    (iprop((StableHlo.held (c : Thread nD τ) (Pipeline.ucRefs τ sig) V ∗ R c) ∗ Pipeline.ownSems0 (fun k : PEmpty => k.elim) c ∗ levAts L lv) : sProp 𝕄)
      ⊢ |={Set.univ}=> iprop((pdats m p c).arrays (pdats m p c).A ∗ T ∗ (pdats m p c).owesAt () 0 ∗ (∃ r, prngReg c r) ∗ Z) := by
  have hsplit := (Pipeline.arrays_of_unscopedBufs (pcfgs (F := F)) (adm m) (pdats m) l.win l.arr_whole c hsh (fun b => V b) hA).trans
    (sep_mono .rfl (Entails.of_eq hs))
  rw [Pipeline.unscopedBufs_held] at hsplit
  rw [Pipeline.ownSems0_none]
  unfold Pipeline.Dat.owesAt Pipeline.owesWithin
  rw [h0]
  iintro ⟨⟨Hub, Hp, %W, HO⟩, -, -⟩
  ihave H := hsplit $$ Hub
  icases H with ⟨Ha, Ht, Hrest⟩
  imodintro
  isplitl [Ha]; · iexact Ha
  isplitl [Ht]; · iexact Ht
  isplitl [HO]
  · iexists W; isplitr; · ipureintro; exact fun x _ => Or.inl (hr x)
    iexact HO
  isplitl [Hp]; · iexact Hp
  iexact Hrest

-- Exit, the converse: the arrays at their last contents, T and Z are the buffers held at V', which is V off the arrays.
theorem exit_of {p : Fin 3} {c : Dev nD} {T Z : sProp 𝕄} (l : Pipeline.PLaunchFacts (nD := nD) (τ := τ) (pcfgs (F := F)) p)
    (V V' : Valuation τ sig (Elt F))
    (hF : ∀ w, (pdats m p c).arrAt w (Pipeline.pin (pcfgs (F := F)) (adm m) p).N = V' (Pipeline.arrRef (pcfgs (F := F) p).spec w))
    (hrest : ∀ b : Ref sig .tc, (∀ w, Pipeline.arrRef (pcfgs (F := F) p).spec w ≠ b) → V' b = V b)
    (hs : (Pipeline.unscopedRest (pcfgs (F := F) p).spec c (fun b => V b) : sProp 𝕄) = iprop(T ∗ Z))
    (hsh : ∀ w, (pdats m p c).share w = fullShare := by exact Dat.share_full _ fun _ => rfl) (h0 : (pdats m p c).owed (Fin.last _) = 0 := by rfl) :
    (iprop((pdats m p c).arrays ((pdats m p c).arrAt · (Pipeline.pin (pcfgs (F := F)) (adm m) p).N) ∗ (pdats m p c).owesAt () (Fin.last _)
        ∗ ((∃ r, prngReg c r) ∗ T) ∗ Z) : sProp 𝕄)
      ⊢ |={Set.univ}=> iprop(StableHlo.held (c : Thread nD τ) (Pipeline.ucRefs τ sig) V' ∗ R c) := by
  have hjoin := (sep_mono .rfl (Entails.of_eq hs.symm)).trans
    (Pipeline.unscopedBufs_of_arrays (pcfgs (F := F)) (adm m) (Ix := Unit) (Name := ℕ) (U := UR sig nD τ) (Lvl := ℕ) l.win l.arr_whole c (pdats m) hsh
      (fun b => V b) (fun b => V' b) _ hF fun b hb => hrest b fun w e => hb (Finset.mem_image.mpr ⟨w, Finset.mem_univ _, e⟩))
  rw [Pipeline.unscopedBufs_held] at hjoin
  unfold Pipeline.Dat.owesAt Pipeline.owesWithin
  rw [h0]
  iintro ⟨Ha, ⟨%W, -, HO⟩, ⟨HY, Ht⟩, Hrest⟩
  imodintro
  isplitl [Ha Hrest Ht]
  · iapply hjoin
    isplitl [Ha]; · iexact Ha
    isplitl [Ht] <;> iassumption
  isplitl [HY]; · iexact HY
  iexists W; iexact HO

def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (Lin.body_obligation (V7 m) c).loose
  hwaits := Pipeline.hwaits_of_owed_zero _ _ _ _ L lv 0 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop((∃ r, prngReg c r) ∗ Pipeline.prefHeld (pcfgs (F := F) 0).pre c (fun _ => fullShare) (adm m 0).1)
  Z c := Pipeline.unscopedRestP (Ix := Unit) (Name := ℕ) (U := UR sig nD τ) (Lvl := ℕ) (pcfgs (F := F) 0).pre spec0 c (V7 m c)
  hentry c := entry_of m launch0 (W7 m c) (Lin.A_eq (V7 m) c) (rest0_split m c)
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]
    · isplitl [Hp]; · iexact Hp
      unfold Pipeline.prefHeld; rw [show (Finset.univ : Finset (Fin 0)) = ∅ from rfl, BI.bigSep_empty]; iempintro
    isplitr; · iempintro
    iexact Hr
  hexit c := exit_of m launch0 (W7 m c) (W8 m c) (fun w => (W8_arr m c w).symm) (W8_of m c) (rest0_split m c)

def reg1 : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (Gat.body_obligation (adm1 m) (V9 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := Gat.X c
  Y c := Gat.Y (adm1 m) c
  Z c := Pipeline.unscopedRestP (Ix := Unit) (Name := ℕ) (U := UR sig nD τ) (Lvl := ℕ) pre1 spec1 c (V9 m c)
  hentry c := entry_of m launch1 (W9 m c) (Gat.A_eq (adm1 m) (V9 m) c) (rest1_split m c)
  hin c := Gat.hin (adm1 m) (V9 m) c
  hout c := Gat.hout (adm1 m) (V9 m) c
  hexit c := exit_of m launch1 (W9 m c) (W10 m c) (fun w => (W10_arr m c w).symm) (W10_of m c) (rest1_split m c)

def reg2 : Pipeline.RegionSeg (pcfgs (F := F)) (adm m) (pdats m) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (Sct.body_obligation (adm2 m) (V11 m) c).loose
  hwaits := Pipeline.hwaits_of_owed_zero _ _ _ _ L lv 2 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := Sct.X c
  Y c := Sct.Y (adm2 m) c
  Z c := Pipeline.unscopedRestP (Ix := Unit) (Name := ℕ) (U := UR sig nD τ) (Lvl := ℕ) pre2 spec2 c (V11 m c)
  hentry c := entry_of m launch2 (W11 m c) (Sct.A_eq (adm2 m) (V11 m) c) (rest2_split m c)
  hin c := Sct.hin (adm2 m) (V11 m) c
  hout c := Sct.hout (adm2 m) (V11 m) c
  hexit c := exit_of m launch2 (W11 m c) (W12 m c) (fun w => (W12_arr m c w).symm) (W12_of m c) (rest2_split m c)

abbrev segs : List (Pipeline.Seg (pcfgs (F := F)) (adm m) (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .region (reg0 m),
    .host (hseg hostOps1 hostOps1_sub hostOps1_fresh (W8 m)),
    .region (reg1 m),
    .host (hseg hostOps2 hostOps2_sub hostOps2_fresh (W10 m)),
    .region (reg2 m),
    .host (hseg hostOps3 hostOps3_sub hostOps3_fresh (W12 m)),
    .host (hseg hostOps3_1 hostOps3_1_sub hostOps3_1_fresh (W13 m)),
    .host (hseg hostOps3_2 hostOps3_2_sub hostOps3_2_fresh (W14 m)) ]

theorem hmain (c : Dev nD) (Q : PUnit → sProp 𝕄) :
    wp frame (wpE (Pipeline.defs (pcfgs (F := F)) defs₀) (Variants.lift 𝒱₀) (c.tc : Thread nD τ) none) Set.univ (Pipeline.Seg.run (segs m)) Q
      ⊢ wp frame (wpE (Pipeline.defs (pcfgs (F := F)) defs₀) (Variants.lift 𝒱₀) (c.tc : Thread nD τ) none) Set.univ (main (F := F) c) Q := by
  rewrite [main_chain c, Pipeline.Seg.run_eq_chain,
    show (segs m).map Pipeline.Seg.prog = [
      StableHlo.seq hostOps0,
      StableHlo.seq hostOps0_1,
      StableHlo.seq hostOps0_2,
      StableHlo.seq hostOps0_3,
      StableHlo.seq hostOps0_4,
      StableHlo.seq hostOps0_5,
      StableHlo.seq hostOps0_6,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      StableHlo.seq hostOps3_1,
      StableHlo.seq hostOps3_2 ] from rfl]
  exact .rfl

theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W15 m c b) → Q (⟨⟩, s)) :
    θ_run defs (onTc (τ := τ) (main (F := F))) ⟨m, fun _ => 0, ρ⟩ Q :=
  Pipeline.θ_run_regions_kit (pcfgs (F := F)) (adm m) (pdats m) () (cellOf_inj (adm m)) emb₁ defs₀ 𝒱₀ L lv m ρ main (segs m)
    (hmain m)
    (by simp only [segs, Pipeline.Seg.pipes_host, Pipeline.Seg.pipes_region, Pipeline.Seg.pipes_nil]; decide)
    (O₀ := 0) (hL := fun _ _ => rfl) (G := fun _ => BI.emp)
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      rw [BI.bigSep_emp_const]
      iintro Hu; imodintro
      isplitl [Hu]
      · iapply (show (ownU _ : sProp 𝕄) ⊢ BI.own (emb₁ _) from .rfl)
        iexact Hu
      iempintro)
    (T₀ := fun c => iprop(StableHlo.held (c : Thread nD τ) (Pipeline.ucRefs τ sig) (W0 m c) ∗ R c)) (Tₙ := fun c => iprop(StableHlo.held (c : Thread nD τ) (Pipeline.ucRefs τ sig) (W15 m c) ∗ ∃ r, prngReg c r))
    (hch := ⟨fun _ => .rfl,
      held_to (W1_def m), held_to (W2_def m), held_to (W3_def m), held_to (W4_def m),
      held_to (W5_def m), held_to (W6_def m), held_to (W7_def m),
      fun _ => .rfl, held_to (W9_def m), fun _ => .rfl, held_to (W11_def m), fun _ => .rfl,
      held_to (W13_def m), held_to (W14_def m),
      fun c => (held_to (W15_def m) c).trans (by
        iintro ⟨Hh, Hp, HO⟩
        isplitr [HO]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m c b)
    (hfin := fun c s' => by
      iintro ⟨⟨Hh, -⟩, HSI⟩
      unfold StableHlo.held
      imodintro
      iapply (pointsTo_read_all (Pipeline.ucRefs τ sig) (fun b => (((c : Thread nD τ)).1, b)) (W15 m c) s')
      isplitl [Hh] <;> iassumption)
    (hQ := hQ)

-- A buffer that no host stretch writes and that no region changes ends as launched.
theorem end_keep {s : MemSt nD τ sig (Elt F)} (c : Dev nD)
    (h : ∀ b ∈ Pipeline.ucRefs τ sig, s.mem (((c : Thread nD τ)).1, b) = W15 m c b) (b : Ref sig .tc)
    (h8 : W8 m c b = W7 m c b) (hu : ¬ (Proc.devRef .tc b : DevRef τ sig).isScoped := by decide)
    (hw : b ∉ hostOps0_W ++ hostOps0_1_W ++ hostOps0_2_W ++ hostOps0_3_W ++ hostOps0_4_W ++ hostOps0_5_W ++ hostOps0_6_W
      ++ hostOps1_W ++ hostOps2_W ++ hostOps3_W ++ hostOps3_1_W ++ hostOps3_2_W := by decide)
    (h10 : ∀ w, Pipeline.arrRef spec1 w ≠ b := by decide) (h12 : ∀ w, Pipeline.arrRef spec2 w ≠ b := by decide) :
    s.mem ((c.tc : Thread nD τ).loc b) = m ((c.tc : Thread nD τ).loc b) := by
  simp only [List.mem_append, not_or] at hw
  obtain ⟨⟨⟨⟨⟨⟨⟨⟨⟨⟨⟨h1, h2⟩, h3⟩, h4⟩, h5⟩, h6⟩, h7⟩, h9⟩, h11⟩, h13⟩, h14⟩, h15⟩ := hw
  exact (h _ (mem_uc b hu)).trans <| (W15_of m c b h15).trans <| (W14_of m c b h14).trans <| (W13_of m c b h13).trans <|
    (W12_of m c b h12).trans <| (W11_of m c b h11).trans <| (W10_of m c b h10).trans <| (W9_of m c b h9).trans <| h8.trans <|
    (W7_of m c b h7).trans <| (W6_of m c b h6).trans <| (W5_of m c b h5).trans <| (W4_of m c b h4).trans <|
    (W3_of m c b h3).trans <| (W2_of m c b h2).trans <| (W1_of m c b h1).trans rfl

-- An input array of the first region leaves it as it entered.
theorem W8_in (c : Dev nD) (w : Fin cfg0.W) (hw : (cfg0.win w).isOut = false) :
    W8 m c (Proc.devRef .tc (Pipeline.arrRef spec0 w)) = V7 m c (Pipeline.arrRef spec0 w) :=
  (W8_arr m c w).trans (((Lin.dat (V7 m) c).arrAt_in w hw _).trans (Lin.A_eq (V7 m) c w))

theorem run_result : θ_run defs (onTc (τ := τ) (main (F := F))) ⟨m, fun _ => 0, ρ⟩ (fun r => ∀ c : Dev nD,
      r.2.mem ((c.tc : Thread nD τ).loc main_v75) = W15 m c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_post m ρ fun s h c =>
    ⟨h c _ (mem_uc main_v75 (by decide)),
      end_keep m c (h c) main_arg0 (W8_in m c 0 rfl),
      end_keep m c (h c) main_arg1 (W8_of m c main_arg1 (by decide)),
      end_keep m c (h c) main_arg2 (W8_of m c main_arg2 (by decide)),
      end_keep m c (h c) main_arg3 (W8_in m c 1 rfl),
      end_keep m c (h c) main_arg4 (W8_of m c main_arg4 (by decide)),
      end_keep m c (h c) main_arg5 (W8_of m c main_arg5 (by decide)),
      end_keep m c (h c) main_arg6 (W8_of m c main_arg6 (by decide))⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_result m ρ)

end Cert.KernelIdeal.Run

end
-- ==== Proof.RefRun.lean ====
import proofs.«401429_j309237645711_3_alg».proof.ReferenceIdeal
import proofs.«401429_j309237645711_3_alg».proof.Proof.Gen.ReferenceIdeal
import Idealize.ShloMosaic.Lib.Pipeline.Frame
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

def rowOf (ei : IVec S2x800000 32) : IVec S850000 32 :=
  concatenate S850000 0
    [⟨S800000, shapeCast S800000 (extractStridedSlice S1x800000 ![0, 0] ei slices_S2x800000_S1x800000_0_0) shapeCasts_S1x800000_S800000⟩,
     ⟨S50000, iotaInDim S50000 32 0⟩] concatenates_S800000_S50000_S850000_d0

def colOf (ei : IVec S2x800000 32) : IVec S850000 32 :=
  concatenate S850000 0
    [⟨S800000, shapeCast S800000 (extractStridedSlice S1x800000 ![1, 0] ei slices_S2x800000_S1x800000_1_0) shapeCasts_S1x800000_S800000⟩,
     ⟨S50000, iotaInDim S50000 32 0⟩] concatenates_S800000_S50000_S850000_d0

def wrapOf (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

def colIdx (v : IVec S850000 32) : IVec S850000x1 32 :=
  broadcastInDim S850000x1 ![0] bcast_S850000_S850000x1_0 v

def hOf (x : FVec Ideal S50000x128 .f32) (w : FVec Ideal S64x128 .f32) : FVec Ideal S50000x64 .f32 :=
  Host.dotGeneral (F := Ideal) dot_S50000x128_S128x64_S50000x64_1_0_0_1_n_n none x
    (transpose S128x64 [1, 0] w transposes_S64x128_S128x64_1_0)

def degOf (ei : IVec S2x800000 32) : FVec Ideal S50000 .f32 :=
  Host.scatterAdd (F := Ideal) scatter_S50000_S850000x1_S850000_n_0_0_1
    (broadcastInDim S50000 ![] bcast_S_S50000 (constant (F := Ideal) S_ .f32 0x00000000#32))
    (colIdx (colOf ei))
    (broadcastInDim S850000 ![] bcast_S_S850000 (constant (F := Ideal) S_ .f32 0x3F800000#32))

def disOf (ei : IVec S2x800000 32) : FVec Ideal S50000 .f32 :=
  select
    (cmpf (F := Ideal) .ogt (degOf ei) (broadcastInDim S50000 ![] bcast_S_S50000 (constant (F := Ideal) S_ .f32 0x00000000#32)))
    (Host.rsqrt (F := Ideal) (maximumf (F := Ideal) (degOf ei) (broadcastInDim S50000 ![] bcast_S_S50000 (constant (F := Ideal) S_ .f32 0x3F800000#32))))
    (broadcastInDim S50000 ![] bcast_S_S50000 (id (constant (F := Ideal) S_ .f32 0x00000000#32)))

def normOf (ei : IVec S2x800000 32) : FVec Ideal S850000 .f32 :=
  mulf (F := Ideal)
    (Host.gather gather_S50000_S850000x1_S850000_n_0_n_n_0_1_1 (disOf ei) (colIdx (wrapOf (rowOf ei))))
    (Host.gather gather_S50000_S850000x1_S850000_n_0_n_n_0_1_1 (disOf ei) (colIdx (wrapOf (colOf ei))))

def msgOf (x : FVec Ideal S50000x128 .f32) (ei : IVec S2x800000 32) (w : FVec Ideal S64x128 .f32) : FVec Ideal S850000x64 .f32 :=
  mulf (F := Ideal)
    (broadcastInDim S850000x64 ![0, 1] bcast_S850000x1_S850000x64_0_1
      (broadcastInDim S850000x1 ![0] bcast_S850000_S850000x1_0 (normOf ei)))
    (Host.gather gather_S50000x64_S850000x1_S850000x64_1_0_n_n_0_1_164 (hOf x w) (colIdx (wrapOf (rowOf ei))))

def aggOf (x : FVec Ideal S50000x128 .f32) (ei : IVec S2x800000 32) (w : FVec Ideal S64x128 .f32) : FVec Ideal S50000x64 .f32 :=
  Host.scatterAdd (F := Ideal) scatter_S50000x64_S850000x1_S850000x64_1_0_0_1
    (broadcastInDim S50000x64 ![] bcast_S_S50000x64 (constant (F := Ideal) S_ .f32 0x00000000#32))
    (colIdx (colOf ei))
    (msgOf x ei w)

def rowBcast (v : FVec Ideal S64 .f32) : FVec Ideal S50000x64 .f32 :=
  broadcastInDim S50000x64 ![0, 1] bcast_S1x64_S50000x64_0_1 (broadcastInDim S1x64 ![1] bcast_S64_S1x64_1 v)

def refOut (x : FVec Ideal S50000x128 .f32) (ei : IVec S2x800000 32) (w : FVec Ideal S64x128 .f32) (b : FVec Ideal S64 .f32) :
    FVec Ideal S50000x64 .f32 :=
  maximumf (F := Ideal) (addf (F := Ideal) (aggOf x ei w) (rowBcast b))
    (broadcastInDim S50000x64 ![] bcast_S_S50000x64 (constant (F := Ideal) S_ .f32 0x00000000#32))

def meanOf (o : FVec Ideal S50000x64 .f32) : FVec Ideal S64 .f32 :=
  Host.divf (F := Ideal)
    (Host.reduceAdd (F := Ideal) o (constant (F := Ideal) S_ .f32 0x00000000#32) reducesTo_S50000x64_S64_d0 h_S_)
    (broadcastInDim S64 ![] bcast_S_S64 (constant (F := Ideal) S_ .f32 0x47435000#32))

def varCount : FVec Ideal S_ .f32 :=
  subf (F := Ideal) (constant (F := Ideal) S_ .f32 0x47435000#32) (sitofp (F := Ideal) .f32 (constantI S_ 32 0#32))

def varOf (o : FVec Ideal S50000x64 .f32) : FVec Ideal S64 .f32 :=
  select
    (broadcastInDim S64 ![] bcast_S_S64 (cmpf (F := Ideal) .ogt varCount (constant (F := Ideal) S_ .f32 0x00000000#32)))
    (Host.divf (F := Ideal)
      (Host.reduceAdd (F := Ideal)
        (mulf (F := Ideal)
          (subf (F := Ideal) o
            (broadcastInDim S50000x64 ![0, 1] bcast_S1x64_S50000x64_0_1
              (Host.divf (F := Ideal)
                (broadcastInDim S1x64 ![1] bcast_S64_S1x64_1
                  (Host.reduceAdd (F := Ideal) o (constant (F := Ideal) S_ .f32 0x00000000#32) reducesTo_S50000x64_S64_d0 h_S_))
                (broadcastInDim S1x64 ![] bcast_S_S1x64 (constant (F := Ideal) S_ .f32 0x47435000#32)))))
          (subf (F := Ideal) o
            (broadcastInDim S50000x64 ![0, 1] bcast_S1x64_S50000x64_0_1
              (Host.divf (F := Ideal)
                (broadcastInDim S1x64 ![1] bcast_S64_S1x64_1
                  (Host.reduceAdd (F := Ideal) o (constant (F := Ideal) S_ .f32 0x00000000#32) reducesTo_S50000x64_S64_d0 h_S_))
                (broadcastInDim S1x64 ![] bcast_S_S1x64 (constant (F := Ideal) S_ .f32 0x47435000#32))))))
        (constant (F := Ideal) S_ .f32 0x00000000#32) reducesTo_S50000x64_S64_d0 h_S_)
      (broadcastInDim S64 ![] bcast_S_S64 varCount))
    (broadcastInDim S64 ![] bcast_S_S64 (id (constant (F := Ideal) S_ .f32 0x7FC00000#32)))

def bnTail (o : FVec Ideal S50000x64 .f32) (γ β : FVec Ideal S64 .f32) : FVec Ideal S50000x64 .f32 :=
  addf (F := Ideal)
    (mulf (F := Ideal)
      (mulf (F := Ideal) (rowBcast γ) (subf (F := Ideal) o (rowBcast (meanOf o))))
      (rowBcast (Host.rsqrt (F := Ideal)
        (addf (F := Ideal) (varOf o) (broadcastInDim S64 ![] bcast_S_S64 (constant (F := Ideal) S_ .f32 0x3727C5AC#32))))))
    (rowBcast β)

section Program

variable {F : FTy → Type} [FloatOps F]

theorem seq_step {op : HloOp τ sig (Elt F)} {l : List (HloOp τ sig (Elt F))}
    {p : Prog (TpuEff nD τ sig (Elt F) (Pipeline.Sig Λ₀ (Fin 0) fun p => (pcfgs (F := F) p).Adm) .tc) PUnit} (h : p = seq l) :
    (hlo (p := .tc) rfl op (fun _ => Prog.ret PUnit.unit) >>= fun _ => p) = seq (op :: l) := h ▸ rfl

-- the program's operations in order, read off the program itself
@[reducible] def prog0 : { l : List (HloOp τ sig (Elt F)) // ∀ c : Dev nD, main_part0 (F := F) c = seq l } := by
  apply Subtype.mk
  intro c
  dsimp only [main_part0, fn_where.body]
  repeat (first | apply seq_step | (rw [bind_assoc]; dsimp only) | rw [pure_bind] | exact (rfl : _ = seq []))

@[reducible] def prog1 : { l : List (HloOp τ sig (Elt F)) // ∀ c : Dev nD, main_part1 (F := F) c = seq l } := by
  apply Subtype.mk
  intro c
  dsimp only [main_part1, fn_relu.body, fn_var.body, fn_where_0.body]
  repeat (first | apply seq_step | (rw [bind_assoc]; dsimp only) | rw [pure_bind] | exact (rfl : _ = seq []))

theorem main_eq (c : Dev nD) : main (F := F) c = seq (prog0.1 ++ prog1.1) := by
  rw [seq_append, ← prog0.2 c, ← prog1.2 c]
  rfl

-- no operation's result reference is one of the seven argument references
theorem kept (r : Ref sig .tc) (V : Valuation τ sig (Elt F)) (hr : r.idx.val < 7 := by decide) :
    after (prog0.1 ++ prog1.1) V (Proc.devRef .tc r) = V (Proc.devRef .tc r) := by
  have ne : ∀ y : Ref sig .tc, ¬ y.idx.val < 7 → Proc.devRef (τ := τ) .tc r ∉ ({Proc.devRef .tc y} : Finset (DevRef τ sig)) :=
    fun y hy hm => hy (Proc.devRef_injective _ (Finset.mem_singleton.1 hm) ▸ hr)
  refine after_of_forall_not_mem _ V (List.forall_iff_forall_mem.1 ?_)
  simp only [List.forall_append, List.forall_cons, List.Forall, nullary_writes, unary_writes, binary_writes, ternary_writes,
    reshape_writes, and_true]
  and_intros <;> exact ne _ (by decide)

end Program

variable (V : Valuation τ sig (Elt Ideal))

theorem out1_eq : after (prog1 (F := Ideal)).1 V main_v69
    = bnTail (maximumf (F := Ideal) (addf (F := Ideal) (V main_v46) (broadcastInDim S50000x64 ![0, 1] bcast_S1x64_S50000x64_0_1 (V main_v47)))
        (broadcastInDim S50000x64 ![] bcast_S_S50000x64 (constant (F := Ideal) S_ .f32 0x00000000#32))) (V main_arg5) (V main_arg6) := by
  after_results_simp
  rfl

theorem out_eq : after ((prog0 (F := Ideal)).1 ++ prog1.1) V main_v69
    = bnTail (refOut (V main_arg0) (V main_arg1) (V main_arg3) (V main_arg4)) (V main_arg5) (V main_arg6) := by
  rw [after_append, out1_eq]
  after_results_simp
  unfold refOut aggOf msgOf normOf
  congr <;> rfl

theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread nD τ).loc main_v69)
          = bnTail (refOut (m ((c.tc : Thread nD τ).loc main_arg0)) (m ((c.tc : Thread nD τ).loc main_arg1)) (m ((c.tc : Thread nD τ).loc main_arg3)) (m ((c.tc : Thread nD τ).loc main_arg4)))
              (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_v69).trans (out_eq _),
      by and_intros <;> exact (h c _).trans (kept _ _)⟩)
    (run_seq (by decide) (by decide) defs main (fun _ => prog0.1 ++ prog1.1) main_eq
      (fun _ => by simp only [List.forall_append, List.forall_cons, List.Forall, nullary_bufs_sub, unary_bufs_sub,
        binary_bufs_sub, ternary_bufs_sub, reshape_bufs_sub, and_self]) m ρ)

theorem frame (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run m ρ)

end Cert.ReferenceIdeal.RefRun

end
-- ==== Proof.LinValue.lean ====
import proofs.«401429_j309237645711_3_alg».proof.Proof.KernelIdeal.Linear
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.LinValue

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b))

def linArr (x : FVec Ideal S50000x128 .f32) (w : FVec Ideal S64x128 .f32) (s : FVec Ideal S50000x1 .f32) :
    FVec Ideal S50000x64 .f32 :=
  fun i => (∑ d : Fin 128, x (ValueIdx.ix2 (i 0) d) * w (ValueIdx.ix2 (i 1) d)) * s (ValueIdx.ix2 (i 0) (0 : Fin 1))

-- the product accumulated from zero, at (p, q): the sum over the 128 inner positions
theorem prod_apply {φ₁ φ₂ : FTy} (a : FVec Ideal S2000x128 φ₁) (b : FVec Ideal S128x64 φ₂) (p : Fin 2000) (q : Fin 64) :
    matmul dot_S2000x128_S128x64_S2000x64_1_0_0_1_n_n none a b (constant (F := Ideal) S2000x64 .f32 0x00000000#32) (ValueIdx.ix2 p q)
      = ∑ k : Fin 128, a (ValueIdx.ix2 p k) * b (ValueIdx.ix2 k q) := by
  simp only [matmul]
  rw [Ideal.matmul_constant_zero_apply, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  refine congrArg₂ (· * ·) (congrArg a (funext fun x => Fin.ext ?_)) (congrArg b (funext fun x => Fin.ext ?_))
  · match x with
    | ⟨0, _⟩ => rfl
    | ⟨1, _⟩ => exact (DotDims.lhsIdx_val_of_single _ rfl _ _).trans hk
  · match x with
    | ⟨0, _⟩ => exact (DotDims.rhsIdx_val_of_single _ rfl _ _).trans hk
    | ⟨1, _⟩ => rfl

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ValueIdx.ix2 p c) = v (ValueIdx.ix2 p (0 : Fin 1)) := by
  refine broadcastTo_apply v h (ValueIdx.ix2 p c) (ValueIdx.ix2 p (0 : Fin 1)) fun ax => ?_
  match ax with
  | ⟨0, _⟩ =>
    show p.val = if a = 1 then 0 else p.val
    split
    · have := p.isLt; omega
    · rfl
  | ⟨1, _⟩ => rfl

theorem pay_apply (x0 : Vec Ideal S2000x128 .f32) (x1 : Vec Ideal S64x128 .f32) (x2 : Vec Ideal S2000x1 .f32)
    (p : Fin 2000) (q : Fin 64) :
    k0_pay1 x0 x1 x2 (ValueIdx.ix2 p q) = (∑ d : Fin 128, x0 (ValueIdx.ix2 p d) * x1 (ValueIdx.ix2 q d)) * x2 (ValueIdx.ix2 p (0 : Fin 1)) := by
  unfold k0_pay1
  refine (mulf_apply _ _ _).trans ?_
  refine congrArg₂ (· * ·) ?_ ?_
  · refine (prod_apply _ _ p q).trans ?_
    refine Finset.sum_congr rfl fun d _ => ?_
    refine congrArg₂ (· * ·) rfl ?_
    exact transpose_ix2_apply _ _ d q
  · refine (broadcastTo_a1_ab_apply _ _ p q).trans ?_
    rw [shapeCast_self]

theorem idx_facts : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem flushed_eq (c : Dev nD) (t : Fin cfg0.N) :
    (Lin.dat (F := Ideal) V c).flushed 3 t
      = ((cfg0.win 3).blk t).view.read (Elt Ideal) (linArr (V c main_arg0) (V c main_arg3) (V c main_v46)) := by
  show (cfg0.win 3).cut (grid0.coords t) ((Lin.dat (F := Ideal) V c).after 3 t) = _
  rw [Lin.after_3, Lin.out_eq]
  obtain ⟨o0, o1, x0, x1, w0, w1, s0, s1⟩ := idx_facts t
  funext j
  obtain ⟨p, q, rfl⟩ : ∃ (p : Fin 2000) (q : Fin 64), j = ValueIdx.ix2 p q := ⟨j 0, j 1, eq_ix2 j⟩
  refine (pay_apply _ _ _ p q).trans ?_
  show _ = linArr _ _ _ _
  unfold linArr
  refine congrArg₂ (· * ·) (Finset.sum_congr rfl fun d _ => congrArg₂ (· * ·) ?_ ?_) ?_
  · refine congrArg (V c main_arg0) (funext fun a => Fin.ext ?_)
    match a with
    | ⟨0, _⟩ => show win0_0.index t (0 : Fin 2) * 2000 + 1 * p.val = win0_3.index t (0 : Fin 2) * 2000 + 1 * p.val; omega
    | ⟨1, _⟩ => show win0_0.index t (1 : Fin 2) * 128 + 1 * d.val = d.val; omega
  · refine congrArg (V c main_arg3) (funext fun a => Fin.ext ?_)
    match a with
    | ⟨0, _⟩ => show win0_1.index t (0 : Fin 2) * 64 + 1 * q.val = win0_3.index t (1 : Fin 2) * 64 + 1 * q.val; omega
    | ⟨1, _⟩ => show win0_1.index t (1 : Fin 2) * 128 + 1 * d.val = d.val; omega
  · refine congrArg (V c main_v46) (funext fun a => Fin.ext ?_)
    match a with
    | ⟨0, _⟩ => show win0_2.index t (0 : Fin 2) * 2000 + 1 * p.val = win0_3.index t (0 : Fin 2) * 2000 + 1 * p.val; omega
    | ⟨1, _⟩ => show win0_2.index t (1 : Fin 2) * 1 + 1 * 0 = 0; omega

-- row r lies in block r / 2000
theorem cover (i : S50000x64.Idx) :
    ∃ t : Fin cfg0.N, (cfg0.win 3).flush t = true ∧ i ∈ ((cfg0.win 3).blk t).view.set := by
  have hi0 : (i 0).val < 50000 := (i 0).isLt
  obtain ⟨t, ht⟩ : ∃ t : Fin cfg0.N, t.val = (i 0).val / 2000 := ⟨⟨(i 0).val / 2000, by show (i 0).val / 2000 < 25; omega⟩, rfl⟩
  obtain ⟨o0, o1, -⟩ := idx_facts t
  have hy : i = ((cfg0.win 3).blk t).view.emb (ValueIdx.ix2 (⟨(i 0).val % 2000, Nat.mod_lt _ (by decide)⟩ : Fin 2000) (i 1)) := by
    refine funext fun a => Fin.ext ?_
    match a with
    | ⟨0, _⟩ => show (i 0).val = win0_3.index t (0 : Fin 2) * 2000 + 1 * ((i 0).val % 2000); omega
    | ⟨1, _⟩ => show (i 1).val = win0_3.index t (1 : Fin 2) * 64 + 1 * (i 1).val; omega
  rw [hy]
  exact ⟨t, flush0_3 t, ((cfg0.win 3).blk t).view.emb_mem_set _⟩

theorem lin_final (c : Dev nD) :
    (Lin.dat (F := Ideal) V c).arrAt 3 cfg0.N = linArr (V c main_arg0) (V c main_arg3) (V c main_v46) :=
  (Lin.dat (F := Ideal) V c).arrAt_eq_of_cover 3 (linArr (V c main_arg0) (V c main_arg3) (V c main_v46))
    (fun t _ => flushed_eq V c t) cover

end Cert.KernelIdeal.LinValue

end
-- ==== Proof.KHost.lean ====
import proofs.«401429_j309237645711_3_alg».proof.Proof.Gen.KernelIdeal.Regions
import Idealize.ShloMosaic.Lib.StableHlo.Run
import Idealize.ShloMosaic.Lib.StableHlo.Predicate
import Idealize.ShloMosaic.Lib.ValueIdx
import Idealize.ShloMosaic.Lib.SortFacts
import Idealize.ShloMosaic.Lib.Pipeline.Value
import Idealize.ShloMosaic.PureOps.Reduce

noncomputable section

namespace Cert.KernelIdeal.KHost

open Idealize.ShloMosaic Idealize.ShloMosaic.TcCoe Idealize.ShloMosaic.ValueIdx Idealize.ShloMosaic.StableHlo
open Idealize.SL.Sem

theorem ofFin_eq_ix1 {n : Nat} (k : Fin n) : Shape.Idx.ofFin k = ValueIdx.ix1 k := by
  funext d; match d with | ⟨0, _⟩ => exact Fin.ext rfl

theorem minsi_bound {w : Nat} (x y : BitVec w) :
    (IntOp.minsi x y).toInt ≤ x.toInt ∧ ∀ z : BitVec w, y.toInt ≤ z.toInt → (IntOp.minsi x y).toInt ≤ z.toInt := by
  unfold IntOp.minsi; split <;> rename_i h <;> rw [BitVec.slt_iff_toInt_lt] at h <;> constructor <;> intros <;> omega

theorem maxsi_bound {w : Nat} (x y : BitVec w) :
    x.toInt ≤ (IntOp.maxsi x y).toInt ∧ ∀ z : BitVec w, z.toInt ≤ y.toInt → z.toInt ≤ (IntOp.maxsi x y).toInt := by
  unfold IntOp.maxsi; split <;> rename_i h <;> rw [BitVec.slt_iff_toInt_lt] at h <;> constructor <;> intros <;> omega

-- If `op x y` is `P`-related to `x`, and to whatever `y` is `P`-related to, a fold by `op` is `P`-related to every element folded.
theorem fold_bound {ι : Type} [DecidableEq ι] {w : Nat} (op : BitVec w → BitVec w → BitVec w) [Std.Commutative op]
    [Std.Associative op] (P : BitVec w → BitVec w → Prop) (hP : ∀ x y, P (op x y) x ∧ ∀ z, P y z → P (op x y) z)
    (S : Finset ι) (f : ι → BitVec w) (b : BitVec w) : ∀ k ∈ S, P (S.fold op b f) (f k) := by
  induction S using Finset.induction_on with
  | empty => exact fun _ h => absurd h (Finset.notMem_empty _)
  | insert a s ha ih =>
    rw [Finset.fold_insert ha, Finset.forall_mem_insert]
    exact ⟨(hP _ _).1, fun k hk => (hP _ _).2 _ (ih k hk)⟩

-- A stable sort that carries the positions along returns, as words, the sorting permutation of the keys.
theorem sort2_iota_snd {n : Nat} (cmp : BitVec 32 × BitVec 32 → BitVec 32 × BitVec 32 → BitVec 1) (x : IVec ⟨1, ![n]⟩ 32) :
    (Host.sort2 ⟨1, ![n]⟩ 0 cmp x (iotaInDim ⟨1, ![n]⟩ 32 0)).2
      = fun j => BitVec.ofNat 32 (sortedFrom (fun k k' =>
          cmp (x (Shape.Idx.ofFin k), iotaInDim ⟨1, ![n]⟩ 32 0 (Shape.Idx.ofFin k))
            (x (Shape.Idx.ofFin k'), iotaInDim ⟨1, ![n]⟩ 32 0 (Shape.Idx.ofFin k')) == 1#1) (j 0)).val := by
  unfold Host.sort2
  rw [dif_pos (show 0 < (⟨1, ![n]⟩ : Shape).rank from Nat.one_pos)]
  funext j
  simp
  rfl

section Reduce
variable {N T L : Nat} (v : IVec ⟨1, ![N]⟩ 32) (init : IVec ⟨0, ![]⟩ 32)
  (hc : (⟨1, ![N]⟩ : Shape).ShapeCasts ⟨2, ![T, L]⟩) (hr' : (⟨2, ![T, L]⟩ : Shape).ReducesTo [1] ⟨1, ![T]⟩)
  (hr : (⟨2, ![T, L]⟩ : Shape).Reduces [1] ⟨1, ![T]⟩) (hu : 0 < (⟨0, ![]⟩ : Shape).numel) (t : Fin T) (l : Fin L)
  (hN : L * t.val + l.val < N)
include hr

-- The same for `N` words cut into `T` rows of `L` and reduced along each row: entry `L t + l` lies in row `t`.
theorem reduce_bound (op : BitVec 32 → BitVec 32 → BitVec 32) [Std.Commutative op] [Std.Associative op]
    (P : BitVec 32 → BitVec 32 → Prop) (hP : ∀ x y, P (op x y) x ∧ ∀ z, P y z → P (op x y) z) :
    P (Host.reduce op (shapeCast ⟨2, ![T, L]⟩ v hc) init hr' hu (ValueIdx.ix1 t)) (v (ValueIdx.ix1 ⟨L * t.val + l.val, hN⟩)) := by
  rw [Host.reduce_eq_fold_single op _ init hr' hr hu (ValueIdx.ix1 t)]
  refine (congrArg (P _) ?_).mp (fold_bound op P hP Finset.univ _ _ (l : Fin ((⟨2, ![T, L]⟩ : Shape).size 1)) (Finset.mem_univ _))
  refine shapeCast_apply v hc (hr.lift (ValueIdx.ix1 t) l) _ ?_
  rw [Shape.rowMajor_val_one, Shape.rowMajor_val_two]
  exact congrArg (· + l.val) (Nat.mul_comm L t.val)

end Reduce

def edgeRow (e : IVec S2x800000 32) : IVec S800000 32 :=
  shapeCast S800000 (extractStridedSlice S1x800000 ![0, 0] e Gen.slices_S2x800000_S1x800000_0_0) Gen.shapeCasts_S1x800000_S800000

def edgeCol (e : IVec S2x800000 32) : IVec S800000 32 :=
  shapeCast S800000 (extractStridedSlice S1x800000 ![1, 0] e Gen.slices_S2x800000_S1x800000_1_0) Gen.shapeCasts_S1x800000_S800000

def rowAll (e : IVec S2x800000 32) : IVec S850000 32 :=
  concatenate S850000 0 [⟨S800000, edgeRow e⟩, ⟨S50000, iotaInDim S50000 32 0⟩] Gen.concatenates_S800000_S50000_S850000_d0

def colAll (e : IVec S2x800000 32) : IVec S850000 32 :=
  concatenate S850000 0 [⟨S800000, edgeCol e⟩, ⟨S50000, iotaInDim S50000 32 0⟩] Gen.concatenates_S800000_S50000_S850000_d0

def sentinels : IVec S944 32 := broadcastInDim S944 ![] Gen.bcast_S_S944 (constantI S_ 32 57343#32)

def padTo (x : IVec S850000 32) : IVec S850944 32 :=
  concatenate S850944 0 [⟨S850000, x⟩, ⟨S944, sentinels⟩] Gen.concatenates_S850000_S944_S850944_d0

def rowPad (e : IVec S2x800000 32) : IVec S850944 32 := padTo (rowAll e)

def colPad (e : IVec S2x800000 32) : IVec S850944 32 := padTo (colAll e)

-- The word `w` at every position.
def fillI (w : BitVec 32) : IVec S850944 32 := broadcastInDim S850944 ![] Gen.bcast_S_S850944 (constantI S_ 32 w)

def floorDiv (x : IVec S850944 32) (d : IVec S_ 32) : IVec S850944 32 :=
  select
    (andi (cmpi .ne (signi x) (broadcastInDim S850944 ![] Gen.bcast_S_S850944 (signi d)))
      (cmpi .ne (Host.remsi x (broadcastInDim S850944 ![] Gen.bcast_S_S850944 d)) (fillI 0#32)))
    (subi (Host.divsi x (broadcastInDim S850944 ![] Gen.bcast_S_S850944 d)) (fillI 1#32))
    (Host.divsi x (broadcastInDim S850944 ![] Gen.bcast_S_S850944 d))

-- The sort key of a row word list and a column word list, both padded.
def keyOf (r cl : IVec S850000 32) : IVec S850944 32 :=
  addi (muli (floorDiv (padTo r) (constantI S_ 32 4096#32)) (fillI 57344#32)) (padTo cl)

def perm (e : IVec S2x800000 32) : Fin 850944 → Fin 850944 :=
  sortedFrom fun k k' =>
    comparator_i32_i32_d0 (keyOf (rowAll e) (colAll e) (Shape.Idx.ofFin k), iotaInDim S850944 32 0 (Shape.Idx.ofFin k))
      (keyOf (rowAll e) (colAll e) (Shape.Idx.ofFin k'), iotaInDim S850944 32 0 (Shape.Idx.ofFin k')) == 1#1

theorem perm_bijective (e : IVec S2x800000 32) : Function.Bijective (perm e) :=
  ⟨sortedFrom_injective _, sortedFrom_surjective _⟩

def takeBy (x p : IVec S850944 32) : IVec S850944 32 :=
  Host.gather gather_S850944_S850944x1_S850944_n_0_n_n_0_1_1 x
    (broadcastInDim S850944x1 ![0] Gen.bcast_S850944_S850944x1_0
      (select (cmpi .slt p (fillI 0#32)) (addi p (fillI 850944#32)) p))

-- The positions the sort returns for that key.
def posOf (r cl : IVec S850000 32) : IVec S850944 32 :=
  (Host.sort2 S850944 0 comparator_i32_i32_d0 (keyOf r cl) (iotaInDim S850944 32 0)).2

def rowS (e : IVec S2x800000 32) : IVec S850944 32 := fun j => rowPad e (ValueIdx.ix1 (perm e (j 0)))

def colS (e : IVec S2x800000 32) : IVec S850944 32 := fun j => colPad e (ValueIdx.ix1 (perm e (j 0)))

def blockMin (v : IVec S850944 32) : IVec S831 32 :=
  Host.reduce IntOp.minsi (shapeCast S831x1024 v Gen.shapeCasts_S850944_S831x1024) (constantI S_ 32 2147483647#32)
    Gen.reducesTo_S831x1024_S831_d1 Gen.h_S_

def blockMax (v : IVec S850944 32) : IVec S831 32 :=
  Host.reduce IntOp.maxsi (shapeCast S831x1024 v Gen.shapeCasts_S850944_S831x1024) (constantI S_ 32 2147483648#32)
    Gen.reducesTo_S831x1024_S831_d1 Gen.h_S_

def degK (e : IVec S2x800000 32) : FVec Ideal S50000 .f32 :=
  Host.scatterAdd scatter_S50000_S850000x1_S850000_n_0_0_1
    (broadcastInDim S50000 ![] Gen.bcast_S_S50000 (constant (F := Ideal) S_ .f32 0x00000000#32))
    (broadcastInDim S850000x1 ![0] Gen.bcast_S850000_S850000x1_0 (colAll e))
    (broadcastInDim S850000 ![] Gen.bcast_S_S850000 (constant (F := Ideal) S_ .f32 0x3F800000#32))

def disK (e : IVec S2x800000 32) : FVec Ideal S50000 .f32 :=
  select (cmpf .ogt (degK e) (broadcastInDim S50000 ![] Gen.bcast_S_S50000 (constant (F := Ideal) S_ .f32 0x00000000#32)))
    (Host.rsqrt (maximumf (degK e) (broadcastInDim S50000 ![] Gen.bcast_S_S50000 (constant (F := Ideal) S_ .f32 0x3F800000#32))))
    (broadcastInDim S50000 ![] Gen.bcast_S_S50000 (constant (F := Ideal) S_ .f32 0x00000000#32))

theorem padTo_lt (x : IVec S850000 32) (k : Fin 850944) (h : k.val < 850000) :
    padTo x (ValueIdx.ix1 k) = x (ValueIdx.ix1 ⟨k.val, h⟩) := by
  unfold padTo
  exact concatenate_pair_apply_left (0 : Fin 1) x sentinels Gen.concatenates_S850000_S944_S850944_d0 (ValueIdx.ix1 k) rfl
    (ValueIdx.ix1 ⟨k.val, h⟩) (fun b => by match b with | ⟨0, _⟩ => rfl)

theorem padTo_ge (x : IVec S850000 32) (k : Fin 850944) (h : 850000 ≤ k.val) : padTo x (ValueIdx.ix1 k) = 57343#32 := by
  unfold padTo
  exact concatenate_pair_apply_right (0 : Fin 1) x sentinels Gen.concatenates_S850000_S944_S850944_d0 (ValueIdx.ix1 k) rfl rfl
    (ValueIdx.ix1 ⟨k.val - 850000, by have := k.isLt; omega⟩) (fun b hb => absurd (Subsingleton.elim _ _) hb)
    (by show k.val - 850000 + 850000 = k.val; omega)

-- Reading `x` through in-range positions: position `k` of the result is `x` at the position stored at `k`.
theorem takeBy_apply (x p : IVec S850944 32) (k q : Fin 850944) (hp : p (ValueIdx.ix1 k) = BitVec.ofNat 32 q.val) :
    takeBy x p (ValueIdx.ix1 k) = x (ValueIdx.ix1 q) := by
  have hq : q.val < 2 ^ 31 := by have := q.isLt; omega
  have hc : IntOp.cmpi .slt (BitVec.ofNat 32 q.val) 0#32 = 0#1 :=
    eq_zero_of_ne_one fun h1 => Nat.not_lt_zero _ ((Predicate.slt_ofNat_iff q.val 0 hq (by decide)).mp h1)
  unfold takeBy
  rw [← ofFin_eq_ix1 k, Predicate.gather_take gather_S850944_S850944x1_S850944_n_0_n_n_0_1_1 rfl rfl rfl rfl x _ k (by decide),
    ofFin_eq_ix1]
  refine congrArg x (congrArg ValueIdx.ix1 (Fin.ext ?_))
  dsimp only
  rw [Predicate.bcast_col1, ofFin_eq_ix1]
  show min (BitVec.toInt (Scalar.select (IntOp.cmpi .slt (p (ValueIdx.ix1 k)) 0#32) _ (p (ValueIdx.ix1 k)))).toNat _ = _
  rw [hp, hc, select_zero, Predicate.toInt_ofNat_small q.val hq, Int.toNat_natCast]
  have := q.isLt
  omega

theorem take_pos (x : IVec S850944 32) (e : IVec S2x800000 32) :
    takeBy x (posOf (rowAll e) (colAll e)) = fun j => x (ValueIdx.ix1 (perm e (j 0))) := by
  funext j
  obtain ⟨k, rfl⟩ : ∃ k, j = ValueIdx.ix1 k := ⟨j 0, eq_ix1 j⟩
  exact takeBy_apply x _ k (perm e k) (congrFun (sort2_iota_snd comparator_i32_i32_d0 (keyOf (rowAll e) (colAll e))) _)

attribute [irreducible] perm

section Stages
variable (W : Valuation τ sig (Elt Ideal))

theorem s0_v3 : (StableHlo.after Gen.hostOps0 W (Proc.devRef .tc main_v3) : IVec S850000 32)
    = rowAll (W (Proc.devRef .tc main_arg1)) := by
  after_results <;> rfl

theorem s0_v6 : (StableHlo.after Gen.hostOps0 W (Proc.devRef .tc main_v6) : IVec S850000 32)
    = colAll (W (Proc.devRef .tc main_arg1)) := by
  after_results <;> rfl

theorem s0_dis : select (StableHlo.after Gen.hostOps0 W (Proc.devRef .tc main_v12) : IVec S50000 1)
      (StableHlo.after Gen.hostOps0 W (Proc.devRef .tc main_v15) : FVec Ideal S50000 .f32)
      (broadcastInDim S50000 ![] Gen.bcast_S_S50000 (StableHlo.after Gen.hostOps0 W (Proc.devRef .tc main_cst_3) : FVec Ideal S_ .f32))
    = disK (W (Proc.devRef .tc main_arg1)) := by
  after_results <;> rfl

theorem s1_v16 : (StableHlo.after Gen.hostOps0_1 W (Proc.devRef .tc main_v16) : FVec Ideal S50000 .f32)
    = select (W (Proc.devRef .tc main_v12) : IVec S50000 1) (W (Proc.devRef .tc main_v15) : FVec Ideal S50000 .f32)
        (broadcastInDim S50000 ![] Gen.bcast_S_S50000 (W (Proc.devRef .tc main_cst_3) : FVec Ideal S_ .f32)) := by
  after_results <;> rfl

-- The values the last five operation lists leave, started from the values `W`.
abbrev late : Valuation τ sig (Elt Ideal) :=
  StableHlo.after Gen.hostOps0_6 (StableHlo.after Gen.hostOps0_5 (StableHlo.after Gen.hostOps0_4 (StableHlo.after Gen.hostOps0_3
    (StableHlo.after Gen.hostOps0_2 W))))

section
variable {r cl : IVec S850000 32} (h3 : W (Proc.devRef .tc main_v3) = r) (h6 : W (Proc.devRef .tc main_v6) = cl)
include h3 h6

theorem s6_v39 : (late W (Proc.devRef .tc main_v39) : IVec S850944 32) = takeBy (padTo r) (posOf r cl) := by
  subst h3 h6; after_results_simp <;> rfl

theorem s6_v32 : (late W (Proc.devRef .tc main_v32) : IVec S850944 32) = takeBy (padTo cl) (posOf r cl) := by
  subst h3 h6; after_results_simp <;> rfl

theorem s6_v42 : (late W (Proc.devRef .tc main_v42) : IVec S831 32) = blockMin (takeBy (padTo r) (posOf r cl)) := by
  subst h3 h6; after_results_simp <;> rfl

theorem s6_v43 : (late W (Proc.devRef .tc main_v43) : IVec S831 32) = blockMax (takeBy (padTo r) (posOf r cl)) := by
  subst h3 h6; after_results_simp <;> rfl

theorem s6_v44 : (late W (Proc.devRef .tc main_v44) : IVec S831 32) = blockMin (takeBy (padTo cl) (posOf r cl)) := by
  subst h3 h6; after_results_simp <;> rfl

theorem s6_v45 : (late W (Proc.devRef .tc main_v45) : IVec S831 32) = blockMax (takeBy (padTo cl) (posOf r cl)) := by
  subst h3 h6; after_results_simp <;> rfl

end

section
variable {d : FVec Ideal S50000 .f32} (h16 : W (Proc.devRef .tc main_v16) = d)
include h16

theorem s6_v46 : (late W (Proc.devRef .tc main_v46) : FVec Ideal S50000x1 .f32)
    = shapeCast S50000x1 d Gen.shapeCasts_S50000_S50000x1 := by
  subst h16; after_results_simp <;> rfl

theorem s6_v16 : (late W (Proc.devRef .tc main_v16) : FVec Ideal S50000 .f32) = d := by
  subst h16; after_results_simp

end

end Stages

section Entry
variable (m : (ℓ : Loc nD τ sig) → Buf (Elt Ideal) ℓ) (c : Dev nD)

abbrev edgeIndex : IVec S2x800000 32 := Gen.V0 m c (Proc.devRef .tc main_arg1)

theorem v3_eq : (Gen.V2 m c (Proc.devRef .tc main_v3) : IVec S850000 32) = rowAll (edgeIndex m c) :=
  (Gen.V2_of m c main_v3 (by decide)).trans (s0_v3 (Gen.V0 m c))

theorem v6_eq : (Gen.V2 m c (Proc.devRef .tc main_v6) : IVec S850000 32) = colAll (edgeIndex m c) :=
  (Gen.V2_of m c main_v6 (by decide)).trans (s0_v6 (Gen.V0 m c))

theorem rowS_eq : (Gen.V7 m c (Proc.devRef .tc main_v39) : IVec S850944 32) = rowS (edgeIndex m c) :=
  (s6_v39 (Gen.V2 m c) (v3_eq m c) (v6_eq m c)).trans (take_pos _ _)

theorem colS_eq : (Gen.V7 m c (Proc.devRef .tc main_v32) : IVec S850944 32) = colS (edgeIndex m c) :=
  (s6_v32 (Gen.V2 m c) (v3_eq m c) (v6_eq m c)).trans (take_pos _ _)

theorem tbl42_eq : (Gen.V7 m c (Proc.devRef .tc main_v42) : IVec S831 32) = blockMin (rowS (edgeIndex m c)) :=
  (s6_v42 (Gen.V2 m c) (v3_eq m c) (v6_eq m c)).trans (congrArg blockMin (take_pos _ _))

theorem tbl43_eq : (Gen.V7 m c (Proc.devRef .tc main_v43) : IVec S831 32) = blockMax (rowS (edgeIndex m c)) :=
  (s6_v43 (Gen.V2 m c) (v3_eq m c) (v6_eq m c)).trans (congrArg blockMax (take_pos _ _))

theorem tbl44_eq : (Gen.V7 m c (Proc.devRef .tc main_v44) : IVec S831 32) = blockMin (colS (edgeIndex m c)) :=
  (s6_v44 (Gen.V2 m c) (v3_eq m c) (v6_eq m c)).trans (congrArg blockMin (take_pos _ _))

theorem tbl45_eq : (Gen.V7 m c (Proc.devRef .tc main_v45) : IVec S831 32) = blockMax (colS (edgeIndex m c)) :=
  (s6_v45 (Gen.V2 m c) (v3_eq m c) (v6_eq m c)).trans (congrArg blockMax (take_pos _ _))

theorem v16_eq2 : (Gen.V2 m c (Proc.devRef .tc main_v16) : FVec Ideal S50000 .f32) = disK (edgeIndex m c) :=
  (s1_v16 (Gen.V1 m c)).trans (s0_dis (Gen.V0 m c))

theorem dis16_eq : (Gen.V7 m c (Proc.devRef .tc main_v16) : FVec Ideal S50000 .f32) = disK (edgeIndex m c) :=
  s6_v16 (Gen.V2 m c) (v16_eq2 m c)

theorem dis_eq : (Gen.V7 m c (Proc.devRef .tc main_v46) : FVec Ideal S50000x1 .f32)
    = shapeCast S50000x1 (disK (edgeIndex m c)) Gen.shapeCasts_S50000_S50000x1 :=
  s6_v46 (Gen.V2 m c) (v16_eq2 m c)

end Entry

end Cert.KernelIdeal.KHost

end
-- ==== Proof.KHostTables.lean ====
import proofs.«401429_j309237645711_3_alg».proof.Proof.KHost

noncomputable section

namespace Cert.KernelIdeal.KHostTables

open Cert.KernelIdeal Cert.KernelIdeal.KHost
open Idealize.ShloMosaic Idealize.ShloMosaic.TcCoe Idealize.ShloMosaic.ValueIdx Idealize.ShloMosaic.StableHlo
open Idealize.SL.Sem

theorem block_bounds (v : IVec S850944 32) (t : Fin 831) (l : Fin 1024) :
    (blockMin v (ValueIdx.ix1 t)).toInt
        ≤ (v (ValueIdx.ix1 ⟨1024 * t.val + l.val, by have := t.isLt; have := l.isLt; omega⟩)).toInt
      ∧ (v (ValueIdx.ix1 ⟨1024 * t.val + l.val, by have := t.isLt; have := l.isLt; omega⟩)).toInt
        ≤ (blockMax v (ValueIdx.ix1 t)).toInt :=
  ⟨reduce_bound v _ Gen.shapeCasts_S850944_S831x1024 Gen.reducesTo_S831x1024_S831_d1 (by decide) Gen.h_S_ t l _ IntOp.minsi
      (fun a b => a.toInt ≤ b.toInt) minsi_bound,
    reduce_bound v _ Gen.shapeCasts_S850944_S831x1024 Gen.reducesTo_S831x1024_S831_d1 (by decide) Gen.h_S_ t l _ IntOp.maxsi
      (fun a b => b.toInt ≤ a.toInt) maxsi_bound⟩

variable (m : (ℓ : Loc nD τ sig) → Buf (Elt Ideal) ℓ) (c : Dev nD)

theorem rowTables (t : Fin 831) (l : Fin 1024) :
    ((Gen.V7 m c (Proc.devRef .tc main_v42) : IVec S831 32) (ValueIdx.ix1 t)).toInt
        ≤ (rowS (edgeIndex m c) (ValueIdx.ix1 ⟨1024 * t.val + l.val, by have := t.isLt; have := l.isLt; omega⟩)).toInt
      ∧ (rowS (edgeIndex m c) (ValueIdx.ix1 ⟨1024 * t.val + l.val, by have := t.isLt; have := l.isLt; omega⟩)).toInt
        ≤ ((Gen.V7 m c (Proc.devRef .tc main_v43) : IVec S831 32) (ValueIdx.ix1 t)).toInt := by
  rw [tbl42_eq m c, tbl43_eq m c]; exact block_bounds _ t l

theorem colTables (t : Fin 831) (l : Fin 1024) :
    ((Gen.V7 m c (Proc.devRef .tc main_v44) : IVec S831 32) (ValueIdx.ix1 t)).toInt
        ≤ (colS (edgeIndex m c) (ValueIdx.ix1 ⟨1024 * t.val + l.val, by have := t.isLt; have := l.isLt; omega⟩)).toInt
      ∧ (colS (edgeIndex m c) (ValueIdx.ix1 ⟨1024 * t.val + l.val, by have := t.isLt; have := l.isLt; omega⟩)).toInt
        ≤ ((Gen.V7 m c (Proc.devRef .tc main_v45) : IVec S831 32) (ValueIdx.ix1 t)).toInt := by
  rw [tbl44_eq m c, tbl45_eq m c]; exact block_bounds _ t l

end Cert.KernelIdeal.KHostTables

end
-- ==== Proof.GatherPayload.lean ====
import proofs.«401429_j309237645711_3_alg».proof.Proof.Gen.KernelIdeal.Skeleton
import Idealize.ShloMosaic.Lib.ValueLayout
import Idealize.ShloMosaic.Lib.StackMember

noncomputable section

namespace Cert.KernelIdeal.GatherPayload

open Idealize.ShloMosaic Idealize.ShloMosaic.ValueIdx Idealize.ShloMosaic.StackMember
open Cert.KernelIdeal Cert.KernelIdeal.Gen

-- A column broadcast along its rows reads, at (p, c), the column's entry at p.
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ValueIdx.ix2 p c) = v (ValueIdx.ix2 p (0 : Fin 1)) :=
  broadcastTo_apply v h _ _ fun ax => by
    match ax with
    | ⟨0, _⟩ => show p.val = if a = 1 then 0 else p.val; split <;> omega
    | ⟨1, _⟩ => rfl

-- The equality bit of two words, widened and converted, is the indicator of their equality.
theorem onehot_word (x y : BitVec 32) :
    (FloatOps.sitofp (F := Ideal) .f32 ((IntOp.cmpi .eq x y).setWidth 32) : EReal) = if x = y then 1 else 0 := by
  show ((((BitVec.ofBool (x == y)).setWidth 32).toInt : ℝ) : EReal) = _
  rw [toInt_setWidth_bit, BitVec.toNat_ofBool]
  by_cases h : x = y <;> simp [h]

-- One block, first node number c: entry (e, k) is the running sum plus the feature rows picked by the indicator row of edge e.
theorem block_apply (c : ℕ) (rows : IVec S1024x1 32) (hs : FVec Ideal S4096x64 .f32) (acc : FVec Ideal S1024x64 .f32)
    (e : Fin 1024) {w : BitVec 32} (hw : rows (ValueIdx.ix2 e (0 : Fin 1)) = w) (k : Fin 64) :
    shapeCast S1024x64 (addf acc (matmul dot_S1024x4096_S4096x64_S1024x64_1_0_0_1_n_n none
        (truncf .bf16 (sitofp (F := Ideal) .f32 (extui 32 (cmpi .eq (broadcastTo S1024x4096 rows broadcasts_S1024x1_S1024x4096)
          (broadcastTo S1024x4096 (addi (broadcast S1x4096 (BitVec.ofNat 32 c)) (iota .tc S1x4096 32 [1] iota_S1x4096_d1_w32))
            broadcasts_S1x4096_S1024x4096)) natLt_1_32)) bitsLt_bf16_f32)
        (truncf .bf16 (shapeCast S4096x64 hs shapeCasts_S4096x64_S4096x64) bitsLt_bf16_f32)
        (constant (F := Ideal) S1024x64 .f32 0x00000000#32))) shapeCasts_S1024x64_S1024x64 (ValueIdx.ix2 e k)
      = acc (ValueIdx.ix2 e k) + ∑ l : Fin 4096, (if w = BitVec.ofNat 32 (c + l.val) then (1 : EReal) else 0) * hs (ValueIdx.ix2 l k) := by
  subst hw
  rw [shapeCast_self, shapeCast_self, addf_apply, matmul_zero_eq_dotGeneral]
  refine congrArg (acc (ValueIdx.ix2 e k) + ·) ((dotGeneral_plain_apply none _ _ e k).trans (Finset.sum_congr rfl fun l _ => ?_))
  show (FloatOps.sitofp (F := Ideal) .f32 ((IntOp.cmpi .eq (broadcastTo S1024x4096 rows _ (ValueIdx.ix2 e l))
      (broadcastTo S1024x4096 (addi _ _) _ (ValueIdx.ix2 e l))).setWidth 32) : EReal) * hs (ValueIdx.ix2 l k) = _
  rw [onehot_word, broadcastTo_a1_ab_apply, broadcastTo_1b_ab_apply, BitVec.ofNat_add,
    ← iota_single_apply .tc S1x4096 32 1 iota_S1x4096_d1_w32 (ValueIdx.ix2 (0 : Fin 1) l)]
  rfl

theorem k1_pay4_apply (i : S1024x64.Idx) : k1_pay4 (F := Ideal) i = 0 := by
  unfold k1_pay4
  rw [shapeCast_self, broadcast_apply]
  exact Ideal.ofBits_zero_f32

section
variable (rows : Vec Ideal S1024 .i32) (hs : Vec Ideal S4096x64 .f32) (acc : Vec Ideal S1024x64 .f32) (e : Fin 1024) (k : Fin 64)

theorem k1_pay5_apply : k1_pay5 (F := Ideal) rows (ValueIdx.ix2 e (0 : Fin 1)) = rows (ValueIdx.ix1 e) :=
  (shapeCast_apply _ _ (ValueIdx.ix2 e (0 : Fin 1)) (ValueIdx.ix1 e) (by
    rw [Shape.rowMajor_val_one, Shape.rowMajor_val_two]; exact (Nat.mul_one e.val).symm)).trans
    (congrFun (shapeCast_self rows _) _)

theorem k1_pay6_apply : k1_pay6 (F := Ideal) rows hs acc (ValueIdx.ix2 e k) = acc (ValueIdx.ix2 e k) + ∑ l : Fin 4096,
    (if rows (ValueIdx.ix1 e) = BitVec.ofNat 32 (4096 * 0 + l.val) then (1 : EReal) else 0) * hs (ValueIdx.ix2 l k) :=
  block_apply 0 (k1_pay5 rows) hs acc e (k1_pay5_apply rows e) k

theorem k1_pay7_apply : k1_pay7 (F := Ideal) rows hs acc (ValueIdx.ix2 e k) = acc (ValueIdx.ix2 e k) + ∑ l : Fin 4096,
    (if rows (ValueIdx.ix1 e) = BitVec.ofNat 32 (4096 * 1 + l.val) then (1 : EReal) else 0) * hs (ValueIdx.ix2 l k) :=
  block_apply 4096 (k1_pay5 rows) hs acc e (k1_pay5_apply rows e) k

theorem k1_pay8_apply : k1_pay8 (F := Ideal) rows hs acc (ValueIdx.ix2 e k) = acc (ValueIdx.ix2 e k) + ∑ l : Fin 4096,
    (if rows (ValueIdx.ix1 e) = BitVec.ofNat 32 (4096 * 2 + l.val) then (1 : EReal) else 0) * hs (ValueIdx.ix2 l k) :=
  block_apply 8192 (k1_pay5 rows) hs acc e (k1_pay5_apply rows e) k

theorem k1_pay9_apply : k1_pay9 (F := Ideal) rows hs acc (ValueIdx.ix2 e k) = acc (ValueIdx.ix2 e k) + ∑ l : Fin 4096,
    (if rows (ValueIdx.ix1 e) = BitVec.ofNat 32 (4096 * 3 + l.val) then (1 : EReal) else 0) * hs (ValueIdx.ix2 l k) :=
  block_apply 12288 (k1_pay5 rows) hs acc e (k1_pay5_apply rows e) k

end

section
variable (rows : IVec S1024x1 32) (hs : Vec Ideal S4096x64 .f32) (acc : Vec Ideal S1024x64 .f32) (e : Fin 1024) (k : Fin 64)

theorem k1_pay10_apply : k1_pay10 (F := Ideal) rows hs acc (ValueIdx.ix2 e k) = acc (ValueIdx.ix2 e k) + ∑ l : Fin 4096,
    (if rows (ValueIdx.ix2 e (0 : Fin 1)) = BitVec.ofNat 32 (4096 * 4 + l.val) then (1 : EReal) else 0) * hs (ValueIdx.ix2 l k) :=
  block_apply 16384 rows hs acc e rfl k

theorem k1_pay11_apply : k1_pay11 (F := Ideal) rows hs acc (ValueIdx.ix2 e k) = acc (ValueIdx.ix2 e k) + ∑ l : Fin 4096,
    (if rows (ValueIdx.ix2 e (0 : Fin 1)) = BitVec.ofNat 32 (4096 * 5 + l.val) then (1 : EReal) else 0) * hs (ValueIdx.ix2 l k) :=
  block_apply 20480 rows hs acc e rfl k

theorem k1_pay12_apply : k1_pay12 (F := Ideal) rows hs acc (ValueIdx.ix2 e k) = acc (ValueIdx.ix2 e k) + ∑ l : Fin 4096,
    (if rows (ValueIdx.ix2 e (0 : Fin 1)) = BitVec.ofNat 32 (4096 * 6 + l.val) then (1 : EReal) else 0) * hs (ValueIdx.ix2 l k) :=
  block_apply 24576 rows hs acc e rfl k

theorem k1_pay13_apply : k1_pay13 (F := Ideal) rows hs acc (ValueIdx.ix2 e k) = acc (ValueIdx.ix2 e k) + ∑ l : Fin 4096,
    (if rows (ValueIdx.ix2 e (0 : Fin 1)) = BitVec.ofNat 32 (4096 * 7 + l.val) then (1 : EReal) else 0) * hs (ValueIdx.ix2 l k) :=
  block_apply 28672 rows hs acc e rfl k

theorem k1_pay14_apply : k1_pay14 (F := Ideal) rows hs acc (ValueIdx.ix2 e k) = acc (ValueIdx.ix2 e k) + ∑ l : Fin 4096,
    (if rows (ValueIdx.ix2 e (0 : Fin 1)) = BitVec.ofNat 32 (4096 * 8 + l.val) then (1 : EReal) else 0) * hs (ValueIdx.ix2 l k) :=
  block_apply 32768 rows hs acc e rfl k

theorem k1_pay15_apply : k1_pay15 (F := Ideal) rows hs acc (ValueIdx.ix2 e k) = acc (ValueIdx.ix2 e k) + ∑ l : Fin 4096,
    (if rows (ValueIdx.ix2 e (0 : Fin 1)) = BitVec.ofNat 32 (4096 * 9 + l.val) then (1 : EReal) else 0) * hs (ValueIdx.ix2 l k) :=
  block_apply 36864 rows hs acc e rfl k

theorem k1_pay16_apply : k1_pay16 (F := Ideal) rows hs acc (ValueIdx.ix2 e k) = acc (ValueIdx.ix2 e k) + ∑ l : Fin 4096,
    (if rows (ValueIdx.ix2 e (0 : Fin 1)) = BitVec.ofNat 32 (4096 * 10 + l.val) then (1 : EReal) else 0) * hs (ValueIdx.ix2 l k) :=
  block_apply 40960 rows hs acc e rfl k

theorem k1_pay1_apply : k1_pay1 (F := Ideal) rows hs acc (ValueIdx.ix2 e k) = acc (ValueIdx.ix2 e k) + ∑ l : Fin 4096,
    (if rows (ValueIdx.ix2 e (0 : Fin 1)) = BitVec.ofNat 32 (4096 * 11 + l.val) then (1 : EReal) else 0) * hs (ValueIdx.ix2 l k) :=
  block_apply 45056 rows hs acc e rfl k

theorem k1_pay2_apply : k1_pay2 (F := Ideal) rows hs acc (ValueIdx.ix2 e k) = acc (ValueIdx.ix2 e k) + ∑ l : Fin 4096,
    (if rows (ValueIdx.ix2 e (0 : Fin 1)) = BitVec.ofNat 32 (4096 * 12 + l.val) then (1 : EReal) else 0) * hs (ValueIdx.ix2 l k) :=
  block_apply 49152 rows hs acc e rfl k

theorem k1_pay3_apply : k1_pay3 (F := Ideal) rows hs acc (ValueIdx.ix2 e k) = acc (ValueIdx.ix2 e k) + ∑ l : Fin 4096,
    (if rows (ValueIdx.ix2 e (0 : Fin 1)) = BitVec.ofNat 32 (4096 * 13 + l.val) then (1 : EReal) else 0) * hs (ValueIdx.ix2 l k) :=
  block_apply 53248 rows hs acc e rfl k

end

end Cert.KernelIdeal.GatherPayload

end
-- ==== Proof.Blocks.lean ====
import Mathlib.Data.EReal.Basic
import Mathlib.Algebra.BigOperators.Group.Finset.Basic
import Mathlib.Algebra.BigOperators.Fin
import Mathlib.Algebra.BigOperators.Intervals
import Mathlib.Data.Fintype.BigOperators

namespace Cert.Blocks

open Finset

theorem toInt_ofNat_small (n : ℕ) (hn : n < 2 ^ 31) : (BitVec.ofNat 32 n).toInt = (n : ℤ) := by
  rw [BitVec.toInt_eq_toNat_cond, BitVec.toNat_ofNat]
  omega

theorem skip_of_range (w mn mx : BitVec 32) (lo B : ℕ) (hB : lo + B ≤ 2 ^ 31)
    (hmn : mn.toInt ≤ w.toInt) (hmx : w.toInt ≤ mx.toInt)
    (hno : ¬ (mx.toInt ≥ (lo : ℤ) ∧ mn.toInt ≤ (lo : ℤ) + (B : ℤ) - 1)) :
    ∀ l : Fin B, w ≠ BitVec.ofNat 32 (lo + l.val) := by
  intro l hw
  have hl := l.isLt
  have hval : w.toInt = ((lo + l.val : ℕ) : ℤ) := by rw [hw]; exact toInt_ofNat_small _ (by omega)
  exact hno ⟨by omega, by omega⟩

theorem onehot_mul (p : Prop) [Decidable p] (x : EReal) :
    (if p then (1 : EReal) else 0) * x = if p then x else 0 := by
  rw [ite_mul, one_mul, zero_mul]

theorem foldl_add_eq {α ι : Type} [AddCommMonoid α] (l : List ι) (g : ι → α) (a0 : α) :
    l.foldl (fun acc j => acc + g j) a0 = a0 + (l.map g).sum := by
  induction l generalizing a0 with
  | nil => rw [List.foldl_nil, List.map_nil, List.sum_nil, add_zero]
  | cons x xs ih => rw [List.foldl_cons, ih, List.map_cons, List.sum_cons, add_assoc]

theorem fold_cond_sum {α : Type} [AddCommMonoid α] (n : ℕ) (take : Fin n → Prop)
    [DecidablePred take] (S : Fin n → α) (a0 : α) :
    (List.finRange n).foldl (fun acc j => if take j then acc + S j else acc) a0
      = a0 + ∑ j, if take j then S j else 0 := by
  have hfun : (fun (acc : α) (j : Fin n) => if take j then acc + S j else acc)
      = fun acc j => acc + (if take j then S j else 0) := by
    funext acc j
    split <;> simp
  rw [hfun, foldl_add_eq (List.finRange n) (fun j => if take j then S j else 0) a0,
    Fin.sum_univ_def]

theorem sum_blocks {α : Type} [AddCommMonoid α] (B nb : ℕ) (T : ℕ → α) :
    (∑ j : Fin nb, ∑ l : Fin B, T (B * j.val + l.val)) = ∑ e : Fin (B * nb), T e.val := by
  rw [Fin.sum_univ_eq_sum_range (fun j => ∑ l : Fin B, T (B * j + l.val)) nb,
    Fin.sum_univ_eq_sum_range T (B * nb)]
  induction nb with
  | zero => rw [Finset.sum_range_zero, Nat.mul_zero, Finset.sum_range_zero]
  | succ m ih =>
    rw [Finset.sum_range_succ, ih, Nat.mul_add_one, Finset.sum_range_add,
      Fin.sum_univ_eq_sum_range (fun l => T (B * m + l)) B]

theorem blocked_rows (B nb : ℕ) (take : Fin nb → Prop) [DecidablePred take] (T : ℕ → EReal)
    (hskip : ∀ j : Fin nb, ¬ take j → ∀ l : Fin B, T (B * j.val + l.val) = 0) :
    (∑ j : Fin nb, if take j then ∑ l : Fin B, T (B * j.val + l.val) else 0)
      = ∑ e : Fin (B * nb), T e.val := by
  rw [← sum_blocks B nb T]
  refine Finset.sum_congr rfl fun j _ => ?_
  by_cases hj : take j
  · rw [if_pos hj]
  · rw [if_neg hj, Finset.sum_eq_zero fun l _ => hskip j hj l]

theorem blocked_onehot (B nb : ℕ) (hsz : B * nb ≤ 2 ^ 32) (w : BitVec 32) (f : ℕ → EReal)
    (take : Fin nb → Prop) [DecidablePred take]
    (hskip : ∀ j, ¬ take j → ∀ l : Fin B, w ≠ BitVec.ofNat 32 (B * j.val + l.val)) :
    (∑ j : Fin nb, if take j then
        ∑ l : Fin B, (if w = BitVec.ofNat 32 (B * j.val + l.val) then (1 : EReal) else 0)
          * f (B * j.val + l.val) else 0)
      = ∑ n : Fin (B * nb), (if w = BitVec.ofNat 32 n.val then (1 : EReal) else 0) * f n.val := by
  refine blocked_rows B nb take
    (fun n => (if w = BitVec.ofNat 32 n then (1 : EReal) else 0) * f n) fun j hj l => ?_
  simp only [if_neg (hskip j hj l), zero_mul]

end Cert.Blocks
-- ==== Proof.GatherValue.lean ====
import proofs.«401429_j309237645711_3_alg».proof.Proof.KernelIdeal.Gather
import proofs.«401429_j309237645711_3_alg».proof.Proof.GatherPayload
import proofs.«401429_j309237645711_3_alg».proof.Proof.Blocks
import Idealize.ShloMosaic.Lib.Pipeline.Value
import Idealize.ShloMosaic.Lib.ValueIdx
import Idealize.ShloMosaic.Lib.ValueLayout

noncomputable section

namespace Cert.KernelIdeal.GatherValue

open Idealize.ShloMosaic Idealize.ShloMosaic.TcCoe Idealize.SL.Sem
open Idealize.ShloMosaic.Pipeline (Window)
open Cert.KernelIdeal.Gen

-- column k of the operand as a function of the row number, zero past the last row
def colAt (h : Vec Ideal S57344x64 .f32) (k : Fin 64) (n : ℕ) : EReal :=
  if hn : n < 57344 then h (ValueIdx.ix2 ⟨n, hn⟩ k) else 0

-- rows 4096 j … 4096 j + 4095 of the operand, read at row l, are its rows 4096 j + l
theorem step_aux (h : Vec Ideal S57344x64 .f32) (k : Fin 64) (j : ℕ) (hj : j < 14)
    (inb : ∀ ax, (![4096 * j, 0] : Fin S57344x64.rank → Nat) ax + S4096x64.size ax ≤ S57344x64.size ax)
    {w w' : BitVec 32} (hw : w' = w) {x a : EReal}
    (hx : x = a + ∑ l : Fin 4096, (if w' = BitVec.ofNat 32 (4096 * j + l.val) then (1 : EReal) else 0)
      * View.ld h (Rect.unit (s := S57344x64) ![4096 * j, 0] S4096x64.size inb) (ValueIdx.ix2 l k)) :
    x = a + ∑ l : Fin 4096, (if w = BitVec.ofNat 32 (4096 * j + l.val) then (1 : EReal) else 0) * colAt h k (4096 * j + l.val) := by
  subst hw
  refine hx.trans (congrArg (a + ·) (Finset.sum_congr rfl fun l _ => congrArg _ ?_))
  have hl := l.isLt
  unfold colAt
  rw [dif_pos (by omega)]
  show h _ = h _
  refine congrArg h (funext fun ax => Fin.ext ?_)
  match ax with
  | ⟨0, _⟩ => show 4096 * j + 1 * l.val = 4096 * j + l.val; omega
  | ⟨1, _⟩ => show 0 + 1 * k.val = k.val; omega

open GatherPayload in
theorem step_apply (j : Fin 14) (rows : Vec Ideal S1024 .i32) (h : Vec Ideal S57344x64 .f32) (acc : Vec Ideal S1024x64 .f32)
    (e : Fin 1024) (k : Fin 64) :
    Gat.step (F := Ideal) j rows h acc (ValueIdx.ix2 e k)
      = acc (ValueIdx.ix2 e k) + ∑ l : Fin 4096, (if rows (ValueIdx.ix1 e) = BitVec.ofNat 32 (4096 * j.val + l.val) then (1 : EReal) else 0)
          * colAt h k (4096 * j.val + l.val) := by
  match j with
  | ⟨0, hj⟩ => exact step_aux h k 0 hj _ rfl (k1_pay6_apply ..)
  | ⟨1, hj⟩ => exact step_aux h k 1 hj _ rfl (k1_pay7_apply ..)
  | ⟨2, hj⟩ => exact step_aux h k 2 hj _ rfl (k1_pay8_apply ..)
  | ⟨3, hj⟩ => exact step_aux h k 3 hj _ rfl (k1_pay9_apply ..)
  | ⟨4, hj⟩ => exact step_aux h k 4 hj _ (k1_pay5_apply ..) (k1_pay10_apply ..)
  | ⟨5, hj⟩ => exact step_aux h k 5 hj _ (k1_pay5_apply ..) (k1_pay11_apply ..)
  | ⟨6, hj⟩ => exact step_aux h k 6 hj _ (k1_pay5_apply ..) (k1_pay12_apply ..)
  | ⟨7, hj⟩ => exact step_aux h k 7 hj _ (k1_pay5_apply ..) (k1_pay13_apply ..)
  | ⟨8, hj⟩ => exact step_aux h k 8 hj _ (k1_pay5_apply ..) (k1_pay14_apply ..)
  | ⟨9, hj⟩ => exact step_aux h k 9 hj _ (k1_pay5_apply ..) (k1_pay15_apply ..)
  | ⟨10, hj⟩ => exact step_aux h k 10 hj _ (k1_pay5_apply ..) (k1_pay16_apply ..)
  | ⟨11, hj⟩ => exact step_aux h k 11 hj _ (k1_pay5_apply ..) (k1_pay1_apply ..)
  | ⟨12, hj⟩ => exact step_aux h k 12 hj _ (k1_pay5_apply ..) (k1_pay2_apply ..)
  | ⟨13, hj⟩ => exact step_aux h k 13 hj _ (k1_pay5_apply ..) (k1_pay3_apply ..)
  | ⟨n + 14, hn⟩ => exact absurd hn (by omega)

-- a block whose range test fails holds no row equal to the edge's source row, so the tested blocks' sums add up to the sum over all rows
theorem out_apply (mn mx : BitVec 32) (rows : Vec Ideal S1024 .i32) (h : Vec Ideal S57344x64 .f32)
    (hrange : ∀ e : Fin 1024, mn.toInt ≤ (rows (ValueIdx.ix1 e)).toInt ∧ (rows (ValueIdx.ix1 e)).toInt ≤ mx.toInt)
    (e : Fin 1024) (k : Fin 64) :
    Gat.out (F := Ideal) mn mx rows h (ValueIdx.ix2 e k)
      = ∑ n : Fin 57344, (if rows (ValueIdx.ix1 e) = BitVec.ofNat 32 n.val then (1 : EReal) else 0) * h (ValueIdx.ix2 n k) := by
  let S : Fin 14 → EReal := fun j => ∑ l : Fin 4096,
    (if rows (ValueIdx.ix1 e) = BitVec.ofNat 32 (4096 * j.val + l.val) then (1 : EReal) else 0) * colAt h k (4096 * j.val + l.val)
  have key := List.foldl_hom (l := List.finRange 14) (init := k1_pay4 (F := Ideal)) (fun acc : Vec Ideal S1024x64 .f32 => acc (ValueIdx.ix2 e k))
    (g₁ := fun acc j => Gat.blk (F := Ideal) j mn mx rows h acc)
    (g₂ := fun (x : EReal) j => if Gat.cond j mn mx = 1#1 then x + S j else x) fun acc j => by
      dsimp only [Gat.blk]
      by_cases hc : Gat.cond j mn mx = 1#1
      · rw [if_pos hc, if_pos hc]; exact (step_apply j rows h acc e k).symm
      · rw [if_neg hc, if_neg hc]
  have hskip : ∀ j : Fin 14, ¬ (Gat.cond j mn mx = 1#1) →
      ∀ l : Fin 4096, rows (ValueIdx.ix1 e) ≠ BitVec.ofNat 32 (4096 * j.val + l.val) := by
    intro j hj
    have hjl := j.isLt
    refine Blocks.skip_of_range (rows (ValueIdx.ix1 e)) mn mx (4096 * j.val) 4096 (by omega) (hrange e).1 (hrange e).2 ?_
    intro hc
    push_cast at hc
    exact hj ((Gat.cond_iff j mn mx).mpr ⟨by omega, by omega⟩)
  unfold Gat.out
  rw [← key, Blocks.fold_cond_sum 14 (fun j => Gat.cond j mn mx = 1#1) S (k1_pay4 (F := Ideal) (ValueIdx.ix2 e k)),
    GatherPayload.k1_pay4_apply, zero_add]
  refine (Blocks.blocked_onehot 4096 14 (by norm_num) (rows (ValueIdx.ix1 e)) (colAt h k)
    (fun j => Gat.cond j mn mx = 1#1) hskip).trans ?_
  show ∑ n : Fin 57344, _ = _
  refine Finset.sum_congr rfl fun n _ => ?_
  unfold colAt
  rw [dif_pos n.isLt]

section Region

variable (a : (pcfg1 (F := Ideal)).Adm)
variable (V : (c : Dev nD) → (b : Ref sig .tc) → Buf (Elt Ideal) ((c : Thread nD τ).loc b))

theorem edge_lt (t : Fin (cfg1 a).N) (l : Fin 1024) : 1024 * t.val + l.val < 850944 := by
  have h1 : t.val < 831 := lt_of_lt_of_eq t.isLt N_1
  have h2 := l.isLt
  omega

theorem idx_facts : ∀ t : Fin grid1.N,
    cc1_transform_0 (grid1.coords t) (0 : Fin 1) = t.val
    ∧ cc1_transform_1 (grid1.coords t) (0 : Fin 2) = 0 ∧ cc1_transform_1 (grid1.coords t) (1 : Fin 2) = 0
    ∧ cc1_transform_2 (grid1.coords t) (0 : Fin 2) = t.val ∧ cc1_transform_2 (grid1.coords t) (1 : Fin 2) = 0 := by
  decide +kernel

theorem index_rows (t : Fin (cfg1 a).N) : ((cfg1 a).win 0).index t (0 : Fin 1) = t.val := (idx_facts t).1
theorem index_h0 (t : Fin (cfg1 a).N) : ((cfg1 a).win 1).index t (0 : Fin 2) = 0 := (idx_facts t).2.1
theorem index_h1 (t : Fin (cfg1 a).N) : ((cfg1 a).win 1).index t (1 : Fin 2) = 0 := (idx_facts t).2.2.1
theorem index_o0 (t : Fin (cfg1 a).N) : ((cfg1 a).win 2).index t (0 : Fin 2) = t.val := (idx_facts t).2.2.2.1
theorem index_o1 (t : Fin (cfg1 a).N) : ((cfg1 a).win 2).index t (1 : Fin 2) = 0 := (idx_facts t).2.2.2.2

theorem flush_o (t : Fin (cfg1 a).N) : ((cfg1 a).win 2).flush t = true := by
  refine (Window.flush_out _ rfl t).mpr (or_iff_not_imp_left.mpr fun hl => ⟨Nat.lt_of_le_of_ne t.isLt hl, fun he => ?_⟩)
  have h0 := congrFun he (0 : Fin 2)
  rw [index_o0, index_o0] at h0
  exact Nat.succ_ne_self _ h0

theorem rows_blk (c : Dev nD) (t : Fin (cfg1 a).N) (l : Fin 1024) :
    (Gat.iblk a V c 0 t : Vec Ideal S1024 .i32) (ValueIdx.ix1 l)
      = (V c main_v39 : IVec S850944 32) (ValueIdx.ix1 ⟨1024 * t.val + l.val, edge_lt a t l⟩) := by
  show V c main_v39 ((((cfg1 a).win 0).blk t).view.emb (ValueIdx.ix1 l)) = V c main_v39 _
  refine congrArg _ (funext fun ax => Fin.ext ?_)
  match ax with
  | ⟨0, _⟩ => show ((cfg1 a).win 0).index t (0 : Fin 1) * 1024 + 1 * l.val = 1024 * t.val + l.val; rw [index_rows]; omega

theorem feat_blk (c : Dev nD) (t : Fin (cfg1 a).N) (n : Fin 57344) (k : Fin 64) :
    (Gat.iblk a V c 1 t : Vec Ideal S57344x64 .f32) (ValueIdx.ix2 n k) = (V c main_v49 : Vec Ideal S57344x64 .f32) (ValueIdx.ix2 n k) := by
  show V c main_v49 ((((cfg1 a).win 1).blk t).view.emb (ValueIdx.ix2 n k)) = V c main_v49 _
  refine congrArg _ (funext fun ax => Fin.ext ?_)
  match ax with
  | ⟨0, _⟩ => show ((cfg1 a).win 1).index t (0 : Fin 2) * 57344 + 1 * n.val = n.val; rw [index_h0]; omega
  | ⟨1, _⟩ => show ((cfg1 a).win 1).index t (1 : Fin 2) * 64 + 1 * k.val = k.val; rw [index_h1]; omega

abbrev gathered (R : IVec S850944 32) (H : Vec Ideal S57344x64 .f32) : S850944x64.Idx → EReal :=
  fun i => ∑ n : Fin 57344, (if R (ValueIdx.ix1 (i 0)) = BitVec.ofNat 32 n.val then (1 : EReal) else 0) * H (ValueIdx.ix2 n (i 1))

theorem read_o (t : Fin (cfg1 a).N) (G : S850944x64.Idx → EReal) (y : S1024x64.Idx) :
    (((cfg1 a).win 2).blk t).view.read (Elt Ideal) G y = G ((((cfg1 a).win 2).blk t).view.emb y) := rfl

theorem flushed_eq (c : Dev nD) (t : Fin (cfg1 a).N)
    (htab : ∀ l : Fin 1024,
      (Gat.mnAt a t).toInt ≤ ((V c main_v39 : IVec S850944 32) (ValueIdx.ix1 ⟨1024 * t.val + l.val, edge_lt a t l⟩)).toInt
      ∧ ((V c main_v39 : IVec S850944 32) (ValueIdx.ix1 ⟨1024 * t.val + l.val, edge_lt a t l⟩)).toInt ≤ (Gat.mxAt a t).toInt) :
    (Gat.dat (F := Ideal) a V c).flushed 2 t
      = (((cfg1 a).win 2).blk t).view.read (Elt Ideal) (gathered (V c main_v39) (V c main_v49)) := by
  show ((cfg1 a).win 2).cut ((cfg1 a).grid.coords t) ((Gat.dat (F := Ideal) a V c).after 2 t) = _
  rw [Gat.after_2]
  refine funext fun (y : S1024x64.Idx) => ?_
  refine Eq.trans ?_ (read_o a t (gathered (V c main_v39) (V c main_v49)) y).symm
  obtain ⟨i, hi⟩ : ∃ i : S850944x64.Idx, i = (((cfg1 a).win 2).blk t).view.emb y := ⟨_, rfl⟩
  have hi0 : (i 0 : Fin 850944) = ⟨1024 * t.val + (y 0).val, edge_lt a t (y 0)⟩ := Fin.ext (by
    rw [hi]; show ((cfg1 a).win 2).index t (0 : Fin 2) * 1024 + 1 * (y (0 : Fin 2)).val = 1024 * t.val + (y (0 : Fin 2)).val; rw [index_o0]; omega)
  have hi1 : (i 1 : Fin 64) = y 1 := Fin.ext (by
    rw [hi]; show ((cfg1 a).win 2).index t (1 : Fin 2) * 64 + 1 * (y (1 : Fin 2)).val = (y (1 : Fin 2)).val; rw [index_o1]; omega)
  rw [← hi]
  show Gat.out (F := Ideal) (Gat.mnAt a t) (Gat.mxAt a t) (Gat.iblk a V c 0 t) (Gat.iblk a V c 1 t) y = _
  refine (congrArg (Gat.out (F := Ideal) _ _ _ _) (ValueIdx.eq_ix2 y)).trans ?_
  refine (out_apply _ _ _ _ (fun l => by rw [rows_blk]; exact htab l) (y 0) (y 1)).trans ?_
  show _ = ∑ n : Fin 57344, _
  refine Finset.sum_congr rfl fun n _ => ?_
  rw [rows_blk a V c t (y 0), feat_blk a V c t n (y 1), hi0, hi1]
  rfl

-- edge r lies in block r / 1024
theorem covered (i : S850944x64.Idx) :
    ∃ t : Fin (cfg1 a).N, ((cfg1 a).win 2).flush t = true ∧ i ∈ (((cfg1 a).win 2).blk t).view.set := by
  have hi0 : (i 0).val < 850944 := (i 0).isLt
  have hN : (cfg1 a).N = 831 := N_1
  obtain ⟨t, ht⟩ : ∃ t : Fin (cfg1 a).N, t.val = (i 0).val / 1024 := ⟨⟨(i 0).val / 1024, by rw [hN]; omega⟩, rfl⟩
  have hy : i = (((cfg1 a).win 2).blk t).view.emb (ValueIdx.ix2 (⟨(i 0).val % 1024, Nat.mod_lt _ (by decide)⟩ : Fin 1024) (i 1)) := by
    refine funext fun ax => Fin.ext ?_
    match ax with
    | ⟨0, _⟩ => show (i 0).val = ((cfg1 a).win 2).index t (0 : Fin 2) * 1024 + 1 * ((i 0).val % 1024); rw [index_o0]; omega
    | ⟨1, _⟩ => show (i 1).val = ((cfg1 a).win 2).index t (1 : Fin 2) * 64 + 1 * (i 1).val; rw [index_o1]; omega
  rw [hy]
  exact ⟨t, flush_o a t, (((cfg1 a).win 2).blk t).view.emb_mem_set _⟩

theorem gather_final (c : Dev nD)
    (htab : ∀ (t : Fin (cfg1 a).N) (l : Fin 1024),
      (Gat.mnAt a t).toInt ≤ ((V c main_v39 : IVec S850944 32) (ValueIdx.ix1 ⟨1024 * t.val + l.val, edge_lt a t l⟩)).toInt
      ∧ ((V c main_v39 : IVec S850944 32) (ValueIdx.ix1 ⟨1024 * t.val + l.val, edge_lt a t l⟩)).toInt ≤ (Gat.mxAt a t).toInt) :
    (Gat.dat (F := Ideal) a V c).arrAt 2 (cfg1 a).N
      = fun i : S850944x64.Idx => ∑ n : Fin 57344, (if (V c main_v39 : IVec S850944 32) (ValueIdx.ix1 (i 0)) = BitVec.ofNat 32 n.val then (1 : EReal) else 0)
          * (V c main_v49 : Vec Ideal S57344x64 .f32) (ValueIdx.ix2 n (i 1)) :=
  (Gat.dat (F := Ideal) a V c).arrAt_eq_of_cover 2 (gathered (V c main_v39) (V c main_v49))
    (fun t _ => flushed_eq a V c t (htab t)) (covered a)

end Region

end Cert.KernelIdeal.GatherValue

end
-- ==== Proof.ScatterPayload.lean ====
import proofs.«401429_j309237645711_3_alg».proof.Proof.Gen.KernelIdeal.Skeleton
import Idealize.ShloMosaic.Lib.ValueLayout
import Idealize.ShloMosaic.Lib.StackMember

noncomputable section

namespace Cert.KernelIdeal.ScatterPayload

open Idealize.ShloMosaic Idealize.SL.Sem Idealize.ShloMosaic.ValueIdx Idealize.ShloMosaic.StackMember
open Cert.KernelIdeal Cert.KernelIdeal.Gen

-- A column broadcast along its rows reads, at (p, c), the column's entry at p.
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ValueIdx.ix2 p c) = v (ValueIdx.ix2 p (0 : Fin 1)) :=
  broadcastTo_apply v h _ _ fun ax => by
    match ax with
    | ⟨0, _⟩ => show p.val = if a = 1 then 0 else p.val; split <;> omega
    | ⟨1, _⟩ => rfl

theorem k2_pay1_apply (i : S4096x64.Idx) : k2_pay1 (F := Ideal) i = 0 := by
  unfold Gen.k2_pay1
  rw [shapeCast_self, broadcast_apply]
  exact Ideal.ofBits_zero_f32

-- Word arithmetic n · 4096 + p is the word of the natural number 4096 n + p.
theorem node_id_apply (n : ℕ) (p : Fin 4096) :
    addi (broadcast S4096x1 (Scalar.muli (BitVec.ofNat 32 n) 4096#32)) (iota .tc S4096x1 32 [0] iota_S4096x1_d0_w32)
        (ValueIdx.ix2 p (0 : Fin 1)) = BitVec.ofNat 32 (4096 * n + p.val) := by
  show BitVec.ofNat 32 n * 4096#32 + iota .tc S4096x1 32 [0] iota_S4096x1_d0_w32 (ValueIdx.ix2 p (0 : Fin 1)) = _
  rw [iota_single_apply, BitVec.ofNat_add, BitVec.ofNat_mul, BitVec.mul_comm]

-- The equality bit of two words, widened and converted, is the indicator of their equality.
theorem onehot_word (a b : BitVec 32) :
    (FloatOps.sitofp .f32 ((IntOp.cmpi .eq a b).setWidth 32) : Ideal .f32) = if b = a then (1 : EReal) else 0 := by
  show ((((BitVec.ofBool (a == b)).setWidth 32).toInt : ℝ) : EReal) = _
  rw [toInt_setWidth_bit, BitVec.toNat_ofBool]
  by_cases h : b = a
  · simp [h]
  · simp [h, beq_eq_false_iff_ne.mpr (Ne.symm h)]

theorem k2_pay2_apply (i : grid2.Coords) (cols : Vec Ideal S1024 .i32) (g : Vec Ideal S1024x64 .f32)
    (acc : Vec Ideal S4096x64 .f32) (r : Fin 4096) (k : Fin 64) :
    k2_pay2 i cols g acc (ValueIdx.ix2 r k)
      = acc (ValueIdx.ix2 r k) + ∑ l : Fin 1024,
          (if cols (ValueIdx.ix1 l) = BitVec.ofNat 32 (4096 * (i 0).val + r.val) then (1 : EReal) else 0) * g (ValueIdx.ix2 l k) := by
  unfold Gen.k2_pay2
  rw [shapeCast_self, addf_apply, matmul_zero_eq_dotGeneral]
  refine congrArg (acc (ValueIdx.ix2 r k) + ·) ((dotGeneral_plain_apply none _ _ r k).trans (Finset.sum_congr rfl fun l _ => ?_))
  rw [truncf_apply, truncf_apply, sitofp_apply, extui_apply, shapeCast_self, shapeCast_self]
  refine congrArg (· * g (ValueIdx.ix2 l k)) ?_
  show FloatOps.sitofp .f32 ((IntOp.cmpi .eq (broadcastTo S4096x1024 _ broadcasts_S4096x1_S4096x1024 (ValueIdx.ix2 r l))
      (broadcastTo S4096x1024 _ broadcasts_S1x1024_S4096x1024 (ValueIdx.ix2 r l))).setWidth 32) = _
  rw [broadcastTo_a1_ab_apply, broadcastTo_1b_ab_apply, shapeCast_a_1a_apply, node_id_apply, onehot_word]

theorem k2_pay3_apply (acc : Vec Ideal S4096x64 .f32) (dg : Vec Ideal S4096x1 .f32) (b : Vec Ideal S1x64 .f32)
    (r : Fin 4096) (k : Fin 64) :
    k2_pay3 acc dg b (ValueIdx.ix2 r k) = max (acc (ValueIdx.ix2 r k) * dg (ValueIdx.ix2 r (0 : Fin 1)) + b (ValueIdx.ix2 (0 : Fin 1) k)) 0 := by
  unfold Gen.k2_pay3
  rw [maximumf_apply, addf_apply, mulf_apply, broadcast_apply, shapeCast_self, shapeCast_self,
    broadcastTo_a1_ab_apply, broadcastTo_1b_ab_apply]
  exact congrArg (max _) Ideal.ofBits_zero_f32

end Cert.KernelIdeal.ScatterPayload
-- ==== Proof.ScatterValue.lean ====
import proofs.«401429_j309237645711_3_alg».proof.Proof.KernelIdeal.Scatter
import proofs.«401429_j309237645711_3_alg».proof.Proof.ScatterPayload
import proofs.«401429_j309237645711_3_alg».proof.Proof.Blocks
import Idealize.ShloMosaic.Lib.Pipeline.Value
import Idealize.ShloMosaic.Lib.ValueIdx

noncomputable section

namespace Cert.KernelIdeal.ScatterValue

open Idealize.ShloMosaic Idealize.ShloMosaic.TcCoe Idealize.SL.Sem
open Idealize.ShloMosaic.Pipeline (Dat Cfg Window)
open Cert.KernelIdeal Cert.KernelIdeal.Gen

variable (a : (pcfg2 (F := Ideal)).Adm)
variable (V : (c : Dev nD) → (b : Ref sig .tc) → Buf (Elt Ideal) ((c : Thread nD τ).loc b))

abbrev colArr (c : Dev nD) : Vec Ideal S850944 .i32 := V c main_v32

abbrev featArr (c : Dev nD) : Vec Ideal S850944x64 .f32 := V c main_v50

abbrev degArr (c : Dev nD) : Vec Ideal S57344x1 .f32 := V c main_v53

abbrev biasArr (c : Dev nD) : Vec Ideal S1x64 .f32 := V c main_v54

abbrev edgeOf (e : ℕ) (he : e < 831) (l : Fin 1024) : Fin 850944 := ⟨1024 * e + l.val, by have := l.isLt; omega⟩

def TablesBound (c : Dev nD) : Prop :=
  ∀ (t : Fin (cfg2 a).N) (l : Fin 1024),
    BitVec.toInt (Sct.mnAt a t) ≤ BitVec.toInt (colArr V c (ValueIdx.ix1 (edgeOf (t.val % 831) (Nat.mod_lt _ (by decide)) l)))
    ∧ BitVec.toInt (colArr V c (ValueIdx.ix1 (edgeOf (t.val % 831) (Nat.mod_lt _ (by decide)) l))) ≤ BitVec.toInt (Sct.mxAt a t)

theorem t_lt (t : Fin (cfg2 a).N) : t.val < 11634 := lt_of_lt_of_eq t.isLt (N_2)

-- at point t the edge block is t % 831 and the node block t / 831
theorem idx (t : Fin (cfg2 a).N) :
    ((cfg2 a).win 0).index t (0 : Fin 1) = t.val % 831 ∧ ((cfg2 a).win 1).index t (0 : Fin 2) = t.val % 831
    ∧ ((cfg2 a).win 2).index t (0 : Fin 2) = t.val / 831 ∧ ((cfg2 a).win 4).index t (0 : Fin 2) = t.val / 831 := by
  have ht := t_lt a t
  have h1 : (BitVec.ofNat 32 ((grid2.coords t) 1).val).toNat = t.val % 831 := by
    rw [BitVec.toNat_ofNat, Sct.coords1_val]; exact Nat.mod_eq_of_lt (by omega)
  have h0 : (BitVec.ofNat 32 ((grid2.coords t) 0).val).toNat = t.val / 831 := by
    rw [BitVec.toNat_ofNat, Sct.coords0_val]; exact Nat.mod_eq_of_lt (by omega)
  exact ⟨h1, h1, h0, h0⟩

abbrev colBlk (c : Dev nD) (t : Fin (cfg2 a).N) : Vec Ideal S1024 .i32 := Sct.iblk a V c 0 t
abbrev featBlk (c : Dev nD) (t : Fin (cfg2 a).N) : Vec Ideal S1024x64 .f32 := Sct.iblk a V c 1 t
abbrev degBlk (c : Dev nD) (t : Fin (cfg2 a).N) : Vec Ideal S4096x1 .f32 := Sct.iblk a V c 2 t
abbrev biasBlk (c : Dev nD) (t : Fin (cfg2 a).N) : Vec Ideal S1x64 .f32 := Sct.iblk a V c 3 t

theorem colBlk_apply (c : Dev nD) (t : Fin (cfg2 a).N) (l : Fin 1024) :
    colBlk a V c t (ValueIdx.ix1 l) = colArr V c (ValueIdx.ix1 (edgeOf (t.val % 831) (Nat.mod_lt _ (by decide)) l)) := by
  show V c main_v32 ((((cfg2 a).win 0).blk t).view.emb (ValueIdx.ix1 l)) = V c main_v32 _
  refine congrArg _ (funext fun d => Fin.ext ?_)
  match d with
  | ⟨0, _⟩ => show ((cfg2 a).win 0).index t (0 : Fin 1) * 1024 + 1 * l.val = 1024 * (t.val % 831) + l.val; rw [(idx a t).1]; omega

theorem featBlk_apply (c : Dev nD) (t : Fin (cfg2 a).N) (l : Fin 1024) (k : Fin 64) :
    featBlk a V c t (ValueIdx.ix2 l k) = featArr V c (ValueIdx.ix2 (edgeOf (t.val % 831) (Nat.mod_lt _ (by decide)) l) k) := by
  show V c main_v50 ((((cfg2 a).win 1).blk t).view.emb (ValueIdx.ix2 l k)) = V c main_v50 _
  refine congrArg _ (funext fun d => Fin.ext ?_)
  match d with
  | ⟨0, _⟩ => show ((cfg2 a).win 1).index t (0 : Fin 2) * 1024 + 1 * l.val = 1024 * (t.val % 831) + l.val; rw [(idx a t).2.1]; omega
  | ⟨1, _⟩ => show 0 * 64 + 1 * k.val = k.val; omega

abbrev nodeOf (v : ℕ) (hv : v < 14) (r : Fin 4096) : Fin 57344 := ⟨4096 * v + r.val, by have := r.isLt; omega⟩

theorem v_lt (t : Fin (cfg2 a).N) : t.val / 831 < 14 := by have := t_lt a t; omega

theorem degBlk_apply (c : Dev nD) (t : Fin (cfg2 a).N) (r : Fin 4096) :
    degBlk a V c t (ValueIdx.ix2 r (0 : Fin 1)) = degArr V c (ValueIdx.ix2 (nodeOf (t.val / 831) (v_lt a t) r) (0 : Fin 1)) := by
  show V c main_v53 ((((cfg2 a).win 2).blk t).view.emb (ValueIdx.ix2 r (0 : Fin 1))) = V c main_v53 _
  refine congrArg _ (funext fun d => Fin.ext ?_)
  match d with
  | ⟨0, _⟩ => show ((cfg2 a).win 2).index t (0 : Fin 2) * 4096 + 1 * r.val = 4096 * (t.val / 831) + r.val; rw [(idx a t).2.2.1]; omega
  | ⟨1, _⟩ => rfl

theorem biasBlk_apply (c : Dev nD) (t : Fin (cfg2 a).N) (k : Fin 64) :
    biasBlk a V c t (ValueIdx.ix2 (0 : Fin 1) k) = biasArr V c (ValueIdx.ix2 (0 : Fin 1) k) := by
  show V c main_v54 ((((cfg2 a).win 3).blk t).view.emb (ValueIdx.ix2 (0 : Fin 1) k)) = V c main_v54 _
  refine congrArg _ (funext fun d => Fin.ext ?_)
  match d with
  | ⟨0, _⟩ => rfl
  | ⟨1, _⟩ => show 0 * 64 + 1 * k.val = k.val; omega

theorem flush4_iff (t : Fin (cfg2 a).N) : ((cfg2 a).win 4).flush t = true ↔ t.val % 831 = 830 := by
  refine ⟨fun hf => not_not.mp fun h =>
    Bool.false_ne_true ((Sct.flush4_false a t (by rw [Sct.coords1_val]; exact h)).symm.trans hf), fun h => ?_⟩
  refine (Window.flush_out _ rfl t).mpr (or_iff_not_imp_left.mpr fun hl => ⟨Nat.lt_of_le_of_ne t.isLt hl, fun he => ?_⟩)
  have h0 := congrFun he (0 : Fin 2)
  rw [(idx a t).2.2.2, (idx a _).2.2.2] at h0
  have h1 : (t.val + 1) / 831 = t.val / 831 := h0
  omega

theorem covered4 (i : S57344x64.Idx) :
    ∃ t : Fin (cfg2 a).N, ((cfg2 a).win 4).flush t = true ∧ i ∈ (((cfg2 a).win 4).blk t).view.set := by
  have hi0 : (i 0).val < 57344 := (i 0).isLt
  have hN : (cfg2 a).N = 11634 := N_2
  obtain ⟨t, ht⟩ : ∃ t : Fin (cfg2 a).N, t.val = 831 * ((i 0).val / 4096) + 830 := ⟨⟨831 * ((i 0).val / 4096) + 830, by omega⟩, rfl⟩
  refine ⟨t, (flush4_iff a t).mpr (by omega), ?_⟩
  have hy : i = (((cfg2 a).win 4).blk t).view.emb (ValueIdx.ix2 (⟨(i 0).val % 4096, Nat.mod_lt _ (by decide)⟩ : Fin 4096) (i 1)) := by
    funext d
    apply Fin.ext
    match d with
    | ⟨0, _⟩ => show (i 0).val = ((cfg2 a).win 4).index t (0 : Fin 2) * 4096 + 1 * ((i 0).val % 4096); rw [(idx a t).2.2.2]; omega
    | ⟨1, _⟩ => show (i 1).val = 0 * 64 + 1 * (i 1).val; omega
  rw [hy]
  exact (((cfg2 a).win 4).blk t).view.emb_mem_set _

def term (c : Dev nD) (w : ℕ) (k : Fin 64) (n : ℕ) : EReal :=
  if h : n < 850944 then
    (if colArr V c (ValueIdx.ix1 (⟨n, h⟩ : Fin 850944)) = BitVec.ofNat 32 w then (1 : EReal) else 0) * featArr V c (ValueIdx.ix2 (⟨n, h⟩ : Fin 850944) k)
  else 0

-- an edge block outside the node block's range has no column in it, so with or without its update the accumulator gains the block's 1024 terms
theorem accAt_step (c : Dev nD) (htab : TablesBound a V c) (t : Fin (cfg2 a).N) (r : Fin 4096) (k : Fin 64) :
    Sct.accAt (F := Ideal) a V c (t.val + 1) (ValueIdx.ix2 r k)
      = Sct.startAt (F := Ideal) a V c t (ValueIdx.ix2 r k)
        + ∑ l : Fin 1024, term V c (4096 * (t.val / 831) + r.val) k (1024 * (t.val % 831) + l.val) := by
  have ht := t_lt a t
  have hr := r.isLt
  by_cases hh : Sct.hit a t
  · rw [Sct.accAt_succ_hit a V c t hh]
    refine (ScatterPayload.k2_pay2_apply (grid2.coords t) (colBlk a V c t) (featBlk a V c t) (Sct.startAt (F := Ideal) a V c t) r k).trans ?_
    refine congrArg (Sct.startAt (F := Ideal) a V c t (ValueIdx.ix2 r k) + ·) (Finset.sum_congr rfl fun l _ => ?_)
    have hl := l.isLt
    unfold term
    rw [dif_pos (by omega), colBlk_apply, featBlk_apply, Sct.coords0_val]
  · have hno : ¬ (BitVec.toInt (Sct.mxAt a t) ≥ ((4096 * (t.val / 831) : ℕ) : ℤ)
        ∧ BitVec.toInt (Sct.mnAt a t) ≤ ((4096 * (t.val / 831) : ℕ) : ℤ) + ((4096 : ℕ) : ℤ) - 1) := by
      intro hc
      apply hh
      rw [Sct.hit_iff, Sct.coords0_val]
      push_cast at hc ⊢
      omega
    rw [Sct.accAt_succ_miss a V c t hh, Finset.sum_eq_zero, add_zero]
    intro l _
    have hl := l.isLt
    unfold term
    rw [dif_pos (by omega), if_neg, zero_mul]
    exact Cert.Blocks.skip_of_range _ (Sct.mnAt a t) (Sct.mxAt a t) (4096 * (t.val / 831)) 4096 (by omega) (htab t l).1 (htab t l).2 hno r

-- after n edge blocks of node block v the accumulator holds the terms of the first 1024 n edges
theorem accAt_block (c : Dev nD) (htab : TablesBound a V c) (v : ℕ) (hv : v < 14) (r : Fin 4096) (k : Fin 64) :
    ∀ n : ℕ, n ≤ 831 →
      (if n = 0 then (0 : EReal) else Sct.accAt (F := Ideal) a V c (831 * v + n) (ValueIdx.ix2 r k))
        = ∑ e ∈ Finset.range (1024 * n), term V c (4096 * v + r.val) k e
  | 0, _ => by rw [if_pos rfl, Nat.mul_zero, Finset.range_zero, Finset.sum_empty]
  | n + 1, hn => by
    have hN : (cfg2 a).N = 11634 := N_2
    have ih := accAt_block c htab v hv r k n (by omega)
    rw [if_neg (Nat.succ_ne_zero n)]
    obtain ⟨t, ht⟩ : ∃ t : Fin (cfg2 a).N, t.val = 831 * v + n := ⟨⟨831 * v + n, by omega⟩, rfl⟩
    have hq : t.val / 831 = v := by omega
    have hm : t.val % 831 = n := by omega
    have hs : Sct.startAt (F := Ideal) a V c t (ValueIdx.ix2 r k)
        = (if n = 0 then (0 : EReal) else Sct.accAt (F := Ideal) a V c (831 * v + n) (ValueIdx.ix2 r k)) := by
      by_cases h0 : n = 0
      · rw [if_pos h0, Sct.startAt_first a V c t (by rw [Sct.coords1_val]; omega)]
        exact ScatterPayload.k2_pay1_apply _
      · rw [if_neg h0, Sct.startAt_later a V c t (by rw [Sct.coords1_val]; omega), ht]
    show Sct.accAt (F := Ideal) a V c (831 * v + n + 1) (ValueIdx.ix2 r k) = _
    rw [← ht, accAt_step a V c htab t r k, hs, ih, hq, hm, Nat.mul_succ, Finset.sum_range_add,
      Fin.sum_univ_eq_sum_range (fun x => term V c (4096 * v + r.val) k (1024 * n + x)) 1024]

theorem accAt_apply (c : Dev nD) (htab : TablesBound a V c) (v : Fin 14) (r : Fin 4096) (k : Fin 64) :
    Sct.accAt (F := Ideal) a V c (831 * v.val + 831) (ValueIdx.ix2 r k)
      = ∑ e : Fin 850944, (if colArr V c (ValueIdx.ix1 e) = BitVec.ofNat 32 (4096 * v.val + r.val) then (1 : EReal) else 0)
          * featArr V c (ValueIdx.ix2 e k) := by
  have h := accAt_block a V c htab v.val v.isLt r k 831 le_rfl
  rw [if_neg (by decide)] at h
  rw [h]
  show ∑ e ∈ Finset.range 850944, term V c (4096 * v.val + r.val) k e = _
  rw [← Fin.sum_univ_eq_sum_range (fun e => term V c (4096 * v.val + r.val) k e) 850944]
  refine Finset.sum_congr rfl fun e _ => ?_
  unfold term
  rw [dif_pos e.isLt]

def outArr (c : Dev nD) : Vec Ideal S57344x64 .f32 := fun i =>
  max ((∑ e : Fin 850944, (if colArr V c (ValueIdx.ix1 e) = BitVec.ofNat 32 (i 0).val then (1 : EReal) else 0)
          * featArr V c (ValueIdx.ix2 e (i 1)))
        * degArr V c (ValueIdx.ix2 (i 0) (0 : Fin 1)) + biasArr V c (ValueIdx.ix2 (0 : Fin 1) (i 1))) 0

theorem outBlk_apply (c : Dev nD) (htab : TablesBound a V c) (t : Fin (cfg2 a).N) (h830 : t.val % 831 = 830)
    (r : Fin 4096) (k : Fin 64) :
    Sct.outBlk (F := Ideal) a V c t (ValueIdx.ix2 r k) = outArr V c (ValueIdx.ix2 (nodeOf (t.val / 831) (v_lt a t) r) k) := by
  unfold Sct.outBlk
  refine (ScatterPayload.k2_pay3_apply (Sct.accAt (F := Ideal) a V c (t.val + 1)) (degBlk a V c t) (biasBlk a V c t) r k).trans ?_
  have e : t.val + 1 = 831 * (⟨t.val / 831, v_lt a t⟩ : Fin 14).val + 831 := by
    show t.val + 1 = 831 * (t.val / 831) + 831
    omega
  rw [e, accAt_apply a V c htab ⟨t.val / 831, v_lt a t⟩ r k, degBlk_apply, biasBlk_apply]
  rfl

theorem flushed4_eq (c : Dev nD) (htab : TablesBound a V c) (t : Fin (cfg2 a).N) (hf : ((cfg2 a).win 4).flush t = true) :
    (Sct.dat (F := Ideal) a V c).flushed 4 t = (((cfg2 a).win 4).blk t).view.read (Elt Ideal) (outArr V c) := by
  have hcut : ∀ (X : Vec Ideal S4096x64 .f32) (j : S4096x64.Idx), ((cfg2 a).win 4).cut (grid2.coords t) X j = X j := fun X j => rfl
  have hread : ∀ (G : Vec Ideal S57344x64 .f32) (y : S4096x64.Idx),
      (((cfg2 a).win 4).blk t).view.read (Elt Ideal) G y = G ((((cfg2 a).win 4).blk t).view.emb y) := fun G y => rfl
  show ((cfg2 a).win 4).cut (grid2.coords t) ((Sct.dat (F := Ideal) a V c).after 4 t) = _
  rw [Sct.after_4]
  refine funext fun (j : S4096x64.Idx) => ?_
  obtain ⟨r, k, rfl⟩ : ∃ (r : Fin 4096) (k : Fin 64), j = ValueIdx.ix2 r k := ⟨j 0, j 1, ValueIdx.eq_ix2 j⟩
  rw [hcut, hread, outBlk_apply a V c htab t ((flush4_iff a t).mp hf) r k]
  refine congrArg _ (funext fun d => Fin.ext ?_)
  match d with
  | ⟨0, _⟩ => show 4096 * (t.val / 831) + r.val = ((cfg2 a).win 4).index t (0 : Fin 2) * 4096 + 1 * r.val; rw [(idx a t).2.2.2]; omega
  | ⟨1, _⟩ => show k.val = 0 * 64 + 1 * k.val; omega

theorem scatter_final (c : Dev nD) (htab : TablesBound a V c) :
    (Sct.dat (F := Ideal) a V c).arrAt 4 (cfg2 a).N = fun i : S57344x64.Idx =>
      max ((∑ e : Fin 850944, (if colArr V c (ValueIdx.ix1 e) = BitVec.ofNat 32 (i 0).val then (1 : EReal) else 0)
              * featArr V c (ValueIdx.ix2 e (i 1)))
            * degArr V c (ValueIdx.ix2 (i 0) (0 : Fin 1)) + biasArr V c (ValueIdx.ix2 (0 : Fin 1) (i 1))) 0 :=
  (Sct.dat (F := Ideal) a V c).arrAt_eq_of_cover 4 (outArr V c) (fun t hf => flushed4_eq a V c htab t hf) (covered4 a)

end Cert.KernelIdeal.ScatterValue

end
-- ==== Proof.KHostTail.lean ====
import proofs.«401429_j309237645711_3_alg».proof.Proof.Gen.KernelIdeal.Regions
import proofs.«401429_j309237645711_3_alg».proof.Proof.RefRun
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal

noncomputable section

namespace Cert.KernelIdeal.KHostTail

open Cert.KernelIdeal Cert.KernelIdeal.Gen Idealize.ShloMosaic Idealize.ShloMosaic.TcCoe Idealize.SL.Sem Idealize.ShloMosaic.StableHlo

variable (W : Valuation τ sig (Elt Ideal))

theorem pad_h (n : Fin 57344) (k : Fin 64) :
    (StableHlo.after hostOps1 W (Proc.devRef .tc main_v49) : FVec Ideal S57344x64 .f32) (ValueIdx.ix2 n k)
      = if h : n.val < 50000 then (W (Proc.devRef .tc main_v47) : FVec Ideal S50000x64 .f32) (ValueIdx.ix2 (⟨n.val, h⟩ : Fin 50000) k)
        else (0 : EReal) := by
  after_results
  by_cases h : n.val < 50000
  · rw [dif_pos h]
    exact concatenate_pair_apply_left (t := S57344x64) (s₁ := S50000x64) (s₂ := S7344x64) 0 _ _ _ (ValueIdx.ix2 n k) rfl
      (ValueIdx.ix2 (⟨n.val, h⟩ : Fin 50000) k) (fun b => by match b with | ⟨0, _⟩ => rfl | ⟨1, _⟩ => rfl)
  · rw [dif_neg h]
    exact (concatenate_pair_apply_right (t := S57344x64) (s₁ := S50000x64) (s₂ := S7344x64) 0 _ _ _ (ValueIdx.ix2 n k) rfl rfl
      (ValueIdx.ix2 (⟨n.val - 50000, by have := n.isLt; omega⟩ : Fin 7344) k)
      (fun b hb => by match b with | ⟨0, _⟩ => exact absurd rfl hb | ⟨1, _⟩ => rfl)
      (by show n.val - 50000 + 50000 = n.val; omega)).trans Ideal.ofBits_zero_f32

theorem pad_dis (n : Fin 57344) :
    (StableHlo.after hostOps2 W (Proc.devRef .tc main_v53) : FVec Ideal S57344x1 .f32) (ValueIdx.ix2 n (0 : Fin 1))
      = if h : n.val < 50000 then (W (Proc.devRef .tc main_v16) : FVec Ideal S50000 .f32) (ValueIdx.ix1 (⟨n.val, h⟩ : Fin 50000))
        else (0 : EReal) := by
  after_results
  refine (shapeCast_apply _ shapeCasts_S57344_S57344x1 (ValueIdx.ix2 n (0 : Fin 1)) (ValueIdx.ix1 n) ?_).trans ?_
  · rw [Shape.rowMajor_val_two, Shape.rowMajor_val_one]; show n.val = n.val * 1 + 0; omega
  by_cases h : n.val < 50000
  · rw [dif_pos h]
    exact concatenate_pair_apply_left (t := S57344) (s₁ := S50000) (s₂ := S7344) 0 _ _ _ (ValueIdx.ix1 n) rfl
      (ValueIdx.ix1 (⟨n.val, h⟩ : Fin 50000)) (fun b => by match b with | ⟨0, _⟩ => rfl)
  · rw [dif_neg h]
    exact (concatenate_pair_apply_right (t := S57344) (s₁ := S50000) (s₂ := S7344) 0 _ _ _ (ValueIdx.ix1 n) rfl rfl
      (ValueIdx.ix1 (⟨n.val - 50000, by have := n.isLt; omega⟩ : Fin 7344))
      (fun b hb => by match b with | ⟨0, _⟩ => exact absurd rfl hb)
      (by show n.val - 50000 + 50000 = n.val; omega)).trans Ideal.ofBits_zero_f32

theorem bias2d (k : Fin 64) :
    (StableHlo.after hostOps2 W (Proc.devRef .tc main_v54) : FVec Ideal S1x64 .f32) (ValueIdx.ix2 (0 : Fin 1) k)
      = (W (Proc.devRef .tc main_arg4) : FVec Ideal S64 .f32) (ValueIdx.ix1 k) := by
  after_results
  exact ValueIdx.shapeCast_a_1a_apply _ shapeCasts_S64_S1x64 (0 : Fin 1) k

def rows50000 (a : FVec Ideal S57344x64 .f32) : FVec Ideal S50000x64 .f32 :=
  extractStridedSlice S50000x64 ![0, 0] a slices_S57344x64_S50000x64_0_0

theorem rows50000_apply (a : FVec Ideal S57344x64 .f32) (n : Fin 50000) (k : Fin 64) :
    rows50000 a (ValueIdx.ix2 n k) = a (ValueIdx.ix2 (⟨n.val, by have := n.isLt; omega⟩ : Fin 57344) k) :=
  ValueIdx.slice2_axis0_apply 0 a slices_S57344x64_S50000x64_0_0 n k _ (Nat.zero_add _).symm

-- The batch normalisation of the tail is the reference's own term.
def bnTailK (o : FVec Ideal S50000x64 .f32) (γ β : FVec Ideal S64 .f32) : FVec Ideal S50000x64 .f32 :=
  Cert.ReferenceIdeal.RefRun.bnTail o γ β

theorem tail : (StableHlo.after hostOps3_2 (StableHlo.after hostOps3_1 (StableHlo.after hostOps3 W)) (Proc.devRef .tc main_v75) : FVec Ideal S50000x64 .f32)
    = bnTailK (rows50000 (W (Proc.devRef .tc main_v55))) (W (Proc.devRef .tc main_arg5)) (W (Proc.devRef .tc main_arg6)) := by
  after_results_simp
  simp only [TRef.ofBuf, TRef.toBuf, cast_eq]
  rfl

theorem bnTail_eq (o : FVec Ideal S50000x64 .f32) (γ β : FVec Ideal S64 .f32) :
    bnTailK o γ β = Cert.ReferenceIdeal.RefRun.bnTail o γ β := rfl

end Cert.KernelIdeal.KHostTail

end
-- ==== Proof.TableWords.lean ====
import proofs.«401429_j309237645711_3_alg».proof.Proof.KernelIdeal.Gather
import proofs.«401429_j309237645711_3_alg».proof.Proof.KernelIdeal.Scatter
import Idealize.ShloMosaic.Lib.ValueIdx

noncomputable section

namespace Cert.KernelIdeal.TableWords

open Idealize.ShloMosaic Idealize.SL.Sem
open Cert.KernelIdeal Cert.KernelIdeal.Gen

variable {F : FTy → Type} [FloatOps F]

theorem gat_word_idx (t : Fin grid1.N) :
    (Rect.unit (s := S831) (k1_off1 (grid1.coords t)) S1.size (k1_off1_inb (grid1.coords t))).idx
        (Shape.Idx.first (numel1_S1.symm ▸ Nat.one_pos)) = ValueIdx.ix1 ⟨t.val, t.isLt⟩ := by
  funext ax
  apply Fin.ext
  match ax with
  | ⟨0, _⟩ =>
    have ht : t.val < 831 := t.isLt
    show (BitVec.ofNat 32 (t.val / 1 % 831)).toNat + 1 * 0 = t.val
    rw [BitVec.toNat_ofNat]
    omega

theorem gat_mnAt (a : (pcfg1 (F := F)).Adm) (t : Fin (cfg1 a).N) :
    Gat.mnAt a t = (a.1 0 : IVec S831 32) (ValueIdx.ix1 ⟨t.val, t.isLt⟩) := by
  unfold Gat.mnAt
  exact congrArg (a.1 0) (gat_word_idx t)

theorem gat_mxAt (a : (pcfg1 (F := F)).Adm) (t : Fin (cfg1 a).N) :
    Gat.mxAt a t = (a.1 1 : IVec S831 32) (ValueIdx.ix1 ⟨t.val, t.isLt⟩) := by
  unfold Gat.mxAt
  exact congrArg (a.1 1) (gat_word_idx t)

theorem sct_word_idx (t : Fin grid2.N) :
    (Rect.unit (s := S831) (k2_off1 (grid2.coords t)) S1.size (k2_off1_inb (grid2.coords t))).idx
        (Shape.Idx.first (numel1_S1.symm ▸ Nat.one_pos)) = ValueIdx.ix1 ⟨t.val % 831, Nat.mod_lt _ (by decide)⟩ := by
  funext ax
  apply Fin.ext
  match ax with
  | ⟨0, _⟩ =>
    show (BitVec.ofNat 32 (t.val / 1 % 831)).toNat + 1 * 0 = t.val % 831
    rw [BitVec.toNat_ofNat]
    omega

theorem sct_mnAt (a : (pcfg2 (F := F)).Adm) (t : Fin (cfg2 a).N) :
    Sct.mnAt a t = (a.1 0 : IVec S831 32) (ValueIdx.ix1 ⟨t.val % 831, Nat.mod_lt _ (by decide)⟩) := by
  unfold Sct.mnAt Sct.wordAt
  exact congrArg (a.1 0) (sct_word_idx t)

theorem sct_mxAt (a : (pcfg2 (F := F)).Adm) (t : Fin (cfg2 a).N) :
    Sct.mxAt a t = (a.1 1 : IVec S831 32) (ValueIdx.ix1 ⟨t.val % 831, Nat.mod_lt _ (by decide)⟩) := by
  unfold Sct.mxAt Sct.wordAt
  exact congrArg (a.1 1) (sct_word_idx t)

end Cert.KernelIdeal.TableWords
-- ==== Proof.KernelValue.lean ====
import proofs.«401429_j309237645711_3_alg».proof.Proof.KernelIdeal.Run
import proofs.«401429_j309237645711_3_alg».proof.Proof.LinValue
import proofs.«401429_j309237645711_3_alg».proof.Proof.KHost
import proofs.«401429_j309237645711_3_alg».proof.Proof.KHostTables
import Idealize.ShloMosaic.Lib.ValueIdx
import Idealize.ShloMosaic.Lib.ValueLayout
import Idealize.ShloMosaic.Lib.Pipeline.Value
import proofs.«401429_j309237645711_3_alg».proof.Proof.GatherValue
import proofs.«401429_j309237645711_3_alg».proof.Proof.ScatterValue
import proofs.«401429_j309237645711_3_alg».proof.Proof.KHostTail
import proofs.«401429_j309237645711_3_alg».proof.Proof.TableWords

noncomputable section

namespace Cert.KernelIdeal.KernelValue

open Idealize.ShloMosaic Idealize.ShloMosaic.TcCoe Idealize.SL.Sem Idealize.ShloMosaic.StableHlo
open Idealize.ShloMosaic.Pipeline (Dat Cfg Window)
open Cert.KernelIdeal Cert.KernelIdeal.Gen

-- Row n of the features times the transposed weight, scaled by deg^(-1/2); zero from row 50000 on.
def hsPad (x : FVec Ideal S50000x128 .f32) (e : IVec S2x800000 32) (w : FVec Ideal S64x128 .f32) (n : Fin 57344) (k : Fin 64) : EReal :=
  if h : n.val < 50000 then (∑ d : Fin 128, x (ValueIdx.ix2 ⟨n.val, h⟩ d) * w (ValueIdx.ix2 k d)) * KHost.disK e (ValueIdx.ix1 ⟨n.val, h⟩) else 0

-- Per node: the sum over the edges into it of the padded row at the edge's source, times deg^(-1/2), plus the bias, cut below at zero.
def kernelOut (x : FVec Ideal S50000x128 .f32) (e : IVec S2x800000 32) (w : FVec Ideal S64x128 .f32) (b : FVec Ideal S64 .f32) :
    FVec Ideal S50000x64 .f32 := fun i =>
  max ((∑ e' : Fin 850944, (if KHost.colS e (ValueIdx.ix1 e') = BitVec.ofNat 32 (i 0).val then (1 : EReal) else 0)
        * (∑ n : Fin 57344, (if KHost.rowS e (ValueIdx.ix1 e') = BitVec.ofNat 32 n.val then (1 : EReal) else 0) * hsPad x e w n (i 1)))
      * KHost.disK e (ValueIdx.ix1 (i 0)) + b (ValueIdx.ix1 (i 1))) 0

section
variable (m : (ℓ : Loc nD τ sig) → Buf (Elt Ideal) ℓ) (c : Dev nD)

abbrev xA : FVec Ideal S50000x128 .f32 := m ((c : Thread nD τ).loc main_arg0)
abbrev eA : IVec S2x800000 32 := m ((c : Thread nD τ).loc main_arg1)
abbrev wA : FVec Ideal S64x128 .f32 := m ((c : Thread nD τ).loc main_arg3)
abbrev bA : FVec Ideal S64 .f32 := m ((c : Thread nD τ).loc main_arg4)

-- A location that none of the steps in between writes keeps its value.
theorem keep7 (r : Ref sig .tc) (h : r ∉ hostOps0_W ∧ r ∉ hostOps0_1_W ∧ r ∉ hostOps0_2_W ∧ r ∉ hostOps0_3_W ∧ r ∉ hostOps0_4_W
    ∧ r ∉ hostOps0_5_W ∧ r ∉ hostOps0_6_W) : Run.W7 m c r = Run.W0 m c r :=
  (Run.W7_of m c r h.2.2.2.2.2.2).trans <| (Run.W6_of m c r h.2.2.2.2.2.1).trans <| (Run.W5_of m c r h.2.2.2.2.1).trans <|
    (Run.W4_of m c r h.2.2.2.1).trans <| (Run.W3_of m c r h.2.2.1).trans <| (Run.W2_of m c r h.2.1).trans (Run.W1_of m c r h.1)

theorem keep10 (r : Ref sig .tc) (h : (∀ w, Pipeline.arrRef spec0 w ≠ r) ∧ r ∉ hostOps1_W ∧ ∀ w, Pipeline.arrRef spec1 w ≠ r) :
    Run.W10 m c r = Run.W7 m c r :=
  (Run.W10_of m c r h.2.2).trans <| (Run.W9_of m c r h.2.1).trans (Run.W8_of m c r h.1)

theorem keep12 (r : Ref sig .tc) (h : r ∉ hostOps2_W ∧ ∀ w, Pipeline.arrRef spec2 w ≠ r) : Run.W12 m c r = Run.W10 m c r :=
  (Run.W12_of m c r h.2).trans (Run.W11_of m c r h.1)

theorem arg0_at7 : (Run.V7 m c main_arg0 : FVec Ideal S50000x128 .f32) = xA m c := keep7 m c main_arg0 (by decide)
theorem arg3_at7 : (Run.V7 m c main_arg3 : FVec Ideal S64x128 .f32) = wA m c := keep7 m c main_arg3 (by decide)
theorem arg4_at10 : (Run.W10 m c (Proc.devRef .tc main_arg4) : FVec Ideal S64 .f32) = bA m c :=
  (keep10 m c main_arg4 (by decide)).trans (keep7 m c main_arg4 (by decide))
theorem arg5_at12 : Run.W12 m c (Proc.devRef .tc main_arg5) = m ((c : Thread nD τ).loc main_arg5) :=
  (keep12 m c main_arg5 (by decide)).trans <| (keep10 m c main_arg5 (by decide)).trans (keep7 m c main_arg5 (by decide))
theorem arg6_at12 : Run.W12 m c (Proc.devRef .tc main_arg6) = m ((c : Thread nD τ).loc main_arg6) :=
  (keep12 m c main_arg6 (by decide)).trans <| (keep10 m c main_arg6 (by decide)).trans (keep7 m c main_arg6 (by decide))
theorem v46_at7 : (Run.V7 m c main_v46 : FVec Ideal S50000x1 .f32)
    = shapeCast S50000x1 (KHost.disK (eA m c)) Gen.shapeCasts_S50000_S50000x1 :=
  (congrFun (Run.W7_gen m c) _).trans (KHost.dis_eq m c)
theorem v39_at9 : (Run.V9 m c main_v39 : IVec S850944 32) = KHost.rowS (eA m c) :=
  (Run.W9_of m c main_v39 (by decide)).trans <| (Run.W8_of m c main_v39 (by decide)).trans <| (congrFun (Run.W7_gen m c) _).trans (KHost.rowS_eq m c)
theorem v32_at11 : ScatterValue.colArr (Run.V11 m) c = KHost.colS (eA m c) :=
  (Run.W11_of m c main_v32 (by decide)).trans <| (keep10 m c main_v32 (by decide)).trans <| (congrFun (Run.W7_gen m c) _).trans (KHost.colS_eq m c)
theorem v16_at10 : (Run.W10 m c (Proc.devRef .tc main_v16) : FVec Ideal S50000 .f32) = KHost.disK (eA m c) :=
  (keep10 m c main_v16 (by decide)).trans <| (congrFun (Run.W7_gen m c) _).trans (KHost.dis16_eq m c)

theorem adm1_at (k : Fin pre1.K) : (Run.adm1 m).1 k = Gen.V7 m c (Proc.devRef .tc (pre1.ref k)) := by
  obtain rfl : c = Run.c₀ := Subsingleton.elim _ _
  exact (Run.adm1_val m k).trans (congrFun (Run.W7_gen m Run.c₀) _)
theorem adm2_at (k : Fin pre2.K) : (Run.adm2 m).1 k = Gen.V7 m c (Proc.devRef .tc (pre2.ref k)) := by
  obtain rfl : c = Run.c₀ := Subsingleton.elim _ _
  exact (Run.adm2_val m k).trans (congrFun (Run.W7_gen m Run.c₀) _)

theorem w8_v47 : (Run.W8 m c (Proc.devRef .tc main_v47) : FVec Ideal S50000x64 .f32)
    = LinValue.linArr (xA m c) (wA m c) (shapeCast S50000x1 (KHost.disK (eA m c)) Gen.shapeCasts_S50000_S50000x1) := by
  refine (Run.W8_arr m c 3).trans <| (LinValue.lin_final (Run.V7 m) c).trans ?_
  rw [arg0_at7 m c, arg3_at7 m c, v46_at7 m c]

theorem col_apply (d : FVec Ideal S50000 .f32) (n : Fin 50000) :
    shapeCast S50000x1 d Gen.shapeCasts_S50000_S50000x1 (ValueIdx.ix2 n (0 : Fin 1)) = d (ValueIdx.ix1 n) :=
  shapeCast_apply _ _ (ValueIdx.ix2 n (0 : Fin 1)) (ValueIdx.ix1 n) (by
    rw [Shape.rowMajor_val_two, Shape.rowMajor_val_one]; show n.val = n.val * 1 + 0; omega)

theorem hs_at9 (n : Fin 57344) (k : Fin 64) :
    (Run.V9 m c main_v49 : FVec Ideal S57344x64 .f32) (ValueIdx.ix2 n k) = hsPad (xA m c) (eA m c) (wA m c) n k := by
  show (Run.W9 m c (Proc.devRef .tc main_v49) : FVec Ideal S57344x64 .f32) (ValueIdx.ix2 n k) = _
  rw [Run.W9_def, KHostTail.pad_h (Run.W8 m c) n k]
  unfold hsPad
  by_cases h : n.val < 50000
  · rw [dif_pos h, dif_pos h, w8_v47 m c]
    show (∑ d : Fin 128, xA m c (ValueIdx.ix2 (⟨n.val, h⟩ : Fin 50000) d) * wA m c (ValueIdx.ix2 k d))
        * shapeCast S50000x1 (KHost.disK (eA m c)) Gen.shapeCasts_S50000_S50000x1 (ValueIdx.ix2 (⟨n.val, h⟩ : Fin 50000) (0 : Fin 1)) = _
    rw [col_apply]
  · rw [dif_neg h, dif_neg h]

-- The gathered features: at edge e' the padded features' row at the edge's sorted source.
theorem feat_at11 (e' : Fin 850944) (k : Fin 64) :
    ScatterValue.featArr (Run.V11 m) c (ValueIdx.ix2 e' k)
      = ∑ n : Fin 57344, (if KHost.rowS (eA m c) (ValueIdx.ix1 e') = BitVec.ofNat 32 n.val then (1 : EReal) else 0)
          * hsPad (xA m c) (eA m c) (wA m c) n k :=
  @Eq.trans EReal _ _ _ (congrFun (show (Run.W11 m c (Proc.devRef .tc main_v50) : FVec Ideal S850944x64 .f32) = _ from
      (Run.W11_of m c main_v50 (by decide)).trans <| (Run.W10_arr m c 2).trans
        (GatherValue.gather_final (Run.adm1 m) (Run.V9 m) c fun t l => by
          rw [TableWords.gat_mnAt, TableWords.gat_mxAt, v39_at9 m c, adm1_at m c 0, adm1_at m c 1]
          exact KHostTables.rowTables m c ⟨t.val, lt_of_lt_of_eq t.isLt N_1⟩ l)) (ValueIdx.ix2 e' k))
    (Finset.sum_congr rfl fun n _ => congrArg₂ (· * ·)
      (if_congr (Eq.congr_left (congrFun (v39_at9 m c) _)) rfl rfl) (hs_at9 m c n k))

theorem deg_at11 (n : Fin 50000) :
    ScatterValue.degArr (Run.V11 m) c (ValueIdx.ix2 (⟨n.val, by have := n.isLt; omega⟩ : Fin 57344) (0 : Fin 1))
      = KHost.disK (eA m c) (ValueIdx.ix1 n) := by
  show (Run.W11 m c (Proc.devRef .tc main_v53) : FVec Ideal S57344x1 .f32) _ = _
  rw [Run.W11_def, KHostTail.pad_dis (Run.W10 m c) _, dif_pos n.isLt, v16_at10 m c]

theorem bias_at11 (k : Fin 64) :
    ScatterValue.biasArr (Run.V11 m) c (ValueIdx.ix2 (0 : Fin 1) k) = bA m c (ValueIdx.ix1 k) := by
  show (Run.W11 m c (Proc.devRef .tc main_v54) : FVec Ideal S1x64 .f32) _ = _
  rw [Run.W11_def, KHostTail.bias2d (Run.W10 m c) k, arg4_at10 m c]

-- The first 50000 rows of the aggregated layer, as one function of the launch arguments.
theorem out_eq : KHostTail.rows50000 (Run.W12 m c (Proc.devRef .tc main_v55)) = kernelOut (xA m c) (eA m c) (wA m c) (bA m c) := by
  funext i
  obtain ⟨n, k, rfl⟩ : ∃ (n : Fin 50000) (k : Fin 64), i = ValueIdx.ix2 n k := ⟨i 0, i 1, ValueIdx.eq_ix2 i⟩
  rw [KHostTail.rows50000_apply, show (Run.W12 m c (Proc.devRef .tc main_v55) : FVec Ideal S57344x64 .f32) = _ from
    (Run.W12_arr m c 4).trans (ScatterValue.scatter_final (Run.adm2 m) (Run.V11 m) c fun t l => by
      rw [TableWords.sct_mnAt, TableWords.sct_mxAt, v32_at11 m c, adm2_at m c 0, adm2_at m c 1]
      exact KHostTables.colTables m c ⟨t.val % 831, Nat.mod_lt _ (by decide)⟩ l)]
  show max ((∑ e' : Fin 850944, (if ScatterValue.colArr (Run.V11 m) c (ValueIdx.ix1 e') = BitVec.ofNat 32 n.val then (1 : EReal) else 0)
        * ScatterValue.featArr (Run.V11 m) c (ValueIdx.ix2 e' k))
      * ScatterValue.degArr (Run.V11 m) c (ValueIdx.ix2 (⟨n.val, by have := n.isLt; omega⟩ : Fin 57344) (0 : Fin 1))
      + ScatterValue.biasArr (Run.V11 m) c (ValueIdx.ix2 (0 : Fin 1) k)) 0 = _
  rw [deg_at11 m c n, bias_at11 m c k, v32_at11 m c, Finset.sum_congr rfl fun e' _ => congrArg
    ((if KHost.colS (eA m c) (ValueIdx.ix1 e') = BitVec.ofNat 32 n.val then (1 : EReal) else 0) * ·) (feat_at11 m c e' k)]
  rfl

theorem kernel_result :
    (Run.W15 m c (Proc.devRef .tc main_v75) : FVec Ideal S50000x64 .f32)
      = KHostTail.bnTailK (kernelOut (m ((c : Thread nD τ).loc main_arg0)) (m ((c : Thread nD τ).loc main_arg1))
          (m ((c : Thread nD τ).loc main_arg3)) (m ((c : Thread nD τ).loc main_arg4)))
          (m ((c : Thread nD τ).loc main_arg5)) (m ((c : Thread nD τ).loc main_arg6)) := by
  rw [Run.W15_def, Run.W14_def, Run.W13_def, KHostTail.tail, out_eq m c, arg5_at12 m c, arg6_at12 m c]

end

end Cert.KernelIdeal.KernelValue

end
-- ==== Proof.RefIndex.lean ====
import proofs.«401429_j309237645711_3_alg».proof.ReferenceIdeal
import proofs.«401429_j309237645711_3_alg».proof.Proof.Gen.ReferenceIdeal
import Idealize.ShloMosaic.Lib.StableHlo.Predicate
import Idealize.ShloMosaic.Lib.ValueIdxRank1
import Idealize.ShloMosaic.PureOps.Ideal

noncomputable section

open scoped BigOperators

namespace Cert.ReferenceIdeal.RefIndex

open Idealize.ShloMosaic Idealize.ShloMosaic.StableHlo Idealize.ShloMosaic.ValueIdx

abbrev matTake (N C n : Nat) (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

abbrev vecPut (N n : Nat) (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

abbrev matPut (N C n : Nat) (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

theorem ix1_eq_ofFin {n : Nat} (k : Fin n) : ix1 k = Shape.Idx.ofFin k :=
  funext fun a => match a with | ⟨0, _⟩ => rfl

theorem matTake_apply {α : Type} {N C n w : Nat} (hN : 0 < N) (wf) (x : (⟨2, ![N, C]⟩ : Shape).Idx → α)
    (idx : IVec ⟨2, ![n, 1]⟩ w) (u : Fin n) (k : Fin C) :
    Host.gather (matTake N C n wf) x idx (ix2 u k)
      = x (ix2 ⟨min (idx (ix2 u (0 : Fin 1))).toInt.toNat (N - 1), by omega⟩ k) := by
  unfold Host.gather
  refine congrArg x (funext fun a => Fin.ext ?_)
  match a with
  | ⟨0, _⟩ =>
    show (matTake N C n wf).start (ix2 u k) idx 0 + (matTake N C n wf).batchCoord (ix2 u k) 0
      + (matTake N C n wf).offCoord (ix2 u k) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (matTake N C n wf).startIndexMap from List.mem_singleton.mpr rfl)]
    exact congrArg (fun i => min (idx i).toInt.toNat (N - 1))
      (funext fun b => Fin.ext (match b with | ⟨0, _⟩ => rfl | ⟨1, _⟩ => rfl))
  | ⟨1, _⟩ =>
    show (matTake N C n wf).start (ix2 u k) idx 1 + (matTake N C n wf).batchCoord (ix2 u k) 1
      + (matTake N C n wf).offCoord (ix2 u k) 1 = k.val
    have hk : (1 : Fin 2) ∈ (matTake N C n wf).sKept := (GatherDims.mem_sKept _ _).mpr ⟨by simp, by simp⟩
    unfold GatherDims.start GatherDims.offCoord
    rw [dif_neg (show (1 : Fin 2) ∉ (matTake N C n wf).startIndexMap by simp),
      GatherDims.batchCoord_eq_zero _ _ _ List.not_mem_nil, dif_pos hk]
    exact Nat.zero_add _

theorem toInt_eq_natCast_iff (w : BitVec 32) (v : Nat) (hv : v < 2 ^ 31) : w.toInt = (v : ℤ) ↔ w = BitVec.ofNat 32 v := by
  rw [← Predicate.toInt_ofNat_small v hv]
  exact BitVec.toInt_inj

-- An update lands on an element exactly when, on every axis, start plus window coordinate is the element's coordinate.
theorem resultIdx?_eq_some_iff {s si t : Shape} (d : ScatterDims s si t) {w : Nat} (j : t.Idx) (idx : IVec si w) (i : s.Idx) :
    d.resultIdx? j idx = some i ↔ ∀ a, d.start j idx a + d.window j a = ((i a).val : ℤ) := by
  unfold ScatterDims.resultIdx?
  split
  · next h =>
    rw [Option.some.injEq, funext_iff]
    refine forall_congr' fun a => Fin.ext_iff.trans ?_
    show (d.start j idx a + d.window j a).toNat = (i a).val ↔ _
    have := (h a).1
    omega
  · next h =>
    refine iff_of_false nofun (fun hi => h fun a => ?_)
    rw [hi a]
    exact ⟨Int.natCast_nonneg _, Int.ofNat_lt.2 (i a).isLt⟩

-- On an axis whose start is read off the index column and whose window coordinate is absent, start plus window is the index word read signed.
theorem start_add_window {s t : Shape} {n w : Nat} (d : ScatterDims s ⟨2, ![n, 1]⟩ t) (j : t.Idx) (idx : IVec ⟨2, ![n, 1]⟩ w)
    (a : Fin s.rank) (u : Fin n) (ha : a ∈ d.scatterDimsToOperandDims) (hk : a ∉ d.sKept)
    (hsi : d.siIdx j ⟨_, List.idxOf_lt_length_iff.2 ha⟩ = ix2 u (0 : Fin 1)) :
    d.start j idx a + d.window j a = (idx (ix2 u (0 : Fin 1))).toInt := by
  unfold ScatterDims.start ScatterDims.window
  rw [dif_pos ha, dif_neg hk, hsi]
  exact add_zero _

theorem matPut_sum1 {N C n : Nat} (wf) (idx : IVec ⟨2, ![n, 1]⟩ 32) (u : Fin n) (k : Fin C) :
    (matPut N C n wf).start (ix2 u k) idx 1 + (matPut N C n wf).window (ix2 u k) 1 = (k.val : ℤ) := by
  have hk : (1 : Fin 2) ∈ (matPut N C n wf).sKept := by simp [ScatterDims.sKept, Shape.kept]
  unfold ScatterDims.start ScatterDims.window
  rw [dif_neg (show (1 : Fin 2) ∉ (matPut N C n wf).scatterDimsToOperandDims by simp), dif_pos hk]
  exact zero_add _

theorem vecPut_add {N n : Nat} (hN : N ≤ 2 ^ 31) (wf) (z : FVec Ideal ⟨1, ![N]⟩ .f32) (idx : IVec ⟨2, ![n, 1]⟩ 32)
    (upd : FVec Ideal ⟨1, ![n]⟩ .f32) (v : Fin N) :
    Host.scatterAdd (F := Ideal) (vecPut N n wf) z idx upd (ix1 v)
      = z (ix1 v) + ∑ u : Fin n, if idx (ix2 u (0 : Fin 1)) = BitVec.ofNat 32 v.val then upd (ix1 u) else 0 := by
  unfold Host.scatterAdd
  rw [Ideal.hostScatterAdd_def]
  unfold Ideal.hostScatterAdd
  refine congrArg (z (ix1 v) + ·) ?_
  rw [Finset.sum_filter]
  refine Eq.symm (Fintype.sum_equiv idxEquiv1.symm
    (fun u : Fin n => if idx (ix2 u (0 : Fin 1)) = BitVec.ofNat 32 v.val then upd (ix1 u) else 0) _ (fun u => ?_))
  exact if_congr ((resultIdx?_eq_some_iff _ _ _ _).trans (Fin.forall_fin_one.trans <|
    (Eq.congr_left (start_add_window (vecPut N n wf) (ix1 u) idx 0 u (List.mem_singleton.mpr rfl)
      (fun h => (of_decide_eq_true (List.mem_filter.mp h).2) (List.mem_singleton.mpr rfl))
      (funext fun b => Fin.ext (match b with | ⟨0, _⟩ => rfl | ⟨1, _⟩ => rfl)))).trans (toInt_eq_natCast_iff _ _ (lt_of_lt_of_le v.isLt hN)))).symm rfl rfl

theorem matPut_hit {N C n : Nat} (hN : N ≤ 2 ^ 31) (wf) (idx : IVec ⟨2, ![n, 1]⟩ 32) (u : Fin n) (k k' : Fin C) (v : Fin N) :
    (matPut N C n wf).resultIdx? (ix2 u k) idx = some (ix2 v k')
      ↔ (idx (ix2 u (0 : Fin 1)) = BitVec.ofNat 32 v.val ∧ k = k') := by
  refine (resultIdx?_eq_some_iff _ _ _ _).trans (Fin.forall_fin_two.trans ?_)
  rw [matPut_sum1, start_add_window (matPut N C n wf) (ix2 u k) idx 0 u (List.mem_singleton.mpr rfl)
      (fun h => (of_decide_eq_true (List.mem_filter.mp h).2) (List.mem_singleton.mpr rfl))
      (funext fun b => Fin.ext (match b with | ⟨0, _⟩ => rfl | ⟨1, _⟩ => rfl))]
  exact and_congr (toInt_eq_natCast_iff _ _ (lt_of_lt_of_le v.isLt hN)) (Nat.cast_inj.trans Fin.val_inj)

theorem matPut_add {N C n : Nat} (hN : N ≤ 2 ^ 31) (wf) (z : FVec Ideal ⟨2, ![N, C]⟩ .f32) (idx : IVec ⟨2, ![n, 1]⟩ 32)
    (upd : FVec Ideal ⟨2, ![n, C]⟩ .f32) (v : Fin N) (k : Fin C) :
    Host.scatterAdd (F := Ideal) (matPut N C n wf) z idx upd (ix2 v k)
      = z (ix2 v k) + ∑ u : Fin n, if idx (ix2 u (0 : Fin 1)) = BitVec.ofNat 32 v.val then upd (ix2 u k) else 0 := by
  unfold Host.scatterAdd
  rw [Ideal.hostScatterAdd_def]
  unfold Ideal.hostScatterAdd
  refine congrArg (z (ix2 v k) + ·) ?_
  rw [Finset.sum_filter, sum_idx2]
  refine Finset.sum_congr rfl (fun u _ => ?_)
  rw [Finset.sum_eq_single k]
  · exact if_congr ((matPut_hit hN wf idx u k k v).trans (and_iff_left rfl)) rfl rfl
  · intro k'' _ hne
    exact if_neg (fun hP => hne ((matPut_hit hN wf idx u k'' k v).mp hP).2)
  · intro h; exact absurd (Finset.mem_univ k) h

theorem gather_vec_apply {α : Type} (x : S50000.Idx → α) (idx : IVec S850000x1 32) (u : Fin 850000) :
    Host.gather gather_S50000_S850000x1_S850000_n_0_n_n_0_1_1 x idx (ix1 u)
      = x (ix1 ⟨min (idx (ix2 u (0 : Fin 1))).toInt.toNat 49999, by omega⟩) := by
  simpa only [← ix1_eq_ofFin, show Predicate.ixP u = ix2 u (0 : Fin 1) from
    funext fun b => match b with | ⟨0, _⟩ => rfl | ⟨1, _⟩ => rfl]
    using Predicate.gather_take gather_S50000_S850000x1_S850000_n_0_n_n_0_1_1 rfl rfl rfl rfl x idx u (by decide)

theorem gather_mat_apply {α : Type} (x : S50000x64.Idx → α) (idx : IVec S850000x1 32) (u : Fin 850000) (k : Fin 64) :
    Host.gather gather_S50000x64_S850000x1_S850000x64_1_0_n_n_0_1_164 x idx (ix2 u k)
      = x (ix2 ⟨min (idx (ix2 u (0 : Fin 1))).toInt.toNat 49999, by omega⟩ k) :=
  matTake_apply (by decide) Gen.gather_S50000x64_S850000x1_S850000x64_1_0_n_n_0_1_164_wf x idx u k

theorem scatterAdd_vec_apply (z : FVec Ideal S50000 .f32) (idx : IVec S850000x1 32) (upd : FVec Ideal S850000 .f32) (v : Fin 50000) :
    Host.scatterAdd (F := Ideal) scatter_S50000_S850000x1_S850000_n_0_0_1 z idx upd (ix1 v)
      = z (ix1 v) + ∑ u : Fin 850000,
          if idx (ix2 u (0 : Fin 1)) = BitVec.ofNat 32 v.val then upd (ix1 u) else 0 :=
  vecPut_add (by decide) Gen.scatter_S50000_S850000x1_S850000_n_0_0_1_wf z idx upd v

theorem scatterAdd_mat_apply (z : FVec Ideal S50000x64 .f32) (idx : IVec S850000x1 32) (upd : FVec Ideal S850000x64 .f32)
    (v : Fin 50000) (k : Fin 64) :
    Host.scatterAdd (F := Ideal) scatter_S50000x64_S850000x1_S850000x64_1_0_0_1 z idx upd (ix2 v k)
      = z (ix2 v k) + ∑ u : Fin 850000,
          if idx (ix2 u (0 : Fin 1)) = BitVec.ofNat 32 v.val then upd (ix2 u k) else 0 :=
  matPut_add (by decide) Gen.scatter_S50000x64_S850000x1_S850000x64_1_0_0_1_wf z idx upd v k

end Cert.ReferenceIdeal.RefIndex

end
-- ==== Proof.RefValue.lean ====
import proofs.«401429_j309237645711_3_alg».proof.Proof.RefRun
import proofs.«401429_j309237645711_3_alg».proof.Proof.RefIndex
import Idealize.ShloMosaic.PureOps.Ideal.Laws
import Idealize.ShloMosaic.Lib.ValueIdx
import Idealize.ShloMosaic.Lib.IdealHost
import Idealize.ShloMosaic.Lib.Pipeline.Value
import Idealize.ShloMosaic.Lib.StackMember

noncomputable section

open scoped BigOperators

namespace Cert.ReferenceIdeal.RefValue

open Cert.ReferenceIdeal Cert.ReferenceIdeal.Gen Cert.ReferenceIdeal.RefRun Idealize.ShloMosaic Idealize.ShloMosaic.ValueIdx

variable (x : FVec Ideal S50000x128 .f32) (ei : IVec S2x800000 32) (w : FVec Ideal S64x128 .f32) (b : FVec Ideal S64 .f32)

theorem rowOf_apply_edge (u : Fin 850000) (hu : u.val < 800000) :
    rowOf ei (ix1 u) = ei (ix2 (⟨0, by decide⟩ : Fin 2) ⟨u.val, hu⟩) := by
  unfold rowOf
  refine (concatenate_pair_apply_left (s₁ := S800000) (s₂ := S50000) (0 : Fin S850000.rank) _ _ _ _ rfl
    (ix1 ⟨u.val, hu⟩) (fun b => match b with | ⟨0, _⟩ => rfl)).trans ?_
  refine (shapeCast_apply _ _ _ (ix2 (⟨0, by decide⟩ : Fin 1) ⟨u.val, hu⟩) ?_).trans ?_
  · rw [Shape.rowMajor_val_two, Shape.rowMajor_val_one]
    show 0 * 800000 + u.val = u.val
    omega
  exact extractStridedSlice_apply _ ei _ _ _ (fun a => match a with | ⟨0, _⟩ => rfl | ⟨1, _⟩ => (Nat.zero_add _).symm)

theorem rowOf_apply_loop (u : Fin 850000) (hu : ¬u.val < 800000) :
    rowOf ei (ix1 u) = BitVec.ofNat 32 (u.val - 800000) := by
  unfold rowOf
  refine (concatenate_pair_apply_right (s₁ := S800000) (s₂ := S50000) (0 : Fin S850000.rank) _ _ _ _ rfl rfl
    (ix1 ⟨u.val - 800000, by have := u.isLt; omega⟩) (fun b hb => match b with | ⟨0, _⟩ => absurd rfl hb) ?_).trans rfl
  show u.val - 800000 + 800000 = u.val
  omega

theorem rowOf_range
    (hrow : ∀ e : Fin 800000, 0 ≤ (ei (ix2 (⟨0, by decide⟩ : Fin 2) e)).toInt ∧ (ei (ix2 (⟨0, by decide⟩ : Fin 2) e)).toInt < 50000)
    (u : Fin 850000) :
    (rowOf ei (ix1 u)).toNat < 50000 ∧ rowOf ei (ix1 u) = BitVec.ofNat 32 (rowOf ei (ix1 u)).toNat
      ∧ 0 ≤ (rowOf ei (ix1 u)).toInt := by
  have key : (rowOf ei (ix1 u)).toNat < 50000 := by
    by_cases hu : u.val < 800000
    · rw [rowOf_apply_edge ei u hu]
      have hc := BitVec.toInt_eq_toNat_cond (ei (ix2 (⟨0, by decide⟩ : Fin 2) ⟨u.val, hu⟩))
      have hlt := (ei (ix2 (⟨0, by decide⟩ : Fin 2) ⟨u.val, hu⟩)).isLt
      have := hrow ⟨u.val, hu⟩
      omega
    · rw [rowOf_apply_loop ei u hu, BitVec.toNat_ofNat]
      have := u.isLt
      omega
  have := BitVec.toInt_eq_toNat_cond (rowOf ei (ix1 u))
  exact ⟨key, BitVec.eq_of_toNat_eq (by rw [BitVec.toNat_ofNat, Nat.mod_eq_of_lt (rowOf ei (ix1 u)).isLt]), by omega⟩

theorem hOf_apply (n : Fin 50000) (k : Fin 64) :
    hOf x w (ix2 n k) = ∑ d : Fin 128, x (ix2 n d) * w (ix2 k d) := by
  unfold hOf
  refine (StackMember.dotGeneral_plain_apply (m := 50000) (n := 64) (k := 128) none x _ n k).trans ?_
  refine Finset.sum_congr rfl fun d _ => ?_
  congr 1
  exact transpose_apply _ w _ (ix2 d k) (ix2 k d) (fun b => match b with | ⟨0, _⟩ => rfl | ⟨1, _⟩ => rfl)

theorem col1_apply {α : Type} (f : S850000.Idx → α) (u : Fin 850000) :
    broadcastInDim S850000x1 ![0] bcast_S850000_S850000x1_0 f (ix2 u (0 : Fin 1)) = f (ix1 u) :=
  broadcastInDim_apply _ _ _ _ (ix1 u) (fun a => match a with | ⟨0, _⟩ => rfl)

theorem colIdx_apply (v : IVec S850000 32) (u : Fin 850000) : colIdx v (ix2 u (0 : Fin 1)) = v (ix1 u) :=
  col1_apply v u

theorem edgeBcast_apply (nv : FVec Ideal S850000 .f32) (u : Fin 850000) (k : Fin 64) :
    broadcastInDim S850000x64 ![0, 1] bcast_S850000x1_S850000x64_0_1
      (broadcastInDim S850000x1 ![0] bcast_S850000_S850000x1_0 nv) (ix2 u k) = nv (ix1 u) :=
  (broadcastInDim_apply _ _ _ (ix2 u k) (ix2 u (0 : Fin 1)) (fun a => match a with | ⟨0, _⟩ => rfl | ⟨1, _⟩ => rfl)).trans
    (col1_apply nv u)

theorem wrapOf_apply (v : IVec S850000 32) (u : Fin 850000) (h : 0 ≤ (v (ix1 u)).toInt) :
    wrapOf v (ix1 u) = v (ix1 u) := by
  unfold wrapOf
  rw [select_apply]
  have hc : cmpi .slt v (broadcastInDim S850000 ![] bcast_S_S850000 (constantI S_ 32 0#32)) (ix1 u) = 0#1 := by
    show BitVec.ofBool ((v (ix1 u)).slt 0#32) = 0#1
    rw [BitVec.slt_eq_decide, show (0#32 : BitVec 32).toInt = 0 from rfl, decide_eq_false (not_lt.2 h)]
    rfl
  rw [hc, select_zero]

-- A node's word, wrapped, read signed and clamped into [0, 49999], is the node's number.
theorem clamp_wrap_eq (v : IVec S850000 32) (u : Fin 850000) (n : Nat) (hn : n < 50000)
    (h : v (ix1 u) = BitVec.ofNat 32 n) :
    min (colIdx (wrapOf v) (ix2 u (0 : Fin 1))).toInt.toNat 49999 = n := by
  have hi : (v (ix1 u)).toInt = (n : Int) := by rw [h]; exact StableHlo.Predicate.toInt_ofNat_small n (by omega)
  rw [colIdx_apply, wrapOf_apply v u (by rw [hi]; exact Int.natCast_nonneg _), hi, Int.toNat_natCast]
  omega

theorem degOf_count (v : Fin 50000) :
    degOf ei (ix1 v) = 0 + ∑ u : Fin 850000, if colOf ei (ix1 u) = BitVec.ofNat 32 v.val then (1 : EReal) else 0 := by
  unfold degOf
  rw [RefIndex.scatterAdd_vec_apply, broadcastInDim_scalar_apply, constant_apply, Ideal.ofBits_zero_f32]
  refine congrArg (fun s : EReal => 0 + s) (Finset.sum_congr rfl fun u _ => ?_)
  rw [colIdx_apply, broadcastInDim_scalar_apply, constant_apply, Ideal.ofBits_one_f32]

-- A degree is a finite sum of ones and zeros.
theorem degOf_real (v : Fin 50000) : ∃ r : ℝ, degOf ei (ix1 v) = (r : EReal) := by
  rw [degOf_count, zero_add]
  refine Finset.sum_induction _ (fun y : EReal => ∃ r : ℝ, y = (r : EReal)) ?_ ⟨0, EReal.coe_zero.symm⟩ fun u _ => ?_
  · rintro a c ⟨ra, rfl⟩ ⟨rc, rfl⟩
    exact ⟨ra + rc, (EReal.coe_add ra rc).symm⟩
  · by_cases hc : colOf ei (ix1 u) = BitVec.ofNat 32 v.val
    · exact ⟨1, (if_pos hc).trans EReal.coe_one.symm⟩
    · exact ⟨0, (if_neg hc).trans EReal.coe_zero.symm⟩

theorem hostRsqrt_at {s : Shape} (a : FVec Ideal s .f32) (i : s.Idx) :
    Host.rsqrt (F := Ideal) a i = Ideal.rsqrt (a i) := rfl

theorem disOf_real (v : Fin 50000) : ∃ r : ℝ, disOf ei (ix1 v) = (r : EReal) := by
  obtain ⟨r, hr⟩ := degOf_real ei v
  unfold disOf
  rw [select_apply]
  unfold Scalar.select
  split
  · refine ⟨(Real.sqrt (max r 1))⁻¹, ?_⟩
    rw [hostRsqrt_at, maximumf_apply, hr, broadcastInDim_scalar_apply, constant_apply, Ideal.ofBits_one_f32,
      ← EReal.coe_one,
      ← (EReal.coe_strictMono.monotone.map_max : ((max r 1 : ℝ) : EReal) = max (r : EReal) ((1 : ℝ) : EReal)), Ideal.rsqrt_coe,
      if_neg (not_lt.2 (le_trans zero_le_one (le_max_right r 1))),
      if_neg (ne_of_gt (lt_of_lt_of_le zero_lt_one (le_max_right r 1)))]
  · refine ⟨0, ?_⟩
    rw [broadcastInDim_scalar_apply]
    exact Ideal.ofBits_zero_f32.trans EReal.coe_zero.symm

-- For an edge whose target word is node v's, both clamped reads are exact: the target is v and the source is in range.
theorem aggOf_apply
    (hrow : ∀ e : Fin 800000, 0 ≤ (ei (ix2 (⟨0, by decide⟩ : Fin 2) e)).toInt ∧ (ei (ix2 (⟨0, by decide⟩ : Fin 2) e)).toInt < 50000)
    (v : Fin 50000) (k : Fin 64) :
    aggOf x ei w (ix2 v k)
      = 0 + ∑ u : Fin 850000,
          if colOf ei (ix1 u) = BitVec.ofNat 32 v.val then
            (disOf ei (ix1 (⟨(rowOf ei (ix1 u)).toNat, (rowOf_range ei hrow u).1⟩ : Fin 50000)) * disOf ei (ix1 v))
              * hOf x w (ix2 (⟨(rowOf ei (ix1 u)).toNat, (rowOf_range ei hrow u).1⟩ : Fin 50000) k)
          else 0 := by
  unfold aggOf
  rw [RefIndex.scatterAdd_mat_apply, broadcastInDim_scalar_apply, constant_apply, Ideal.ofBits_zero_f32]
  refine congrArg (fun s : EReal => 0 + s) (Finset.sum_congr rfl fun u _ => ?_)
  rw [colIdx_apply]
  refine if_ctx_congr Iff.rfl (fun hc => ?_) (fun _ => rfl)
  have hr : ∀ p, (⟨min (colIdx (wrapOf (rowOf ei)) (ix2 u (0 : Fin 1))).toInt.toNat 49999, p⟩ : Fin 50000)
      = ⟨(rowOf ei (ix1 u)).toNat, (rowOf_range ei hrow u).1⟩ := fun p =>
    Fin.ext (clamp_wrap_eq _ u _ (rowOf_range ei hrow u).1 (rowOf_range ei hrow u).2.1)
  have hcl : ∀ p, (⟨min (colIdx (wrapOf (colOf ei)) (ix2 u (0 : Fin 1))).toInt.toNat 49999, p⟩ : Fin 50000) = v := fun p =>
    Fin.ext (clamp_wrap_eq _ u _ v.isLt hc)
  unfold msgOf
  rw [mulf_apply, edgeBcast_apply, RefIndex.gather_mat_apply, hr]
  unfold normOf
  rw [mulf_apply, RefIndex.gather_vec_apply, RefIndex.gather_vec_apply, hr, hcl]

theorem rowBcast_apply (v : Fin 50000) (k : Fin 64) : rowBcast b (ix2 v k) = b (ix1 k) :=
  (broadcastInDim_apply _ _ _ (ix2 v k) (ix2 (0 : Fin 1) k) (fun a => match a with | ⟨0, _⟩ => rfl | ⟨1, _⟩ => rfl)).trans
    (broadcastInDim_apply _ _ _ _ (ix1 k) (fun a => match a with | ⟨0, _⟩ => rfl))

theorem refOut_apply (v : Fin 50000) (k : Fin 64) :
    refOut x ei w b (ix2 v k) = max (aggOf x ei w (ix2 v k) + b (ix1 k)) 0 := by
  unfold refOut
  rw [maximumf_apply, addf_apply, rowBcast_apply, broadcastInDim_scalar_apply, constant_apply, Ideal.ofBits_zero_f32]

end Cert.ReferenceIdeal.RefValue

end
-- ==== Proof.PreFacts.lean ====
import proofs.«401429_j309237645711_3_alg».proof.Pre_finite_inputs
import proofs.«401429_j309237645711_3_alg».proof.Proof.Gen.Pre_finite_inputs
import Idealize.ShloMosaic.Lib.ReduceAll
import Idealize.ShloMosaic.Lib.StableHlo.Predicate
import Idealize.ShloMosaic.Lib.ValueIdx

set_option maxRecDepth 16384

noncomputable section

namespace Cert.PreFacts

open Idealize.ShloMosaic Idealize.ShloMosaic.StableHlo
open Cert.Pre_finite_inputs

instance subsingleton_scalar_idx : Subsingleton S_.Idx := ⟨fun a b => funext fun d => d.elim0⟩

theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  rw [Predicate.ofBool_eq_one_iff] at h
  have hlt : max x (-x) < ⊤ := of_decide_eq_true h
  rw [max_lt_iff] at hlt
  induction x using EReal.rec with
  | bot => exact absurd hlt.2 (by simp)
  | coe r => exact ⟨r, rfl⟩
  | top => exact absurd hlt.1 (by simp)

theorem toInt_nonneg_of_sge {w : BitVec 32} (h : IntOp.cmpi .sge w 0#32 = 1#1) : 0 ≤ w.toInt := by
  unfold IntOp.cmpi at h
  exact of_decide_eq_true ((Predicate.ofBool_eq_one_iff _).mp h)

theorem toInt_lt_of_slt {w : BitVec 32} (h : IntOp.cmpi .slt w 50000#32 = 1#1) : w.toInt < 50000 := by
  unfold IntOp.cmpi at h
  exact of_decide_eq_true ((Predicate.ofBool_eq_one_iff _).mp h)

theorem real_of_all {s : Shape} {axes : List (Fin s.rank)} (a : FVec Ideal s .f32)
    (hb : S_.BroadcastsInDim s (![] : Fin 0 → Fin s.rank)) (hr : s.ReducesTo axes S_) (h0 : 0 < S_.numel)
    (h : Host.reduce IntOp.andi
        (cmpf .olt (Host.absf a) (broadcastInDim s ![] hb (constant (F := Ideal) S_ .f32 0x7F800000#32)))
        (constantI S_ 1 1#1) hr h0 ValueIdx.ix0 = 1#1) :
    ∀ i, ∃ r : ℝ, a i = (r : EReal) := fun i =>
  real_of_abs_lt_inf (a i) (Host.reduce_andi_all _ _ hr h0 _ h i)

theorem row0_read (a1 : IVec S2x800000 32) (hs : S2x800000.Slices ![0, 0] S1x800000)
    (hc : S1x800000.ShapeCasts S800000) (e : Fin 800000) :
    shapeCast S800000 (extractStridedSlice S1x800000 ![0, 0] a1 hs) hc (ValueIdx.ix1 e)
      = a1 (ValueIdx.ix2 (⟨0, by decide⟩ : Fin 2) e) := by
  unfold shapeCast
  have hk : Shape.reshapeEquiv hc (ValueIdx.ix1 e) = ValueIdx.ix2 (0 : Fin 1) e := by
    apply Shape.reshapeEquiv_eq_of_rowMajor
    rw [Shape.rowMajor_val_two, Shape.rowMajor_val_one]
    show 0 * 800000 + e.val = e.val
    omega
  rw [hk]
  unfold extractStridedSlice
  refine congrArg a1 (funext fun a => ?_)
  match a with
  | ⟨0, _⟩ => exact Fin.ext (by show 0 + 0 = 0; rfl)
  | ⟨1, _⟩ => exact Fin.ext (by show 0 + e.val = e.val; omega)

section Decoded

variable (a0 : FVec Ideal S50000x128 .f32) (a1 : IVec S2x800000 32) (a2 : FVec Ideal S800000x1 .f32)
  (a3 : FVec Ideal S64x128 .f32) (a4 a5 a6 : FVec Ideal S64 .f32)
  (hp : Cert.Pre_finite_inputs.fn (F := Ideal) a0 a1 a2 a3 a4 a5 a6 = fun _ => 1#1)

include hp

-- The precondition is a conjunction of all-true reductions: x and W are real, and every source index lies in [0, 50000).
theorem decoded :
    (∀ i, ∃ r : ℝ, a0 i = (r : EReal)) ∧ (∀ i, ∃ r : ℝ, a3 i = (r : EReal)) ∧ ∀ e : Fin 800000,
    0 ≤ (a1 (ValueIdx.ix2 (⟨0, by decide⟩ : Fin 2) e)).toInt ∧ (a1 (ValueIdx.ix2 (⟨0, by decide⟩ : Fin 2) e)).toInt < 50000 := by
  have e := congrFun hp ValueIdx.ix0
  dsimp only [Cert.Pre_finite_inputs.fn, Cert.Pre_finite_inputs.fn_part1, Cert.Pre_finite_inputs.fn_part2, andi] at e
  simp only [IntOp.andi_eq_one] at e
  obtain ⟨⟨⟨⟨⟨⟨⟨h0, -⟩, h3⟩, -⟩, -⟩, -⟩, hge⟩, hlt⟩ := e
  refine ⟨real_of_all a0 _ _ _ h0, real_of_all a3 _ _ _ h3, fun e => ?_⟩
  rw [← row0_read a1 Facts.slices_S2x800000_S1x800000_0_0 Facts.shapeCasts_S1x800000_S800000 e]
  exact ⟨toInt_nonneg_of_sge (Host.reduce_andi_all _ _ _ _ _ hge (ValueIdx.ix1 e)),
    toInt_lt_of_slt (Host.reduce_andi_all _ _ _ _ _ hlt (ValueIdx.ix1 e))⟩

theorem x_real : ∀ i, ∃ r : ℝ, a0 i = (r : EReal) :=
  (decoded a0 a1 a2 a3 a4 a5 a6 hp).1

theorem w_real : ∀ i, ∃ r : ℝ, a3 i = (r : EReal) :=
  (decoded a0 a1 a2 a3 a4 a5 a6 hp).2.1

theorem row_range : ∀ e : Fin 800000,
    0 ≤ (a1 (ValueIdx.ix2 (⟨0, by decide⟩ : Fin 2) e)).toInt ∧ (a1 (ValueIdx.ix2 (⟨0, by decide⟩ : Fin 2) e)).toInt < 50000 :=
  (decoded a0 a1 a2 a3 a4 a5 a6 hp).2.2

end Decoded

end Cert.PreFacts

end
-- ==== Proof.Aggregate.lean ====
import Mathlib.Data.EReal.Basic
import Mathlib.Data.EReal.Operations
import Mathlib.Algebra.BigOperators.Group.Finset.Basic
import Mathlib.Algebra.BigOperators.Ring.Finset
import Mathlib.Tactic.Ring

namespace Cert.Aggregate

open Finset

theorem coe_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

theorem word_eq_ofNat_iff (w : BitVec 32) (n : ℕ) (hn : n < 2 ^ 32) :
    w = BitVec.ofNat 32 n ↔ w.toNat = n := by
  rw [← BitVec.toNat_inj, BitVec.toNat_ofNat, Nat.mod_eq_of_lt hn]

theorem sum_ite_word {α : Type} [AddCommMonoid α] (Np : ℕ) (hNp : Np ≤ 2 ^ 32) (w : BitVec 32)
    (f : Fin Np → α) :
    (∑ n : Fin Np, if w = BitVec.ofNat 32 n.val then f n else 0)
      = if h : w.toNat < Np then f ⟨w.toNat, h⟩ else 0 := by
  have key : ∀ n : Fin Np, w = BitVec.ofNat 32 n.val ↔ w.toNat = n.val := fun n =>
    word_eq_ofNat_iff w n.val (lt_of_lt_of_le n.isLt hNp)
  by_cases h : w.toNat < Np
  · rw [dif_pos h, Finset.sum_eq_single_of_mem (⟨w.toNat, h⟩ : Fin Np) (Finset.mem_univ _)
      (fun b _ hb => if_neg fun hw => hb (Fin.ext ((key b).mp hw).symm))]
    exact if_pos ((key ⟨w.toNat, h⟩).mpr rfl)
  · rw [dif_neg h]
    exact Finset.sum_eq_zero fun n _ => if_neg fun hw => h (lt_of_eq_of_lt ((key n).mp hw) n.isLt)

theorem sum_ite_word_lt {α : Type} [AddCommMonoid α] (N Np : ℕ) (hN : N ≤ Np) (hNp : Np ≤ 2 ^ 32)
    (w : BitVec 32) (hw : w.toNat < N) (g : ℕ → α) :
    (∑ n : Fin Np, if w = BitVec.ofNat 32 n.val then (if n.val < N then g n.val else 0) else 0)
      = g w.toNat := by
  rw [sum_ite_word Np hNp w (fun n => if n.val < N then g n.val else 0),
    dif_pos (lt_of_lt_of_le hw hN)]
  exact if_pos hw

theorem sum_perm_embed {Ep Eo α : Type} [Fintype Ep] [Fintype Eo] [AddCommMonoid α]
    (emb : Eo → Ep) (hemb : Function.Injective emb) (σ : Ep ≃ Ep) (T : Ep → α)
    (hT : ∀ e, e ∉ Set.range emb → T e = 0) :
    ∑ e : Ep, T (σ e) = ∑ u : Eo, T (emb u) :=
  (Equiv.sum_comp σ T).trans
    (Fintype.sum_of_injective emb hemb (fun u => T (emb u)) T hT (fun _ => rfl)).symm

theorem sum_ite_coe_mul {Eo : Type} [Fintype Eo] (c : Eo → Prop) [DecidablePred c] (a : Eo → ℝ)
    (b : ℝ) :
    (∑ u : Eo, if c u then ((a u : ℝ) : EReal) else 0) * ((b : ℝ) : EReal)
      = ∑ u : Eo, if c u then ((a u * b : ℝ) : EReal) else 0 := by
  have h1 : ∀ u : Eo, (if c u then ((a u : ℝ) : EReal) else 0)
      = (((if c u then a u else 0 : ℝ)) : EReal) := fun u => by split <;> rfl
  rw [Finset.sum_congr rfl (fun u _ => h1 u), ← coe_sum, ← EReal.coe_mul, Finset.sum_mul, coe_sum]
  exact Finset.sum_congr rfl fun u _ => by by_cases hc : c u <;> simp [hc]

theorem aggregate {Ep Eo K : Type} [Fintype Ep] [Fintype Eo] [DecidableEq Ep] (N Np : ℕ)
    (hN : N ≤ Np) (hNp : Np ≤ 2 ^ 31)
    (emb : Eo → Ep) (hemb : Function.Injective emb) (σ : Ep ≃ Ep) (rowP colP : Ep → BitVec 32)
    (hpad : ∀ e, e ∉ Set.range emb → ∀ v, v < N → colP e ≠ BitVec.ofNat 32 v)
    (hrow : ∀ u : Eo, (rowP (emb u)).toNat < N)
    (h : ℕ → K → ℝ) (d : ℕ → ℝ) (v : ℕ) (hv : v < N) (k : K) :
    (∑ e : Ep, if colP (σ e) = BitVec.ofNat 32 v then
        (∑ n : Fin Np, if rowP (σ e) = BitVec.ofNat 32 n.val then
          (if n.val < N then ((h n.val k * d n.val : ℝ) : EReal) else 0) else 0) else 0)
        * ((d v : ℝ) : EReal)
      = ∑ u : Eo, if colP (emb u) = BitVec.ofNat 32 v then
          (((d (rowP (emb u)).toNat : ℝ) : EReal) * ((d v : ℝ) : EReal))
            * ((h (rowP (emb u)).toNat k : ℝ) : EReal) else 0 := by
  have hNp32 : Np ≤ 2 ^ 32 := le_trans hNp (by norm_num)
  rw [sum_perm_embed emb hemb σ
    (fun e => if colP e = BitVec.ofNat 32 v then
        (∑ n : Fin Np, if rowP e = BitVec.ofNat 32 n.val then
          (if n.val < N then ((h n.val k * d n.val : ℝ) : EReal) else 0) else 0) else 0)
    (fun e he => if_neg (hpad e he v hv))]
  rw [Finset.sum_congr rfl (fun (u : Eo) _ => congrArg
    (fun x : EReal => if colP (emb u) = BitVec.ofNat 32 v then x else 0)
    (sum_ite_word_lt N Np hN hNp32 (rowP (emb u)) (hrow u)
      (fun n => ((h n k * d n : ℝ) : EReal))))]
  rw [sum_ite_coe_mul (fun u : Eo => colP (emb u) = BitVec.ofNat 32 v)
    (fun u => h (rowP (emb u)).toNat k * d (rowP (emb u)).toNat) (d v)]
  refine Finset.sum_congr rfl fun u _ => if_congr Iff.rfl ?_ rfl
  rw [← EReal.coe_mul, ← EReal.coe_mul]
  congr 1
  ring

end Cert.Aggregate
-- ==== Proof.AggregateGlue.lean ====
import Mathlib.Data.EReal.Basic
import Mathlib.Data.EReal.Operations
import Mathlib.Algebra.BigOperators.Group.Finset.Basic
import Mathlib.Logic.Equiv.Defs
import Mathlib.Tactic.Choose
import proofs.«401429_j309237645711_3_alg».proof.Proof.Aggregate
import proofs.«401429_j309237645711_3_alg».proof.Proof.Blocks

namespace Cert.AggregateGlue

open Finset

theorem glue {Ep Eo K : Type} [Fintype Ep] [Fintype Eo] [DecidableEq Ep] (N Np : ℕ) (hN : N ≤ Np)
    (hNp : Np ≤ 2 ^ 31)
    (emb : Eo → Ep) (hemb : Function.Injective emb) (σ : Ep → Ep) (hσ : Function.Bijective σ)
    (rowP colP : Ep → BitVec 32)
    (hpad : ∀ e, e ∉ Set.range emb → ∀ v, v < N → colP e ≠ BitVec.ofNat 32 v)
    (hrow : ∀ u : Eo, (rowP (emb u)).toNat < N)
    (H : ℕ → K → EReal) (D : ℕ → EReal) (hH : ∀ n k, n < N → ∃ r : ℝ, H n k = (r : EReal))
    (hD : ∀ n, n < N → ∃ r : ℝ, D n = (r : EReal))
    (hsP : Fin Np → K → EReal)
    (hhs : ∀ n k, hsP n k = if n.val < N then H n.val k * D n.val else 0)
    (v : ℕ) (hv : v < N) (k : K) (b : EReal) :
    max ((∑ e : Ep, (if colP (σ e) = BitVec.ofNat 32 v then (1 : EReal) else 0)
        * (∑ n : Fin Np, (if rowP (σ e) = BitVec.ofNat 32 n.val then (1 : EReal) else 0) * hsP n k)) * D v + b) 0
      = max ((0 + (∑ u : Eo, if colP (emb u) = BitVec.ofNat 32 v then
        (D (rowP (emb u)).toNat * D v) * H (rowP (emb u)).toNat k else 0)) + b) 0 := by
  choose! h hh using hH
  choose! d hd using hD
  have key := Cert.Aggregate.aggregate N Np hN hNp emb hemb (Equiv.ofBijective σ hσ) rowP colP hpad hrow h d v hv k
  simp only [Equiv.coe_ofBijective] at key
  have hterm : ∀ n : Fin Np, hsP n k = if n.val < N then ((h n.val k * d n.val : ℝ) : EReal) else 0 := fun n => by
    rw [hhs n k]
    exact if_ctx_congr Iff.rfl (fun hn => by rw [hh n.val k hn, hd n.val hn, EReal.coe_mul]) (fun _ => rfl)
  simp only [Cert.Blocks.onehot_mul, hterm, zero_add, hd _ (hrow _), hh _ _ (hrow _), hd v hv]
  exact congrArg (fun s : EReal => max (s + b) 0) key

end Cert.AggregateGlue
-- ==== Proof.RealFacts.lean ====
import Mathlib.Data.EReal.Basic
import Mathlib.Data.EReal.Operations
import Mathlib.Algebra.BigOperators.Group.Finset.Basic
import Mathlib.Algebra.BigOperators.Ring.Finset

namespace Cert.RealFacts

open Finset

def IsReal (x : EReal) : Prop := ∃ r : ℝ, x = (r : EReal)

theorem isReal_zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem isReal_sum {ι : Type*} (s : Finset ι) (f : ι → EReal) (h : ∀ i ∈ s, IsReal (f i)) :
    IsReal (∑ i ∈ s, f i) :=
  Finset.sum_induction f IsReal (fun _ _ => IsReal.add) isReal_zero h

theorem isReal_sum_mul {ι : Type*} (s : Finset ι) (a b : ι → EReal)
    (ha : ∀ i ∈ s, IsReal (a i)) (hb : ∀ i ∈ s, IsReal (b i)) : IsReal (∑ i ∈ s, a i * b i) :=
  isReal_sum s (fun i => a i * b i) (fun i hi => (ha i hi).mul (hb i hi))

end Cert.RealFacts
-- ==== Proof.Bridge.lean ====
import proofs.«401429_j309237645711_3_alg».proof.Defs
import proofs.«401429_j309237645711_3_alg».proof.Proof.KernelValue
import proofs.«401429_j309237645711_3_alg».proof.Proof.KHostTail
import proofs.«401429_j309237645711_3_alg».proof.Proof.KHost
import proofs.«401429_j309237645711_3_alg».proof.Proof.RefRun
import proofs.«401429_j309237645711_3_alg».proof.Proof.RefValue
import proofs.«401429_j309237645711_3_alg».proof.Proof.PreFacts
import proofs.«401429_j309237645711_3_alg».proof.Proof.AggregateGlue
import proofs.«401429_j309237645711_3_alg».proof.Proof.RealFacts
import Idealize.ShloMosaic.Lib.ValueIdx

set_option maxRecDepth 16384

noncomputable section

namespace Cert.Bridge

open Idealize.ShloMosaic Idealize.ShloMosaic.TcCoe
open Idealize.SL.Sem
open Cert.KernelIdeal
open scoped BigOperators

section Value

variable (x : FVec Ideal S50000x128 .f32) (ei : IVec S2x800000 32) (w : FVec Ideal S64x128 .f32) (b : FVec Ideal S64 .f32)

def Hn : ℕ → Fin 64 → EReal := fun n k =>
  if hn : n < 50000 then Cert.ReferenceIdeal.RefRun.hOf x w (ValueIdx.ix2 (⟨n, hn⟩ : Fin 50000) k) else 0

def Dn : ℕ → EReal := fun n =>
  if hn : n < 50000 then Cert.ReferenceIdeal.RefRun.disOf ei (ValueIdx.ix1 (⟨n, hn⟩ : Fin 50000)) else 0

def rowP : Fin 850944 → BitVec 32 := fun e => KHost.rowPad ei (ValueIdx.ix1 e)

def colP : Fin 850944 → BitVec 32 := fun e => KHost.colPad ei (ValueIdx.ix1 e)

theorem Hn_lt (n : ℕ) (hn : n < 50000) (k : Fin 64) :
    Hn x w n k = Cert.ReferenceIdeal.RefRun.hOf x w (ValueIdx.ix2 (⟨n, hn⟩ : Fin 50000) k) := dif_pos hn
theorem Dn_lt (n : ℕ) (hn : n < 50000) :
    Dn ei n = Cert.ReferenceIdeal.RefRun.disOf ei (ValueIdx.ix1 (⟨n, hn⟩ : Fin 50000)) := dif_pos hn

abbrev emb : Fin 850000 → Fin 850944 := Fin.castLE (by norm_num)

theorem rowP_emb (u : Fin 850000) : rowP ei (emb u) = Cert.ReferenceIdeal.RefRun.rowOf ei (ValueIdx.ix1 u) :=
  KHost.padTo_lt (KHost.rowAll ei) (emb u) u.isLt

theorem colP_emb (u : Fin 850000) : colP ei (emb u) = Cert.ReferenceIdeal.RefRun.colOf ei (ValueIdx.ix1 u) :=
  KHost.padTo_lt (KHost.colAll ei) (emb u) u.isLt

theorem colP_pad (e : Fin 850944) (he : e ∉ Set.range emb) (v : ℕ) (hv : v < 50000) : colP ei e ≠ BitVec.ofNat 32 v := by
  have hge : 850000 ≤ e.val := by
    by_contra hlt
    exact he ⟨⟨e.val, Nat.lt_of_not_le hlt⟩, Fin.ext rfl⟩
  rw [show colP ei e = 57343#32 from KHost.padTo_ge (KHost.colAll ei) e hge]
  intro h
  have h2 := congrArg BitVec.toNat h
  rw [BitVec.toNat_ofNat, BitVec.toNat_ofNat] at h2
  omega

variable (hx : ∀ i, ∃ r : ℝ, x i = (r : EReal)) (hw : ∀ i, ∃ r : ℝ, w i = (r : EReal))
  (hrow : ∀ e : Fin 800000, 0 ≤ (ei (ValueIdx.ix2 (⟨0, by decide⟩ : Fin 2) e)).toInt
    ∧ (ei (ValueIdx.ix2 (⟨0, by decide⟩ : Fin 2) e)).toInt < 50000)

include hrow in

theorem rowP_lt (u : Fin 850000) : (rowP ei (emb u)).toNat < 50000 := by
  rw [rowP_emb]
  exact (Cert.ReferenceIdeal.RefValue.rowOf_range ei hrow u).1

include hx hw in

theorem Hn_real (n : ℕ) (k : Fin 64) (hn : n < 50000) : ∃ r : ℝ, Hn x w n k = (r : EReal) := by
  rw [Hn_lt x w n hn k, Cert.ReferenceIdeal.RefValue.hOf_apply]
  exact Cert.RealFacts.isReal_sum_mul Finset.univ _ _ (fun d _ => hx _) (fun d _ => hw _)

theorem Dn_real (n : ℕ) (hn : n < 50000) : ∃ r : ℝ, Dn ei n = (r : EReal) := by
  rw [Dn_lt ei n hn]
  exact Cert.ReferenceIdeal.RefValue.disOf_real ei _

theorem hsPad_eq (n : Fin 57344) (k : Fin 64) :
    KernelValue.hsPad x ei w n k = if n.val < 50000 then Hn x w n.val k * Dn ei n.val else 0 := by
  unfold KernelValue.hsPad
  by_cases hn : n.val < 50000
  · rw [dif_pos hn, if_pos hn, Hn_lt x w n.val hn k, Dn_lt ei n.val hn, Cert.ReferenceIdeal.RefValue.hOf_apply]
    rfl
  · rw [dif_neg hn, if_neg hn]

include hx hw hrow in

theorem out_apply (v : Fin 50000) (k : Fin 64) :
    KernelValue.kernelOut x ei w b (ValueIdx.ix2 v k) = Cert.ReferenceIdeal.RefRun.refOut x ei w b (ValueIdx.ix2 v k) := by
  refine Eq.trans ?_ ((Cert.AggregateGlue.glue (Ep := Fin 850944) (Eo := Fin 850000) (K := Fin 64) 50000 57344 (by norm_num) (by norm_num)
    emb (Fin.castLE_injective _) (KHost.perm ei) (KHost.perm_bijective ei) (rowP ei) (colP ei)
    (fun e he v hv => colP_pad ei e he v hv) (rowP_lt ei hrow)
    (Hn x w) (Dn ei) (fun n k hn => Hn_real x w hx hw n k hn) (fun n hn => Dn_real ei n hn)
    (fun n k => KernelValue.hsPad x ei w n k) (fun n k => hsPad_eq x ei w n k)
    v.val v.isLt k (b (ValueIdx.ix1 k))).trans ?_)
  · rw [Dn_lt ei v.val v.isLt]
    rfl
  · rw [Cert.ReferenceIdeal.RefValue.refOut_apply, Cert.ReferenceIdeal.RefValue.aggOf_apply x ei w hrow v k]
    refine congrArg (fun s : EReal => max ((0 + s) + b (ValueIdx.ix1 k)) 0) (Finset.sum_congr rfl fun u _ => ?_)
    have hlt := (Cert.ReferenceIdeal.RefValue.rowOf_range ei hrow u).1
    rw [colP_emb ei u, rowP_emb ei u, Dn_lt ei _ hlt, Dn_lt ei v.val v.isLt, Hn_lt x w _ hlt k]

include hx hw hrow in

theorem out_eq : KernelValue.kernelOut x ei w b = Cert.ReferenceIdeal.RefRun.refOut x ei w b := by
  funext i
  rw [ValueIdx.eq_ix2 i]
  exact out_apply x ei w b hx hw hrow (i 0) (i 1)

end Value

theorem result_eq (m : (ℓ : Loc Cert.KernelIdeal.nD Cert.KernelIdeal.τ Cert.KernelIdeal.sig) → Buf (Elt Ideal) ℓ)
    (hp : Cert.Pre_KernelIdeal m) (c : Dev Cert.KernelIdeal.nD) :
    Cert.KernelIdeal.Run.W15 m c (Proc.devRef .tc Cert.KernelIdeal.main_v75)
      = Cert.ReferenceIdeal.RefRun.bnTail
          (Cert.ReferenceIdeal.RefRun.refOut
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4)))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) := by
  refine (KernelValue.kernel_result m c).trans ((KHostTail.bnTail_eq _ _ _).trans ?_)
  refine congrArg (fun o => Cert.ReferenceIdeal.RefRun.bnTail o _ _) ?_
  exact out_eq _ _ _ _ (Cert.PreFacts.x_real _ _ _ _ _ _ _ (hp c)) (Cert.PreFacts.w_real _ _ _ _ _ _ _ (hp c))
    (Cert.PreFacts.row_range _ _ _ _ _ _ _ (hp c))

end Cert.Bridge

end
-- ==== Proof.lean ====
/- A graph-convolution layer with batch normalisation. With h = x Wᵀ, deg v the number of edges into v (a self loop
   added per node) and dis = deg^(-1/2), both programs compute out[v,k] = max(dis v · ∑_{e : col e = v} dis (row e) · h[row e, k]
   + bias k, 0) and then normalise each column over the nodes. The kernel sums over a sorted, padded edge list by one-hot
   products that skip a block of nodes no index of the edge block falls in; the sort is a permutation of a finite sum,
   a padding edge meets no real node, and dis and h are finite reals, so the factor dis v moves across the sum. -/
import proofs.«401429_j309237645711_3_alg».proof.Defs
import proofs.«401429_j309237645711_3_alg».proof.Proof.Gen.Kernel
import proofs.«401429_j309237645711_3_alg».proof.Proof.Gen.KernelIdeal
import proofs.«401429_j309237645711_3_alg».proof.Proof.Gen.ReferenceIdeal
import proofs.«401429_j309237645711_3_alg».proof.Proof.Gen.Pre_finite_inputs
import proofs.«401429_j309237645711_3_alg».proof.Proof.Kernel.Run
import proofs.«401429_j309237645711_3_alg».proof.Proof.KernelIdeal.Run
import proofs.«401429_j309237645711_3_alg».proof.Proof.RefRun
import proofs.«401429_j309237645711_3_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Run.frame m ρ

theorem frame_kernelIdeal : Cert.frame_KernelIdeal := fun m ρ _ => Cert.KernelIdeal.Run.frame m ρ

theorem frame_referenceIdeal : Cert.frame_ReferenceIdeal := fun m ρ _ => Cert.ReferenceIdeal.RefRun.frame m ρ

theorem preserves : Cert.preserves_Kernel_KernelIdeal := trivial

theorem algebraic : Cert.algebraic_KernelIdeal_ReferenceIdeal := by
  intro m ρ m' ρ' hp hagree
  refine ⟨fun c => Cert.KernelIdeal.Run.W15 m c (Proc.devRef .tc Cert.KernelIdeal.main_v75), Cert.KernelIdeal.Run.run_result m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.2.1, (hagree c).2.2.2.2.1, (hagree c).2.2.2.2.2.1, (hagree c).2.2.2.2.2.2]
  exact (Cert.Bridge.result_eq m hp c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
